-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v163)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v163) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v247) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S4 : Shape := ⟨1, ![4]⟩
abbrev S4x128x128 : Shape := ⟨3, ![4, 128, 128]⟩
abbrev S4x128 : Shape := ⟨2, ![4, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S4 : S_.BroadcastsInDim S4 (![] : Fin 0 → Fin S4.rank)
  reducesTo_S4_S_d0 : S4.ReducesTo [0] S_
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S128 .f32) (main_arg14 : FVec F S128x64 .f32) (main_arg15 : FVec F S64 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x64 .f32 := Host.absf main_arg14
  let main_cst_22 : FVec F S_ .f32 := constant S_ .f32 0x7F800000#32
  let main_v60 : FVec F S128x64 .f32 := broadcastInDim S128x64 ![] bcast_S_S128x64 main_cst_22
  let main_v61 : IVec S128x64 1 := cmpf .olt main_v59 main_v60
  let main_c_23 : IVec S_ 1 := constantI S_ 1 1#1
  let main_v62 : IVec S_ 1 := (fun x v => Host.reduce IntOp.andi x v reducesTo_S128x64_S_d0_1 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_v63 main_v67

def fn_part2 {F : FTy → Type} [FloatOps F] (main_arg9 : FVec F S4x128 .f32) (main_arg10 : FVec F S4x128x128 .f32) (main_arg11 : FVec F S4x128 .f32) (main_arg12 : FVec F S128x128 .f32) (main_arg13 : FVec F S128 .f32) (main_arg14 : FVec F S128x64 .f32) (main_arg15 : FVec F S64 .f32) (main_v33 : IVec S_ 1) : IVec S_ 1 :=
  let main_v34 : FVec F S4x128 .f32 := Host.absf main_arg9
  let main_cst_12 : FVec F S_ .f32 := constant S_ .f32 0x7F800000#32
  let main_v35 : FVec F S4x128 .f32 := broadcastInDim S4x128 ![] bcast_S_S4x128 main_cst_12
  let main_v36 : IVec S4x128 1 := cmpf .olt main_v34 main_v35
  let main_c_13 : IVec S_ 1 := constantI S_ 1 1#1
  let main_v37 : IVec S_ 1 := (fun x v => Host.reduce IntOp.andi x v reducesTo_S4x128_S_d0_1 h_S_) main_v36 main_c_13
  let main_v38 : IVec S_ 1 := andi main_v33 main_v37
  let main_v39 : FVec F S4x128x128 .f32 := Host.absf main_arg10
  let main_cst_14 : FVec F S_ .f32 := constant S_ .f32 0x7F800000#32
  let main_v40 : FVec F S4x128x128 .f32 := broadcastInDim S4x128x128 ![] bcast_S_S4x128x128 main_cst_14
  let main_v41 : IVec S4x128x128 1 := cmpf .olt main_v39 main_v40
  let main_c_15 : IVec S_ 1 := constantI S_ 1 1#1
  let main_v42 : IVec S_ 1 := (fun x v => Host.reduce IntOp.andi x v reducesTo_S4x128x128_S_d0_1_2 h_S_) main_v41 main_c_15
  let main_v43 : IVec S_ 1 := andi main_v38 main_v42
  let main_v44 : FVec F S4x128 .f32 := Host.absf main_arg11
  let main_cst_16 : FVec F S_ .f32 := constant S_ .f32 0x7F800000#32
  let main_v45 : FVec F S4x128 .f32 := broadcastInDim S4x128 ![] bcast_S_S4x128 main_cst_16
  let main_v46 : IVec S4x128 1 := cmpf .olt main_v44 main_v45
  let main_c_17 : IVec S_ 1 := constantI S_ 1 1#1
  let main_v47 : IVec S_ 1 := (fun x v => Host.reduce IntOp.andi x v reducesTo_S4x128_S_d0_1 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg13 main_arg14 main_arg15 main_v48 main_v49 main_v50

def fn_part1 {F : FTy → Type} [FloatOps F] (main_arg6 : FVec F S4x128 .f32) (main_arg7 : FVec F S4x128 .f32) (main_arg8 : FVec F S4x128 .f32) (main_arg9 : FVec F S4x128 .f32) (main_arg10 : FVec F S4x128x128 .f32) (main_arg11 : FVec F S4x128 .f32) (main_arg12 : FVec F S128x128 .f32) (main_arg13 : FVec F S128 .f32) (main_arg14 : FVec F S128x64 .f32) (main_arg15 : FVec F S64 .f32) (main_v13 : IVec S_ 1) (main_v16 : IVec S4x128 1) : IVec S_ 1 :=
  let main_c_5 : IVec S_ 1 := constantI S_ 1 1#1
  let main_v17 : IVec S_ 1 := (fun x v => Host.reduce IntOp.andi x v reducesTo_S4x128_S_d0_1 h_S_) main_v16 main_c_5
  let main_v18 : IVec S_ 1 := andi main_v13 main_v17
  let main_v19 : FVec F S4x128 .f32 := Host.absf main_arg6
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  let main_v24 : FVec F S4x128 .f32 := Host.absf main_arg7
  let main_cst_8 : FVec F S_ .f32 := constant S_ .f32 0x7F800000#32
  let main_v25 : FVec F S4x128 .f32 := broadcastInDim S4x128 ![] bcast_S_S4x128 main_cst_8
  let main_v26 : IVec S4x128 1 := cmpf .olt main_v24 main_v25
  let main_c_9 : IVec S_ 1 := constantI S_ 1 1#1
  let main_v27 : IVec S_ 1 := (fun x v => Host.reduce IntOp.andi x v reducesTo_S4x128_S_d0_1 h_S_) main_v26 main_c_9
  let main_v28 : IVec S_ 1 := andi main_v23 main_v27
  let main_v29 : FVec F S4x128 .f32 := Host.absf main_arg8
  let main_cst_10 : FVec F S_ .f32 := constant S_ .f32 0x7F800000#32
  let main_v30 : FVec F S4x128 .f32 := broadcastInDim S4x128 ![] bcast_S_S4x128 main_cst_10
  let main_v31 : IVec S4x128 1 := cmpf .olt main_v29 main_v30
  let main_c_11 : IVec S_ 1 := constantI S_ 1 1#1
  let main_v32 : IVec S_ 1 := (fun x v => Host.reduce IntOp.andi x v reducesTo_S4x128_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S100000x128 .f32) (main_arg1 : IVec S2x1600000 32) (main_arg2 : IVec S100000 32) (main_arg3 : FVec F S4 .f32) (main_arg4 : FVec F S4x128x128 .f32) (main_arg5 : FVec F S4x128 .f32) (main_arg6 : FVec F S4x128 .f32) (main_arg7 : FVec F S4x128 .f32) (main_arg8 : FVec F S4x128 .f32) (main_arg9 : FVec F S4x128 .f32) (main_arg10 : FVec F S4x128x128 .f32) (main_arg11 : FVec F S4x128 .f32) (main_arg12 : FVec F S128x128 .f32) (main_arg13 : FVec F S128 .f32) (main_arg14 : FVec F S128x64 .f32) (main_arg15 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S4 .f32 := Host.absf main_arg3
  let main_cst_0 : FVec F S_ .f32 := constant S_ .f32 0x7F800000#32
  let main_v5 : FVec F S4 .f32 := broadcastInDim S4 ![] bcast_S_S4 main_cst_0
  let main_v6 : IVec S4 1 := cmpf .olt main_v4 main_v5
  let main_c_1 : IVec S_ 1 := constantI S_ 1 1#1
  let main_v7 : IVec S_ 1 := (fun x v => Host.reduce IntOp.andi x v reducesTo_S4_S_d0 h_S_) main_v6 main_c_1
  let main_v8 : IVec S_ 1 := andi main_v3 main_v7
  let main_v9 : FVec F S4x128x128 .f32 := Host.absf main_arg4
  let main_cst_2 : FVec F S_ .f32 := constant S_ .f32 0x7F800000#32
  let main_v10 : FVec F S4x128x128 .f32 := broadcastInDim S4x128x128 ![] bcast_S_S4x128x128 main_cst_2
  let main_v11 : IVec S4x128x128 1 := cmpf .olt main_v9 main_v10
  let main_c_3 : IVec S_ 1 := constantI S_ 1 1#1
  let main_v12 : IVec S_ 1 := (fun x v => Host.reduce IntOp.andi x v reducesTo_S4x128x128_S_d0_1_2 h_S_) main_v11 main_c_3
  let main_v13 : IVec S_ 1 := andi main_v8 main_v12
  let main_v14 : FVec F S4x128 .f32 := Host.absf main_arg5
  let main_cst_4 : FVec F S_ .f32 := constant S_ .f32 0x7F800000#32
  let main_v15 : FVec F S4x128 .f32 := broadcastInDim S4x128 ![] bcast_S_S4x128 main_cst_4
  let main_v16 : IVec S4x128 1 := cmpf .olt main_v14 main_v15
  fn_part1 (F := F) main_arg6 main_arg7 main_arg8 main_arg9 main_arg10 main_arg11 main_arg12 main_arg13 main_arg14 main_arg15 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S4 : Shape := ⟨1, ![4]⟩
abbrev S4x128x128 : Shape := ⟨3, ![4, 128, 128]⟩
abbrev S4x128 : Shape := ⟨2, ![4, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1 : Shape := ⟨1, ![1]⟩
abbrev S1x128x128 : Shape := ⟨3, ![1, 128, 128]⟩
abbrev S1x128 : Shape := ⟨2, ![1, 128]⟩
abbrev S5000x128 : Shape := ⟨2, ![5000, 128]⟩
abbrev S100000x1 : Shape := ⟨2, ![100000, 1]⟩
abbrev S1x64 : Shape := ⟨2, ![1, 64]⟩
abbrev S512x64 : Shape := ⟨2, ![512, 64]⟩
abbrev S5000x1 : Shape := ⟨2, ![5000, 1]⟩
abbrev S512x128 : Shape := ⟨2, ![512, 128]⟩
abbrev S5000x512 : Shape := ⟨2, ![5000, 512]⟩

abbrev nBuf : Space → Nat
  | .hbm => 196
  | .vmem => 58
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S4, .f32⟩
  | 4 => ⟨S4x128x128, .f32⟩
  | 5 => ⟨S4x128, .f32⟩
  | 6 => ⟨S4x128, .f32⟩
  | 7 => ⟨S4x128, .f32⟩
  | 8 => ⟨S4x128, .f32⟩
  | 9 => ⟨S4x128, .f32⟩
  | 10 => ⟨S4x128x128, .f32⟩
  | 11 => ⟨S4x128, .f32⟩
  | 12 => ⟨S128x128, .f32⟩
  | 13 => ⟨S128, .f32⟩
  | 14 => ⟨S128x64, .f32⟩
  | 15 => ⟨S64, .f32⟩
  | 16 => ⟨S1x1600000, .i32⟩
  | 17 => ⟨S1600000, .i32⟩
  | 18 => ⟨S1x1600000, .i32⟩
  | 19 => ⟨S1600000, .i32⟩
  | 20 => ⟨S_, .i32⟩
  | 21 => ⟨S1600000, .i32⟩
  | 22 => ⟨S1600000, .i1⟩
  | 23 => ⟨S_, .i32⟩
  | 24 => ⟨S1600000, .i32⟩
  | 25 => ⟨S1600000, .i32⟩
  | 26 => ⟨S1600000, .i32⟩
  | 27 => ⟨S1600000x1, .i32⟩
  | 28 => ⟨S1600000x128, .f32⟩
  | 29 => ⟨S_, .f32⟩
  | 30 => ⟨S100000x128, .f32⟩
  | 31 => ⟨S1600000x1, .i32⟩
  | 32 => ⟨S100000x128, .f32⟩
  | 33 => ⟨S1, .f32⟩
  | 34 => ⟨S_, .f32⟩
  | 35 => ⟨S_, .f32⟩
  | 36 => ⟨S_, .f32⟩
  | 37 => ⟨S100000x128, .f32⟩
  | 38 => ⟨S100000x128, .f32⟩
  | 39 => ⟨S100000x128, .f32⟩
  | 40 => ⟨S1x128x128, .f32⟩
  | 41 => ⟨S128x128, .f32⟩
  | 42 => ⟨S1x128, .f32⟩
  | 43 => ⟨S128, .f32⟩
  | 44 => ⟨S1x128, .f32⟩
  | 45 => ⟨S1x128, .f32⟩
  | 46 => ⟨S128, .f32⟩
  | 47 => ⟨S1x128, .f32⟩
  | 48 => ⟨S1x128, .f32⟩
  | 49 => ⟨S128, .f32⟩
  | 50 => ⟨S1x128, .f32⟩
  | 51 => ⟨S1x128, .f32⟩
  | 52 => ⟨S128, .f32⟩
  | 53 => ⟨S1x128, .f32⟩
  | 54 => ⟨S1x128, .f32⟩
  | 55 => ⟨S128, .f32⟩
  | 56 => ⟨S1x128, .f32⟩
  | 57 => ⟨S1x128x128, .f32⟩
  | 58 => ⟨S128x128, .f32⟩
  | 59 => ⟨S1x128, .f32⟩
  | 60 => ⟨S128, .f32⟩
  | 61 => ⟨S1x128, .f32⟩
  | 62 => ⟨S100000x128, .f32⟩
  | 63 => ⟨S_, .i32⟩
  | 64 => ⟨S1600000, .i32⟩
  | 65 => ⟨S1600000, .i1⟩
  | 66 => ⟨S_, .i32⟩
  | 67 => ⟨S1600000, .i32⟩
  | 68 => ⟨S1600000, .i32⟩
  | 69 => ⟨S1600000, .i32⟩
  | 70 => ⟨S1600000x1, .i32⟩
  | 71 => ⟨S1600000x128, .f32⟩
  | 72 => ⟨S_, .f32⟩
  | 73 => ⟨S100000x128, .f32⟩
  | 74 => ⟨S1600000x1, .i32⟩
  | 75 => ⟨S100000x128, .f32⟩
  | 76 => ⟨S1, .f32⟩
  | 77 => ⟨S_, .f32⟩
  | 78 => ⟨S_, .f32⟩
  | 79 => ⟨S_, .f32⟩
  | 80 => ⟨S100000x128, .f32⟩
  | 81 => ⟨S100000x128, .f32⟩
  | 82 => ⟨S100000x128, .f32⟩
  | 83 => ⟨S1x128x128, .f32⟩
  | 84 => ⟨S128x128, .f32⟩
  | 85 => ⟨S1x128, .f32⟩
  | 86 => ⟨S128, .f32⟩
  | 87 => ⟨S1x128, .f32⟩
  | 88 => ⟨S1x128, .f32⟩
  | 89 => ⟨S128, .f32⟩
  | 90 => ⟨S1x128, .f32⟩
  | 91 => ⟨S1x128, .f32⟩
  | 92 => ⟨S128, .f32⟩
  | 93 => ⟨S1x128, .f32⟩
  | 94 => ⟨S1x128, .f32⟩
  | 95 => ⟨S128, .f32⟩
  | 96 => ⟨S1x128, .f32⟩
  | 97 => ⟨S1x128, .f32⟩
  | 98 => ⟨S128, .f32⟩
  | 99 => ⟨S1x128, .f32⟩
  | 100 => ⟨S1x128x128, .f32⟩
  | 101 => ⟨S128x128, .f32⟩
  | 102 => ⟨S1x128, .f32⟩
  | 103 => ⟨S128, .f32⟩
  | 104 => ⟨S1x128, .f32⟩
  | 105 => ⟨S100000x128, .f32⟩
  | 106 => ⟨S_, .i32⟩
  | 107 => ⟨S1600000, .i32⟩
  | 108 => ⟨S1600000, .i1⟩
  | 109 => ⟨S_, .i32⟩
  | 110 => ⟨S1600000, .i32⟩
  | 111 => ⟨S1600000, .i32⟩
  | 112 => ⟨S1600000, .i32⟩
  | 113 => ⟨S1600000x1, .i32⟩
  | 114 => ⟨S1600000x128, .f32⟩
  | 115 => ⟨S_, .f32⟩
  | 116 => ⟨S100000x128, .f32⟩
  | 117 => ⟨S1600000x1, .i32⟩
  | 118 => ⟨S100000x128, .f32⟩
  | 119 => ⟨S1, .f32⟩
  | 120 => ⟨S_, .f32⟩
  | 121 => ⟨S_, .f32⟩
  | 122 => ⟨S_, .f32⟩
  | 123 => ⟨S100000x128, .f32⟩
  | 124 => ⟨S100000x128, .f32⟩
  | 125 => ⟨S100000x128, .f32⟩
  | 126 => ⟨S1x128x128, .f32⟩
  | 127 => ⟨S128x128, .f32⟩
  | _ => ⟨S100000x128, .f32⟩

abbrev hbmTy0_1 (i : Nat) : BufTy := match i % 128 with
  | 0 => ⟨S1x128, .f32⟩
  | 1 => ⟨S128, .f32⟩
  | 2 => ⟨S1x128, .f32⟩
  | 3 => ⟨S1x128, .f32⟩
  | 4 => ⟨S128, .f32⟩
  | 5 => ⟨S1x128, .f32⟩
  | 6 => ⟨S1x128, .f32⟩
  | 7 => ⟨S128, .f32⟩
  | 8 => ⟨S1x128, .f32⟩
  | 9 => ⟨S1x128, .f32⟩
  | 10 => ⟨S128, .f32⟩
  | 11 => ⟨S1x128, .f32⟩
  | 12 => ⟨S1x128, .f32⟩
  | 13 => ⟨S128, .f32⟩
  | 14 => ⟨S1x128, .f32⟩
  | 15 => ⟨S1x128x128, .f32⟩
  | 16 => ⟨S128x128, .f32⟩
  | 17 => ⟨S1x128, .f32⟩
  | 18 => ⟨S128, .f32⟩
  | 19 => ⟨S1x128, .f32⟩
  | 20 => ⟨S100000x128, .f32⟩
  | 21 => ⟨S_, .i32⟩
  | 22 => ⟨S1600000, .i32⟩
  | 23 => ⟨S1600000, .i1⟩
  | 24 => ⟨S_, .i32⟩
  | 25 => ⟨S1600000, .i32⟩
  | 26 => ⟨S1600000, .i32⟩
  | 27 => ⟨S1600000, .i32⟩
  | 28 => ⟨S1600000x1, .i32⟩
  | 29 => ⟨S1600000x128, .f32⟩
  | 30 => ⟨S_, .f32⟩
  | 31 => ⟨S100000x128, .f32⟩
  | 32 => ⟨S1600000x1, .i32⟩
  | 33 => ⟨S100000x128, .f32⟩
  | 34 => ⟨S1, .f32⟩
  | 35 => ⟨S_, .f32⟩
  | 36 => ⟨S_, .f32⟩
  | 37 => ⟨S_, .f32⟩
  | 38 => ⟨S100000x128, .f32⟩
  | 39 => ⟨S100000x128, .f32⟩
  | 40 => ⟨S100000x128, .f32⟩
  | 41 => ⟨S1x128x128, .f32⟩
  | 42 => ⟨S128x128, .f32⟩
  | 43 => ⟨S1x128, .f32⟩
  | 44 => ⟨S128, .f32⟩
  | 45 => ⟨S1x128, .f32⟩
  | 46 => ⟨S1x128, .f32⟩
  | 47 => ⟨S128, .f32⟩
  | 48 => ⟨S1x128, .f32⟩
  | 49 => ⟨S1x128, .f32⟩
  | 50 => ⟨S128, .f32⟩
  | 51 => ⟨S1x128, .f32⟩
  | 52 => ⟨S1x128, .f32⟩
  | 53 => ⟨S128, .f32⟩
  | 54 => ⟨S1x128, .f32⟩
  | 55 => ⟨S1x128, .f32⟩
  | 56 => ⟨S128, .f32⟩
  | 57 => ⟨S1x128, .f32⟩
  | 58 => ⟨S1x128x128, .f32⟩
  | 59 => ⟨S128x128, .f32⟩
  | 60 => ⟨S1x128, .f32⟩
  | 61 => ⟨S128, .f32⟩
  | 62 => ⟨S1x128, .f32⟩
  | 63 => ⟨S100000x128, .f32⟩
  | 64 => ⟨S100000x1, .i32⟩
  | 65 => ⟨S1x128, .f32⟩
  | 66 => ⟨S1x64, .f32⟩
  | 67 => ⟨S512x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S128x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S128x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S128x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S128x128, .f32⟩
  | .local _ .vmem, ⟨39, _⟩ => ⟨S1x128, .f32⟩
  | .local _ .vmem, ⟨40, _⟩ => ⟨S1x128, .f32⟩
  | .local _ .vmem, ⟨41, _⟩ => ⟨S1x128, .f32⟩
  | .local _ .vmem, ⟨42, _⟩ => ⟨S1x128, .f32⟩
  | .local _ .vmem, ⟨43, _⟩ => ⟨S1x128, .f32⟩
  | .local _ .vmem, ⟨44, _⟩ => ⟨S128x128, .f32⟩
  | .local _ .vmem, ⟨45, _⟩ => ⟨S1x128, .f32⟩
  | .local _ .vmem, ⟨46, _⟩ => ⟨S5000x128, .f32⟩
  | .local _ .vmem, ⟨47, _⟩ => ⟨S5000x128, .f32⟩
  | .local _ .vmem, ⟨48, _⟩ => ⟨S5000x1, .i32⟩
  | .local _ .vmem, ⟨49, _⟩ => ⟨S5000x1, .i32⟩
  | .local _ .vmem, ⟨50, _⟩ => ⟨S5000x128, .f32⟩
  | .local _ .vmem, ⟨51, _⟩ => ⟨S5000x128, .f32⟩
  | .local _ .vmem, ⟨52, _⟩ => ⟨S128x128, .f32⟩
  | .local _ .vmem, ⟨53, _⟩ => ⟨S1x128, .f32⟩
  | .local _ .vmem, ⟨54, _⟩ => ⟨S128x64, .f32⟩
  | .local _ .vmem, ⟨55, _⟩ => ⟨S1x64, .f32⟩
  | .local _ .vmem, ⟨56, _⟩ => ⟨S512x64, .f32⟩
  | .local _ .vmem, ⟨57, _⟩ => ⟨S512x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  ofTc nBuf bufTy 0 57 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_1 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_c_2 : Ref sig .tc := ⟨.hbm, 63, rfl⟩
abbrev main_v43 : Ref sig .tc := ⟨.hbm, 64, rfl⟩
abbrev main_v44 : Ref sig .tc := ⟨.hbm, 65, rfl⟩
abbrev main_c_3 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_4 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_5 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_c_6 : Ref sig .tc := ⟨.hbm, 106, rfl⟩
abbrev main_v82 : Ref sig .tc := ⟨.hbm, 107, rfl⟩
abbrev main_v83 : Ref sig .tc := ⟨.hbm, 108, rfl⟩
abbrev main_c_7 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_cst_8 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_cst_9 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_c_10 : Ref sig .tc := ⟨.hbm, 149, rfl⟩
abbrev main_v121 : Ref sig .tc := ⟨.hbm, 150, rfl⟩
abbrev main_v122 : Ref sig .tc := ⟨.hbm, 151, rfl⟩
abbrev main_c_11 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_cst_12 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_cst_13 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_v160 : Ref sig .tc := ⟨.hbm, 192, rfl⟩
abbrev main_v161 : Ref sig .tc := ⟨.hbm, 193, rfl⟩
abbrev main_v162 : Ref sig .tc := ⟨.hbm, 194, rfl⟩
abbrev main_v163 : Ref sig .tc := ⟨.hbm, 195, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg9_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg7_0 : Ref sig .tc := ⟨.vmem, 32, rfl⟩
abbrev cc2_stg8_0 : Ref sig .tc := ⟨.vmem, 33, rfl⟩
abbrev cc2_stg9_0 : Ref sig .tc := ⟨.vmem, 34, rfl⟩
abbrev cc2_stg9_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg2_0 : Ref sig .tc := ⟨.vmem, 39, rfl⟩
abbrev cc3_stg3_0 : Ref sig .tc := ⟨.vmem, 40, rfl⟩
abbrev cc3_stg4_0 : Ref sig .tc := ⟨.vmem, 41, rfl⟩
abbrev cc3_stg5_0 : Ref sig .tc := ⟨.vmem, 42, rfl⟩
abbrev cc3_stg6_0 : Ref sig .tc := ⟨.vmem, 43, rfl⟩
abbrev cc3_stg7_0 : Ref sig .tc := ⟨.vmem, 44, rfl⟩
abbrev cc3_stg8_0 : Ref sig .tc := ⟨.vmem, 45, rfl⟩
abbrev cc3_stg9_0 : Ref sig .tc := ⟨.vmem, 46, rfl⟩
abbrev cc3_stg9_1 : Ref sig .tc := ⟨.vmem, 47, rfl⟩
abbrev cc4_stg0_0 : Ref sig .tc := ⟨.vmem, 48, rfl⟩
abbrev cc4_stg0_1 : Ref sig .tc := ⟨.vmem, 49, rfl⟩
abbrev cc4_stg1_0 : Ref sig .tc := ⟨.vmem, 50, rfl⟩
abbrev cc4_stg1_1 : Ref sig .tc := ⟨.vmem, 51, rfl⟩
abbrev cc4_stg2_0 : Ref sig .tc := ⟨.vmem, 52, rfl⟩
abbrev cc4_stg3_0 : Ref sig .tc := ⟨.vmem, 53, rfl⟩
abbrev cc4_stg4_0 : Ref sig .tc := ⟨.vmem, 54, rfl⟩
abbrev cc4_stg5_0 : Ref sig .tc := ⟨.vmem, 55, rfl⟩
abbrev cc4_stg6_0 : Ref sig .tc := ⟨.vmem, 56, rfl⟩
abbrev cc4_scratch0 : Ref sig .tc := ⟨.vmem, 57, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem9_0 : DmaSem sig := 22
abbrev cc1_sem9_1 : DmaSem sig := 23
abbrev cc2_sem0_0 : DmaSem sig := 24
abbrev cc2_sem0_1 : DmaSem sig := 25
abbrev cc2_sem1_0 : DmaSem sig := 26
abbrev cc2_sem2_0 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem7_0 : DmaSem sig := 32
abbrev cc2_sem8_0 : DmaSem sig := 33
abbrev cc2_sem9_0 : DmaSem sig := 34
abbrev cc2_sem9_1 : DmaSem sig := 35
abbrev cc3_sem0_0 : DmaSem sig := 36
abbrev cc3_sem0_1 : DmaSem sig := 37
abbrev cc3_sem1_0 : DmaSem sig := 38
abbrev cc3_sem2_0 : DmaSem sig := 39
abbrev cc3_sem3_0 : DmaSem sig := 40
abbrev cc3_sem4_0 : DmaSem sig := 41
abbrev cc3_sem5_0 : DmaSem sig := 42
abbrev cc3_sem6_0 : DmaSem sig := 43
abbrev cc3_sem7_0 : DmaSem sig := 44
abbrev cc3_sem8_0 : DmaSem sig := 45
abbrev cc3_sem9_0 : DmaSem sig := 46
abbrev cc3_sem9_1 : DmaSem sig := 47
abbrev cc4_sem0_0 : DmaSem sig := 48
abbrev cc4_sem0_1 : DmaSem sig := 49
abbrev cc4_sem1_0 : DmaSem sig := 50
abbrev cc4_sem1_1 : DmaSem sig := 51
abbrev cc4_sem2_0 : DmaSem sig := 52
abbrev cc4_sem3_0 : DmaSem sig := 53
abbrev cc4_sem4_0 : DmaSem sig := 54
abbrev cc4_sem5_0 : DmaSem sig := 55
abbrev cc4_sem6_0 : DmaSem sig := 56

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S5000x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S128x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S5000x128 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev grid4 : Pipeline.Grid := ⟨1, ![20], ![false]⟩

def k4_cond2 (i : grid4.Coords) : BitVec 1 :=
  let arg0 : BitVec 32 := BitVec.ofNat 32 (i 0).val
  let c19_i32 : BitVec 32 := 19#32
  let v18 : BitVec 1 := Scalar.cmpi .eq arg0 c19_i32
  let v19 : BitVec 32 := Scalar.extui v18
  let c0_i32_8 : BitVec 32 := 0#32
  let v20 : BitVec 1 := Scalar.cmpi .ne v19 c0_i32_8
  v20

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x1 .i32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S512x64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  slices_S4_S1_0 : S4.Slices ![0] S1
  shapeCasts_S1_S_ : S1.ShapeCasts S_
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S4_S1_1 : S4.Slices ![1] S1
  slices_S4x128x128_S1x128x128_1_0_0 : S4x128x128.Slices ![1, 0, 0] S1x128x128
  slices_S4x128_S1x128_1_0 : S4x128.Slices ![1, 0] S1x128
  slices_S4_S1_2 : S4.Slices ![2] S1
  slices_S4x128x128_S1x128x128_2_0_0 : S4x128x128.Slices ![2, 0, 0] S1x128x128
  slices_S4x128_S1x128_2_0 : S4x128.Slices ![2, 0] S1x128
  slices_S4_S1_3 : S4.Slices ![3] S1
  slices_S4x128x128_S1x128x128_3_0_0 : S4x128x128.Slices ![3, 0, 0] S1x128x128
  slices_S4x128_S1x128_3_0 : S4x128.Slices ![3, 0] S1x128
  shapeCasts_S100000_S100000x1 : S100000.ShapeCasts S100000x1
  shapeCasts_S64_S1x64 : S64.ShapeCasts S1x64
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x512_d1_w32 : S5000x512.Iotas .tc 32 [1]
  broadcasts_S5000x1_S5000x512 : S5000x1.Broadcasts S5000x512
  natLt_1_32 : 1 < 32
  broadcasts_S1x128_S512x128 : S1x128.Broadcasts S512x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  inb_S512x64_S512x64_0_0 : ∀ a, (![0, 0] : Fin 2 → Nat) a + S512x64.size a ≤ S512x64.size a
  h_S512x64 : 0 < S512x64.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x512_S5000x128_S512x128_0_0_1_1_n_n_wf : DotDims.WF S5000x512 S5000x128 S512x128 [0] [0] [1] [1] [] []
  dot_S512x128_S128x128_S512x128_1_0_0_1_n_n_wf : DotDims.WF S512x128 S128x128 S512x128 [1] [0] [0] [1] [] []
  dot_S512x128_S128x64_S512x64_1_0_0_1_n_n_wf : DotDims.WF S512x128 S128x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x128.size a ≤ S100000x128.size a
  hwx0_9 : ∀ i : grid0.Coords, EltTy.bits .f32 = 32 ∨ (Rect.block (s := S100000x128) S5000x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x128.size a ≤ S100000x128.size a
  hwx1_9 : ∀ i : grid1.Coords, EltTy.bits .f32 = 32 ∨ (Rect.block (s := S100000x128) S5000x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x128.size a ≤ S128x128.size a
  hwx2_7 : ∀ i : grid2.Coords, EltTy.bits .f32 = 32 ∨ (Rect.block (s := S128x128) S128x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S5000x128.size a ≤ S100000x128.size a
  hwx2_9 : ∀ i : grid2.Coords, EltTy.bits .f32 = 32 ∨ (Rect.block (s := S100000x128) S5000x128.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S128x128.size a ≤ S128x128.size a
  hwx3_7 : ∀ i : grid3.Coords, EltTy.bits .f32 = 32 ∨ (Rect.block (s := S128x128) S128x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x128.size a ≤ S1x128.size a
  hwx3_8 : ∀ i : grid3.Coords, EltTy.bits .f32 = 32 ∨ (Rect.block (s := S1x128) S1x128.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S5000x128.size a ≤ S100000x128.size a
  hwx3_9 : ∀ i : grid3.Coords, EltTy.bits .f32 = 32 ∨ (Rect.block (s := S100000x128) S5000x128.size (cc3_transform_9 i) (hinb3_9 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x1.size a ≤ S100000x1.size a
  hwx4_0 : ∀ i : grid4.Coords, EltTy.bits .i32 = 32 ∨ (Rect.block (s := S100000x1) S5000x1.size (cc4_transform_0 i) (hinb4_0 i)).WholeWords (EltTy.packing .i32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x64.size a ≤ S128x64.size a
  hwx4_4 : ∀ i : grid4.Coords, EltTy.bits .f32 = 32 ∨ (Rect.block (s := S128x64) S128x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x64.size a ≤ S1x64.size a
  hwx4_5 : ∀ i : grid4.Coords, EltTy.bits .f32 = 32 ∨ (Rect.block (s := S1x64) S1x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S512x64.size a ≤ S512x64.size a
  hwx4_6 : ∀ i : grid4.Coords, EltTy.bits .f32 = 32 ∨ (Rect.block (s := S512x64) S512x64.size (cc4_transform_6 i) (hinb4_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x512_S5000x128_S512x128_0_0_1_1_n_n : DotDims S5000x512 S5000x128 S512x128 where
  lhsContracting := [0]
  rhsContracting := [0]
  lhsNonContracting := [1]
  rhsNonContracting := [1]
  lhsBatch := []
  rhsBatch := []
  wf := dot_S5000x512_S5000x128_S512x128_0_0_1_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf

abbrev win0_0 : Pipeline.Window sig grid0 :=
  Pipeline.Window.ofSpec (Memref.whole main_v19) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v24) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v30) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v33) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v36) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v38) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v41) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v42) S5000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v58) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v60) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v63) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v66) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v69) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v72) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v75) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v77) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v80) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v81) S5000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v97) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v99) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v102) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v105) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v108) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v111) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v114) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v116) S128x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v119) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v120) S5000x128.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v136) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v138) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v141) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v144) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v147) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v150) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v153) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v155) S128x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v158) S1x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v159) S5000x128.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev win4_0 : Pipeline.Window sig grid4 :=
  Pipeline.Window.ofSpec (Memref.whole main_v160) S5000x1.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v159) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg12) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v161) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg14) S128x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v162) S1x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v163) S512x64.size cc4_transform_6 reads4_6 true true 1 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev idle4 : Fin 7 → grid4.Coords → Bool := fun | 0 => fun _ => false | 1 => fun _ => false | 2 => fun _ => false | 3 => fun _ => false | 4 => fun _ => false | 5 => fun _ => false | 6 => fun i => !(k4_cond2 i == 1#1) | ⟨_ + 7, h⟩ => absurd h (Nat.not_lt.2 (Nat.le_add_left _ _))

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S4 : Shape := ⟨1, ![4]⟩
abbrev S4x128x128 : Shape := ⟨3, ![4, 128, 128]⟩
abbrev S4x128 : Shape := ⟨2, ![4, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1 : Shape := ⟨1, ![1]⟩
abbrev S1x128x128 : Shape := ⟨3, ![1, 128, 128]⟩
abbrev S1x128 : Shape := ⟨2, ![1, 128]⟩
abbrev S512x128 : Shape := ⟨2, ![512, 128]⟩
abbrev S100000x1 : Shape := ⟨2, ![100000, 1]⟩
abbrev S512x64 : Shape := ⟨2, ![512, 64]⟩
abbrev S1x64 : Shape := ⟨2, ![1, 64]⟩

abbrev nBuf : Space → Nat
  | .hbm => 311
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S4, .f32⟩
  | 4 => ⟨S4x128x128, .f32⟩
  | 5 => ⟨S4x128, .f32⟩
  | 6 => ⟨S4x128, .f32⟩
  | 7 => ⟨S4x128, .f32⟩
  | 8 => ⟨S4x128, .f32⟩
  | 9 => ⟨S4x128, .f32⟩
  | 10 => ⟨S4x128x128, .f32⟩
  | 11 => ⟨S4x128, .f32⟩
  | 12 => ⟨S128x128, .f32⟩
  | 13 => ⟨S128, .f32⟩
  | 14 => ⟨S128x64, .f32⟩
  | 15 => ⟨S64, .f32⟩
  | 16 => ⟨S1x1600000, .i32⟩
  | 17 => ⟨S1600000, .i32⟩
  | 18 => ⟨S1x1600000, .i32⟩
  | 19 => ⟨S1600000, .i32⟩
  | 20 => ⟨S_, .i32⟩
  | 21 => ⟨S1600000, .i32⟩
  | 22 => ⟨S1600000, .i1⟩
  | 23 => ⟨S_, .i32⟩
  | 24 => ⟨S1600000, .i32⟩
  | 25 => ⟨S1600000, .i32⟩
  | 26 => ⟨S1600000, .i32⟩
  | 27 => ⟨S1600000x1, .i32⟩
  | 28 => ⟨S1600000x128, .f32⟩
  | 29 => ⟨S_, .f32⟩
  | 30 => ⟨S100000x128, .f32⟩
  | 31 => ⟨S1600000x1, .i32⟩
  | 32 => ⟨S100000x128, .f32⟩
  | 33 => ⟨S1, .f32⟩
  | 34 => ⟨S_, .f32⟩
  | 35 => ⟨S_, .f32⟩
  | 36 => ⟨S_, .f32⟩
  | 37 => ⟨S100000x128, .f32⟩
  | 38 => ⟨S100000x128, .f32⟩
  | 39 => ⟨S100000x128, .f32⟩
  | 40 => ⟨S1x128x128, .f32⟩
  | 41 => ⟨S128x128, .f32⟩
  | 42 => ⟨S100000x128, .f32⟩
  | 43 => ⟨S1x128, .f32⟩
  | 44 => ⟨S128, .f32⟩
  | 45 => ⟨S1x128, .f32⟩
  | 46 => ⟨S100000x128, .f32⟩
  | 47 => ⟨S100000x128, .f32⟩
  | 48 => ⟨S_, .f32⟩
  | 49 => ⟨S100000x128, .f32⟩
  | 50 => ⟨S100000x128, .f32⟩
  | 51 => ⟨S1x128, .f32⟩
  | 52 => ⟨S128, .f32⟩
  | 53 => ⟨S1x128, .f32⟩
  | 54 => ⟨S100000x128, .f32⟩
  | 55 => ⟨S100000x128, .f32⟩
  | 56 => ⟨S1x128, .f32⟩
  | 57 => ⟨S128, .f32⟩
  | 58 => ⟨S_, .f32⟩
  | 59 => ⟨S128, .f32⟩
  | 60 => ⟨S128, .f32⟩
  | 61 => ⟨S128, .f32⟩
  | 62 => ⟨S1x128, .f32⟩
  | 63 => ⟨S100000x128, .f32⟩
  | 64 => ⟨S100000x128, .f32⟩
  | 65 => ⟨S1x128, .f32⟩
  | 66 => ⟨S128, .f32⟩
  | 67 => ⟨S1x128, .f32⟩
  | 68 => ⟨S100000x128, .f32⟩
  | 69 => ⟨S100000x128, .f32⟩
  | 70 => ⟨S1x128, .f32⟩
  | 71 => ⟨S128, .f32⟩
  | 72 => ⟨S1x128, .f32⟩
  | 73 => ⟨S100000x128, .f32⟩
  | 74 => ⟨S100000x128, .f32⟩
  | 75 => ⟨S_, .f32⟩
  | 76 => ⟨S100000x128, .f32⟩
  | 77 => ⟨S100000x128, .f32⟩
  | 78 => ⟨S1x128x128, .f32⟩
  | 79 => ⟨S128x128, .f32⟩
  | 80 => ⟨S100000x128, .f32⟩
  | 81 => ⟨S1x128, .f32⟩
  | 82 => ⟨S128, .f32⟩
  | 83 => ⟨S1x128, .f32⟩
  | 84 => ⟨S100000x128, .f32⟩
  | 85 => ⟨S100000x128, .f32⟩
  | 86 => ⟨S_, .f32⟩
  | 87 => ⟨S100000x128, .f32⟩
  | 88 => ⟨S100000x128, .f32⟩
  | 89 => ⟨S_, .i32⟩
  | 90 => ⟨S1600000, .i32⟩
  | 91 => ⟨S1600000, .i1⟩
  | 92 => ⟨S_, .i32⟩
  | 93 => ⟨S1600000, .i32⟩
  | 94 => ⟨S1600000, .i32⟩
  | 95 => ⟨S1600000, .i32⟩
  | 96 => ⟨S1600000x1, .i32⟩
  | 97 => ⟨S1600000x128, .f32⟩
  | 98 => ⟨S_, .f32⟩
  | 99 => ⟨S100000x128, .f32⟩
  | 100 => ⟨S1600000x1, .i32⟩
  | 101 => ⟨S100000x128, .f32⟩
  | 102 => ⟨S1, .f32⟩
  | 103 => ⟨S_, .f32⟩
  | 104 => ⟨S_, .f32⟩
  | 105 => ⟨S_, .f32⟩
  | 106 => ⟨S100000x128, .f32⟩
  | 107 => ⟨S100000x128, .f32⟩
  | 108 => ⟨S100000x128, .f32⟩
  | 109 => ⟨S1x128x128, .f32⟩
  | 110 => ⟨S128x128, .f32⟩
  | 111 => ⟨S100000x128, .f32⟩
  | 112 => ⟨S1x128, .f32⟩
  | 113 => ⟨S128, .f32⟩
  | 114 => ⟨S1x128, .f32⟩
  | 115 => ⟨S100000x128, .f32⟩
  | 116 => ⟨S100000x128, .f32⟩
  | 117 => ⟨S_, .f32⟩
  | 118 => ⟨S100000x128, .f32⟩
  | 119 => ⟨S100000x128, .f32⟩
  | 120 => ⟨S1x128, .f32⟩
  | 121 => ⟨S128, .f32⟩
  | 122 => ⟨S1x128, .f32⟩
  | 123 => ⟨S100000x128, .f32⟩
  | 124 => ⟨S100000x128, .f32⟩
  | 125 => ⟨S1x128, .f32⟩
  | 126 => ⟨S128, .f32⟩
  | 127 => ⟨S_, .f32⟩
  | _ => ⟨S100000x128, .f32⟩

abbrev hbmTy0_1 (i : Nat) : BufTy := match i % 128 with
  | 0 => ⟨S128, .f32⟩
  | 1 => ⟨S128, .f32⟩
  | 2 => ⟨S128, .f32⟩
  | 3 => ⟨S1x128, .f32⟩
  | 4 => ⟨S100000x128, .f32⟩
  | 5 => ⟨S100000x128, .f32⟩
  | 6 => ⟨S1x128, .f32⟩
  | 7 => ⟨S128, .f32⟩
  | 8 => ⟨S1x128, .f32⟩
  | 9 => ⟨S100000x128, .f32⟩
  | 10 => ⟨S100000x128, .f32⟩
  | 11 => ⟨S1x128, .f32⟩
  | 12 => ⟨S128, .f32⟩
  | 13 => ⟨S1x128, .f32⟩
  | 14 => ⟨S100000x128, .f32⟩
  | 15 => ⟨S100000x128, .f32⟩
  | 16 => ⟨S_, .f32⟩
  | 17 => ⟨S100000x128, .f32⟩
  | 18 => ⟨S100000x128, .f32⟩
  | 19 => ⟨S1x128x128, .f32⟩
  | 20 => ⟨S128x128, .f32⟩
  | 21 => ⟨S100000x128, .f32⟩
  | 22 => ⟨S1x128, .f32⟩
  | 23 => ⟨S128, .f32⟩
  | 24 => ⟨S1x128, .f32⟩
  | 25 => ⟨S100000x128, .f32⟩
  | 26 => ⟨S100000x128, .f32⟩
  | 27 => ⟨S_, .f32⟩
  | 28 => ⟨S100000x128, .f32⟩
  | 29 => ⟨S100000x128, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000x128, .f32⟩
  | 39 => ⟨S_, .f32⟩
  | 40 => ⟨S100000x128, .f32⟩
  | 41 => ⟨S1600000x1, .i32⟩
  | 42 => ⟨S100000x128, .f32⟩
  | 43 => ⟨S1, .f32⟩
  | 44 => ⟨S_, .f32⟩
  | 45 => ⟨S_, .f32⟩
  | 46 => ⟨S_, .f32⟩
  | 47 => ⟨S100000x128, .f32⟩
  | 48 => ⟨S100000x128, .f32⟩
  | 49 => ⟨S100000x128, .f32⟩
  | 50 => ⟨S1x128x128, .f32⟩
  | 51 => ⟨S128x128, .f32⟩
  | 52 => ⟨S100000x128, .f32⟩
  | 53 => ⟨S1x128, .f32⟩
  | 54 => ⟨S128, .f32⟩
  | 55 => ⟨S1x128, .f32⟩
  | 56 => ⟨S100000x128, .f32⟩
  | 57 => ⟨S100000x128, .f32⟩
  | 58 => ⟨S_, .f32⟩
  | 59 => ⟨S100000x128, .f32⟩
  | 60 => ⟨S100000x128, .f32⟩
  | 61 => ⟨S1x128, .f32⟩
  | 62 => ⟨S128, .f32⟩
  | 63 => ⟨S1x128, .f32⟩
  | 64 => ⟨S100000x128, .f32⟩
  | 65 => ⟨S100000x128, .f32⟩
  | 66 => ⟨S1x128, .f32⟩
  | 67 => ⟨S128, .f32⟩
  | 68 => ⟨S_, .f32⟩
  | 69 => ⟨S128, .f32⟩
  | 70 => ⟨S128, .f32⟩
  | 71 => ⟨S128, .f32⟩
  | 72 => ⟨S1x128, .f32⟩
  | 73 => ⟨S100000x128, .f32⟩
  | 74 => ⟨S100000x128, .f32⟩
  | 75 => ⟨S1x128, .f32⟩
  | 76 => ⟨S128, .f32⟩
  | 77 => ⟨S1x128, .f32⟩
  | 78 => ⟨S100000x128, .f32⟩
  | 79 => ⟨S100000x128, .f32⟩
  | 80 => ⟨S1x128, .f32⟩
  | 81 => ⟨S128, .f32⟩
  | 82 => ⟨S1x128, .f32⟩
  | 83 => ⟨S100000x128, .f32⟩
  | 84 => ⟨S100000x128, .f32⟩
  | 85 => ⟨S_, .f32⟩
  | 86 => ⟨S100000x128, .f32⟩
  | 87 => ⟨S100000x128, .f32⟩
  | 88 => ⟨S1x128x128, .f32⟩
  | 89 => ⟨S128x128, .f32⟩
  | 90 => ⟨S100000x128, .f32⟩
  | 91 => ⟨S1x128, .f32⟩
  | 92 => ⟨S128, .f32⟩
  | 93 => ⟨S1x128, .f32⟩
  | 94 => ⟨S100000x128, .f32⟩
  | 95 => ⟨S100000x128, .f32⟩
  | 96 => ⟨S_, .f32⟩
  | 97 => ⟨S100000x128, .f32⟩
  | 98 => ⟨S100000x128, .f32⟩
  | 99 => ⟨S_, .i32⟩
  | 100 => ⟨S1600000, .i32⟩
  | 101 => ⟨S1600000, .i1⟩
  | 102 => ⟨S_, .i32⟩
  | 103 => ⟨S1600000, .i32⟩
  | 104 => ⟨S1600000, .i32⟩
  | 105 => ⟨S1600000, .i32⟩
  | 106 => ⟨S1600000x1, .i32⟩
  | 107 => ⟨S1600000x128, .f32⟩
  | 108 => ⟨S_, .f32⟩
  | 109 => ⟨S100000x128, .f32⟩
  | 110 => ⟨S1600000x1, .i32⟩
  | 111 => ⟨S100000x128, .f32⟩
  | 112 => ⟨S1, .f32⟩
  | 113 => ⟨S_, .f32⟩
  | 114 => ⟨S_, .f32⟩
  | 115 => ⟨S_, .f32⟩
  | 116 => ⟨S100000x128, .f32⟩
  | 117 => ⟨S100000x128, .f32⟩
  | 118 => ⟨S100000x128, .f32⟩
  | 119 => ⟨S1x128x128, .f32⟩
  | 120 => ⟨S128x128, .f32⟩
  | 121 => ⟨S100000x128, .f32⟩
  | 122 => ⟨S1x128, .f32⟩
  | 123 => ⟨S128, .f32⟩
  | 124 => ⟨S1x128, .f32⟩
  | 125 => ⟨S100000x128, .f32⟩
  | 126 => ⟨S100000x128, .f32⟩
  | 127 => ⟨S_, .f32⟩
  | _ => ⟨S100000x128, .f32⟩

abbrev hbmTy0_2 (i : Nat) : BufTy := match i % 128 with
  | 0 => ⟨S100000x128, .f32⟩
  | 1 => ⟨S100000x128, .f32⟩
  | 2 => ⟨S1x128, .f32⟩
  | 3 => ⟨S128, .f32⟩
  | 4 => ⟨S1x128, .f32⟩
  | 5 => ⟨S100000x128, .f32⟩
  | 6 => ⟨S100000x128, .f32⟩
  | 7 => ⟨S1x128, .f32⟩
  | 8 => ⟨S128, .f32⟩
  | 9 => ⟨S_, .f32⟩
  | 10 => ⟨S128, .f32⟩
  | 11 => ⟨S128, .f32⟩
  | 12 => ⟨S128, .f32⟩
  | 13 => ⟨S1x128, .f32⟩
  | 14 => ⟨S100000x128, .f32⟩
  | 15 => ⟨S100000x128, .f32⟩
  | 16 => ⟨S1x128, .f32⟩
  | 17 => ⟨S128, .f32⟩
  | 18 => ⟨S1x128, .f32⟩
  | 19 => ⟨S100000x128, .f32⟩
  | 20 => ⟨S100000x128, .f32⟩
  | 21 => ⟨S1x128, .f32⟩
  | 22 => ⟨S128, .f32⟩
  | 23 => ⟨S1x128, .f32⟩
  | 24 => ⟨S100000x128, .f32⟩
  | 25 => ⟨S100000x128, .f32⟩
  | 26 => ⟨S_, .f32⟩
  | 27 => ⟨S100000x128, .f32⟩
  | 28 => ⟨S100000x128, .f32⟩
  | 29 => ⟨S1x128x128, .f32⟩
  | 30 => ⟨S128x128, .f32⟩
  | 31 => ⟨S100000x128, .f32⟩
  | 32 => ⟨S1x128, .f32⟩
  | 33 => ⟨S128, .f32⟩
  | 34 => ⟨S1x128, .f32⟩
  | 35 => ⟨S100000x128, .f32⟩
  | 36 => ⟨S100000x128, .f32⟩
  | 37 => ⟨S_, .f32⟩
  | 38 => ⟨S100000x128, .f32⟩
  | 39 => ⟨S100000x128, .f32⟩
  | 40 => ⟨S_, .f32⟩
  | 41 => ⟨S512x128, .f32⟩
  | 42 => ⟨S100000x1, .i32⟩
  | 43 => ⟨S512x128, .f32⟩
  | 44 => ⟨S512x128, .f32⟩
  | 45 => ⟨S1x128, .f32⟩
  | 46 => ⟨S512x128, .f32⟩
  | 47 => ⟨S512x128, .f32⟩
  | 48 => ⟨S_, .f32⟩
  | 49 => ⟨S512x128, .f32⟩
  | 50 => ⟨S512x128, .f32⟩
  | 51 => ⟨S512x64, .f32⟩
  | 52 => ⟨S1x64, .f32⟩
  | 53 => ⟨S512x64, .f32⟩
  | 54 => ⟨S512x64, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_1 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_call0_cst : Ref sig .tc := ⟨.hbm, 48, rfl⟩
abbrev main_call0_v0 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_2 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_call1_cst : Ref sig .tc := ⟨.hbm, 75, rfl⟩
abbrev main_call1_v0 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_call2_cst : Ref sig .tc := ⟨.hbm, 86, rfl⟩
abbrev main_call2_v0 : Ref sig .tc := ⟨.hbm, 87, rfl⟩
abbrev main_v61 : Ref sig .tc := ⟨.hbm, 88, rfl⟩
abbrev main_c_3 : Ref sig .tc := ⟨.hbm, 89, rfl⟩
abbrev main_v62 : Ref sig .tc := ⟨.hbm, 90, rfl⟩
abbrev main_v63 : Ref sig .tc := ⟨.hbm, 91, rfl⟩
abbrev main_c_4 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_5 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_6 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_call3_cst : Ref sig .tc := ⟨.hbm, 117, rfl⟩
abbrev main_call3_v0 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_cst_7 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_call4_cst : Ref sig .tc := ⟨.hbm, 144, rfl⟩
abbrev main_call4_v0 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_call5_cst : Ref sig .tc := ⟨.hbm, 155, rfl⟩
abbrev main_call5_v0 : Ref sig .tc := ⟨.hbm, 156, rfl⟩
abbrev main_v119 : Ref sig .tc := ⟨.hbm, 157, rfl⟩
abbrev main_c_8 : Ref sig .tc := ⟨.hbm, 158, rfl⟩
abbrev main_v120 : Ref sig .tc := ⟨.hbm, 159, rfl⟩
abbrev main_v121 : Ref sig .tc := ⟨.hbm, 160, rfl⟩
abbrev main_c_9 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_cst_10 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_cst_11 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_call6_cst : Ref sig .tc := ⟨.hbm, 186, rfl⟩
abbrev main_call6_v0 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_cst_12 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_call7_cst : Ref sig .tc := ⟨.hbm, 213, rfl⟩
abbrev main_call7_v0 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_call8_cst : Ref sig .tc := ⟨.hbm, 224, rfl⟩
abbrev main_call8_v0 : Ref sig .tc := ⟨.hbm, 225, rfl⟩
abbrev main_v177 : Ref sig .tc := ⟨.hbm, 226, rfl⟩
abbrev main_c_13 : Ref sig .tc := ⟨.hbm, 227, rfl⟩
abbrev main_v178 : Ref sig .tc := ⟨.hbm, 228, rfl⟩
abbrev main_v179 : Ref sig .tc := ⟨.hbm, 229, rfl⟩
abbrev main_c_14 : Ref sig .tc := ⟨.hbm, 230, rfl⟩
abbrev main_v180 : Ref sig .tc := ⟨.hbm, 231, rfl⟩
abbrev main_v181 : Ref sig .tc := ⟨.hbm, 232, rfl⟩
abbrev main_v182 : Ref sig .tc := ⟨.hbm, 233, rfl⟩
abbrev main_v183 : Ref sig .tc := ⟨.hbm, 234, rfl⟩
abbrev main_v184 : Ref sig .tc := ⟨.hbm, 235, rfl⟩
abbrev main_cst_15 : Ref sig .tc := ⟨.hbm, 236, rfl⟩
abbrev main_v185 : Ref sig .tc := ⟨.hbm, 237, rfl⟩
abbrev main_v186 : Ref sig .tc := ⟨.hbm, 238, rfl⟩
abbrev main_v187 : Ref sig .tc := ⟨.hbm, 239, rfl⟩
abbrev main_v188 : Ref sig .tc := ⟨.hbm, 240, rfl⟩
abbrev main_v189 : Ref sig .tc := ⟨.hbm, 241, rfl⟩
abbrev main_cst_16 : Ref sig .tc := ⟨.hbm, 242, rfl⟩
abbrev main_v190 : Ref sig .tc := ⟨.hbm, 243, rfl⟩
abbrev main_v191 : Ref sig .tc := ⟨.hbm, 244, rfl⟩
abbrev main_v192 : Ref sig .tc := ⟨.hbm, 245, rfl⟩
abbrev main_v193 : Ref sig .tc := ⟨.hbm, 246, rfl⟩
abbrev main_v194 : Ref sig .tc := ⟨.hbm, 247, rfl⟩
abbrev main_v195 : Ref sig .tc := ⟨.hbm, 248, rfl⟩
abbrev main_v196 : Ref sig .tc := ⟨.hbm, 249, rfl⟩
abbrev main_v197 : Ref sig .tc := ⟨.hbm, 250, rfl⟩
abbrev main_v198 : Ref sig .tc := ⟨.hbm, 251, rfl⟩
abbrev main_v199 : Ref sig .tc := ⟨.hbm, 252, rfl⟩
abbrev main_v200 : Ref sig .tc := ⟨.hbm, 253, rfl⟩
abbrev main_v201 : Ref sig .tc := ⟨.hbm, 254, rfl⟩
abbrev main_call9_cst : Ref sig .tc := ⟨.hbm, 255, rfl⟩
abbrev main_call9_v0 : Ref sig .tc := ⟨.hbm, 256, rfl⟩
abbrev main_v202 : Ref sig .tc := ⟨.hbm, 257, rfl⟩
abbrev main_v203 : Ref sig .tc := ⟨.hbm, 258, rfl⟩
abbrev main_v204 : Ref sig .tc := ⟨.hbm, 259, rfl⟩
abbrev main_v205 : Ref sig .tc := ⟨.hbm, 260, rfl⟩
abbrev main_v206 : Ref sig .tc := ⟨.hbm, 261, rfl⟩
abbrev main_v207 : Ref sig .tc := ⟨.hbm, 262, rfl⟩
abbrev main_v208 : Ref sig .tc := ⟨.hbm, 263, rfl⟩
abbrev main_v209 : Ref sig .tc := ⟨.hbm, 264, rfl⟩
abbrev main_cst_17 : Ref sig .tc := ⟨.hbm, 265, rfl⟩
abbrev main_v210 : Ref sig .tc := ⟨.hbm, 266, rfl⟩
abbrev main_v211 : Ref sig .tc := ⟨.hbm, 267, rfl⟩
abbrev main_v212 : Ref sig .tc := ⟨.hbm, 268, rfl⟩
abbrev main_v213 : Ref sig .tc := ⟨.hbm, 269, rfl⟩
abbrev main_v214 : Ref sig .tc := ⟨.hbm, 270, rfl⟩
abbrev main_v215 : Ref sig .tc := ⟨.hbm, 271, rfl⟩
abbrev main_v216 : Ref sig .tc := ⟨.hbm, 272, rfl⟩
abbrev main_v217 : Ref sig .tc := ⟨.hbm, 273, rfl⟩
abbrev main_v218 : Ref sig .tc := ⟨.hbm, 274, rfl⟩
abbrev main_v219 : Ref sig .tc := ⟨.hbm, 275, rfl⟩
abbrev main_v220 : Ref sig .tc := ⟨.hbm, 276, rfl⟩
abbrev main_v221 : Ref sig .tc := ⟨.hbm, 277, rfl⟩
abbrev main_v222 : Ref sig .tc := ⟨.hbm, 278, rfl⟩
abbrev main_v223 : Ref sig .tc := ⟨.hbm, 279, rfl⟩
abbrev main_v224 : Ref sig .tc := ⟨.hbm, 280, rfl⟩
abbrev main_v225 : Ref sig .tc := ⟨.hbm, 281, rfl⟩
abbrev main_call10_cst : Ref sig .tc := ⟨.hbm, 282, rfl⟩
abbrev main_call10_v0 : Ref sig .tc := ⟨.hbm, 283, rfl⟩
abbrev main_v226 : Ref sig .tc := ⟨.hbm, 284, rfl⟩
abbrev main_v227 : Ref sig .tc := ⟨.hbm, 285, rfl⟩
abbrev main_v228 : Ref sig .tc := ⟨.hbm, 286, rfl⟩
abbrev main_v229 : Ref sig .tc := ⟨.hbm, 287, rfl⟩
abbrev main_v230 : Ref sig .tc := ⟨.hbm, 288, rfl⟩
abbrev main_v231 : Ref sig .tc := ⟨.hbm, 289, rfl⟩
abbrev main_v232 : Ref sig .tc := ⟨.hbm, 290, rfl⟩
abbrev main_v233 : Ref sig .tc := ⟨.hbm, 291, rfl⟩
abbrev main_v234 : Ref sig .tc := ⟨.hbm, 292, rfl⟩
abbrev main_call11_cst : Ref sig .tc := ⟨.hbm, 293, rfl⟩
abbrev main_call11_v0 : Ref sig .tc := ⟨.hbm, 294, rfl⟩
abbrev main_v235 : Ref sig .tc := ⟨.hbm, 295, rfl⟩
abbrev main_cst_18 : Ref sig .tc := ⟨.hbm, 296, rfl⟩
abbrev main_v236 : Ref sig .tc := ⟨.hbm, 297, rfl⟩
abbrev main_v237 : Ref sig .tc := ⟨.hbm, 298, rfl⟩
abbrev main_v238 : Ref sig .tc := ⟨.hbm, 299, rfl⟩
abbrev main_v239 : Ref sig .tc := ⟨.hbm, 300, rfl⟩
abbrev main_v240 : Ref sig .tc := ⟨.hbm, 301, rfl⟩
abbrev main_v241 : Ref sig .tc := ⟨.hbm, 302, rfl⟩
abbrev main_v242 : Ref sig .tc := ⟨.hbm, 303, rfl⟩
abbrev main_call12_cst : Ref sig .tc := ⟨.hbm, 304, rfl⟩
abbrev main_call12_v0 : Ref sig .tc := ⟨.hbm, 305, rfl⟩
abbrev main_v243 : Ref sig .tc := ⟨.hbm, 306, rfl⟩
abbrev main_v244 : Ref sig .tc := ⟨.hbm, 307, rfl⟩
abbrev main_v245 : Ref sig .tc := ⟨.hbm, 308, rfl⟩
abbrev main_v246 : Ref sig .tc := ⟨.hbm, 309, rfl⟩
abbrev main_v247 : Ref sig .tc := ⟨.hbm, 310, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  slices_S4_S1_0 : S4.Slices ![0] S1
  shapeCasts_S1_S_ : S1.ShapeCasts S_
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  slices_S4_S1_1 : S4.Slices ![1] S1
  slices_S4x128x128_S1x128x128_1_0_0 : S4x128x128.Slices ![1, 0, 0] S1x128x128
  slices_S4x128_S1x128_1_0 : S4x128.Slices ![1, 0] S1x128
  slices_S4_S1_2 : S4.Slices ![2] S1
  slices_S4x128x128_S1x128x128_2_0_0 : S4x128x128.Slices ![2, 0, 0] S1x128x128
  slices_S4x128_S1x128_2_0 : S4x128.Slices ![2, 0] S1x128
  slices_S4_S1_3 : S4.Slices ![3] S1
  slices_S4x128x128_S1x128x128_3_0_0 : S4x128x128.Slices ![3, 0, 0] S1x128x128
  slices_S4x128_S1x128_3_0 : S4x128.Slices ![3, 0] S1x128
  bcast_S_S512x128 : S_.BroadcastsInDim S512x128 (![] : Fin 0 → Fin S512x128.rank)
  bcast_S100000_S100000x1_0 : S100000.BroadcastsInDim S100000x1 (![0] : Fin 1 → Fin S100000x1.rank)
  bcast_S1x128_S512x128_0_1 : S1x128.BroadcastsInDim S512x128 (![0, 1] : Fin 2 → Fin S512x128.rank)
  bcast_S64_S1x64_1 : S64.BroadcastsInDim S1x64 (![1] : Fin 1 → Fin S1x64.rank)
  bcast_S1x64_S512x64_0_1 : S1x64.BroadcastsInDim S512x64 (![0, 1] : Fin 2 → Fin S512x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S512x128_S100000x1_S100000x128_1_0_0_1_wf : ScatterDims.WF S512x128 S100000x1 S100000x128 [1] [0] [0] 1
  dot_S512x128_S128x128_S512x128_1_0_0_1_n_n_wf : DotDims.WF S512x128 S128x128 S512x128 [1] [0] [0] [1] [] []
  dot_S512x128_S128x64_S512x64_1_0_0_1_n_n_wf : DotDims.WF S512x128 S128x64 S512x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf

class Facts : Prop extends Facts₀ where

variable [Facts]
-- ==== Proof.KI.Reg0.lean ====
import proofs.«428851_j84464826843159_1_alg».proof.Proof.Gen.KernelIdeal.Launch
import proofs.«428851_j84464826843159_1_alg».proof.Proof.Gen.KernelIdeal.Skeleton
import proofs.«428851_j84464826843159_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rect0_rows : Rect S5000x128 := Rect.unit (s := S5000x128) ![0, 0] S5000x128.size inb_S5000x128_S5000x128_0_0

abbrev rect0_sq : Rect S128x128 := Rect.unit (s := S128x128) ![0, 0] S128x128.size inb_S128x128_S128x128_0_0

abbrev rect0_row : Rect S1x128 := Rect.unit (s := S1x128) ![0, 0] S1x128.size inb_S1x128_S1x128_0_0

def out0_9 (x0 : Vec F S5000x128 .f32) (x1 : Vec F S128x128 .f32) (x2 x3 x4 x5 x6 : Vec F S1x128 .f32) (x7 : Vec F S128x128 .f32) (x8 : Vec F S1x128 .f32) : Vec F S5000x128 .f32 :=
  View.canon [⟨rect0_rows, k0_pay1
    (k0_pay2 (View.ld x0 rect0_rows) (View.ld x1 rect0_sq) (View.ld x2 rect0_row) (View.ld x5 rect0_row) (View.ld x6 rect0_row) (View.ld x3 rect0_row) (View.ld x4 rect0_row))
    (k0_pay3 (View.ld x7 rect0_sq)) (constant S5000x128 .f32 0x00000000#32) (View.ld x8 rect0_row)⟩]

theorem cover0_9 (p0 : Vec F S5000x128 .f32) (y : S5000x128.Idx) :
    ∃ pc ∈ ([⟨rect0_rows, p0⟩] : List (View.Piece (Elt F) S5000x128 .f32)), y ∈ pc.1.set :=
  View.cover_of_tiled [⟨rect0_rows, p0⟩] S5000x128.size (by rfl) y

set_option maxHeartbeats 4000000 in

theorem sound_kernel0 (c : Dev nD) (E : Set ℕ) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S5000x128 .f32) (harg10 : arg10.IsWhole)
    (x0 : Vec F S5000x128 .f32) (x1 : Vec F S128x128 .f32) (x2 x3 x4 x5 x6 : Vec F S1x128 .f32) (x7 : Vec F S128x128 .f32) (x8 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2 x3 x4 x5 x6 x7 x8)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10) K := by
  simp only [cc0__mlp_kernel_eq_skeleton]; unfold cc0__mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  try dsimp only
  exact View.read_writes_eq_canon _ _ _ (cover0_9 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 1 t) (iblk0 V c 2 t) (iblk0 V c 3 t) (iblk0 V c 4 t) (iblk0 V c 5 t) (iblk0 V c 6 t) (iblk0 V c 7 t) (iblk0 V c 8 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl) (fun t => by rw [after0_5]; unfold Dat.blockOf iblk0; rw [A_eq0]; try rfl) t d).trans
    (by unfold Dat.fetched Dat.blockOf iblk0; rw [A_eq0]; try rfl)
theorem before0_6 (c : Dev nD) (t : Fin cfg0.N) (d) : (dat0 V c).before 6 t d = iblk0 V c 6 t :=
  ((dat0 V c).before_in_eq_fetched 6 rfl (fun _ => rfl) (fun _ _ _ => rfl) (fun t => by rw [after0_6]; unfold Dat.blockOf iblk0; rw [A_eq0]; try rfl) t d).trans
    (by unfold Dat.fetched Dat.blockOf iblk0; rw [A_eq0]; try rfl)
theorem before0_7 (c : Dev nD) (t : Fin cfg0.N) (d) : (dat0 V c).before 7 t d = iblk0 V c 7 t :=
  ((dat0 V c).before_in_eq_fetched 7 rfl (fun _ => rfl) (fun _ _ _ => rfl) (fun t => by rw [after0_7]; unfold Dat.blockOf iblk0; rw [A_eq0]; try rfl) t d).trans
    (by unfold Dat.fetched Dat.blockOf iblk0; rw [A_eq0]; try rfl)
theorem before0_8 (c : Dev nD) (t : Fin cfg0.N) (d) : (dat0 V c).before 8 t d = iblk0 V c 8 t :=
  ((dat0 V c).before_in_eq_fetched 8 rfl (fun _ => rfl) (fun _ _ _ => rfl) (fun t => by rw [after0_8]; unfold Dat.blockOf iblk0; rw [A_eq0]; try rfl) t d).trans
    (by unfold Dat.fetched Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation0 (c : Dev nD) : BodyObligation (dat0 (F := F) V c) (defs₀ (F := F)) Variants.none () Set.univ := fun t => by
  rw [bigSep_W0, bigSep_W0]
  exact sound_body0 V c t

end Cert.KernelIdeal.Hand
-- ==== Proof.KI.Reg1.lean ====
import proofs.«428851_j84464826843159_1_alg».proof.Proof.KI.Reg0
import proofs.«428851_j84464826843159_1_alg».proof.Proof.Gen.KernelIdeal.Launch
import proofs.«428851_j84464826843159_1_alg».proof.Proof.Gen.KernelIdeal.Skeleton
import proofs.«428851_j84464826843159_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out0_9 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = out0_9 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl) (fun t => by rw [after1_6]; unfold Dat.blockOf iblk1; rw [A_eq1]; try rfl) t d).trans
    (by unfold Dat.fetched Dat.blockOf iblk1; rw [A_eq1]; try rfl)
theorem before1_7 (c : Dev nD) (t : Fin cfg1.N) (d) : (dat1 V c).before 7 t d = iblk1 V c 7 t :=
  ((dat1 V c).before_in_eq_fetched 7 rfl (fun _ => rfl) (fun _ _ _ => rfl) (fun t => by rw [after1_7]; unfold Dat.blockOf iblk1; rw [A_eq1]; try rfl) t d).trans
    (by unfold Dat.fetched Dat.blockOf iblk1; rw [A_eq1]; try rfl)
theorem before1_8 (c : Dev nD) (t : Fin cfg1.N) (d) : (dat1 V c).before 8 t d = iblk1 V c 8 t :=
  ((dat1 V c).before_in_eq_fetched 8 rfl (fun _ => rfl) (fun _ _ _ => rfl) (fun t => by rw [after1_8]; unfold Dat.blockOf iblk1; rw [A_eq1]; try rfl) t d).trans
    (by unfold Dat.fetched Dat.blockOf iblk1; rw [A_eq1]; try rfl)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  rw [show cc1__mlp_kernel (F := F) = cc0__mlp_kernel from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation1 (c : Dev nD) : BodyObligation (dat1 (F := F) V c) (defs₀ (F := F)) Variants.none () Set.univ := fun t => by
  rw [bigSep_W1, bigSep_W1]
  exact sound_body1 V c t

end Cert.KernelIdeal.Hand
-- ==== Proof.KI.Reg2.lean ====
import proofs.«428851_j84464826843159_1_alg».proof.Proof.KI.Reg0
import proofs.«428851_j84464826843159_1_alg».proof.Proof.Gen.KernelIdeal.Launch
import proofs.«428851_j84464826843159_1_alg».proof.Proof.Gen.KernelIdeal.Skeleton
import proofs.«428851_j84464826843159_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => out0_9 (iblk2 V c 0 t) (iblk2 V c 1 t) (iblk2 V c 2 t) (iblk2 V c 3 t) (iblk2 V c 4 t) (iblk2 V c 5 t) (iblk2 V c 6 t) (iblk2 V c 7 t) (iblk2 V c 8 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = out0_9 (iblk2 V c 0 t) (iblk2 V c 1 t) (iblk2 V c 2 t) (iblk2 V c 3 t) (iblk2 V c 4 t) (iblk2 V c 5 t) (iblk2 V c 6 t) (iblk2 V c 7 t) (iblk2 V c 8 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl) (fun t => by rw [after2_4]; unfold Dat.blockOf iblk2; rw [A_eq2]; try rfl) t d).trans
    (by unfold Dat.fetched Dat.blockOf iblk2; rw [A_eq2]; try rfl)
theorem before2_5 (c : Dev nD) (t : Fin cfg2.N) (d) : (dat2 V c).before 5 t d = iblk2 V c 5 t :=
  ((dat2 V c).before_in_eq_fetched 5 rfl (fun _ => rfl) (fun _ _ _ => rfl) (fun t => by rw [after2_5]; unfold Dat.blockOf iblk2; rw [A_eq2]; try rfl) t d).trans
    (by unfold Dat.fetched Dat.blockOf iblk2; rw [A_eq2]; try rfl)
theorem before2_6 (c : Dev nD) (t : Fin cfg2.N) (d) : (dat2 V c).before 6 t d = iblk2 V c 6 t :=
  ((dat2 V c).before_in_eq_fetched 6 rfl (fun _ => rfl) (fun _ _ _ => rfl) (fun t => by rw [after2_6]; unfold Dat.blockOf iblk2; rw [A_eq2]; try rfl) t d).trans
    (by unfold Dat.fetched Dat.blockOf iblk2; rw [A_eq2]; try rfl)
theorem before2_7 (c : Dev nD) (t : Fin cfg2.N) (d) : (dat2 V c).before 7 t d = iblk2 V c 7 t :=
  ((dat2 V c).before_in_eq_fetched 7 rfl (fun _ => rfl) (fun _ _ _ => rfl) (fun t => by rw [after2_7]; unfold Dat.blockOf iblk2; rw [A_eq2]; try rfl) t d).trans
    (by unfold Dat.fetched Dat.blockOf iblk2; rw [A_eq2]; try rfl)
theorem before2_8 (c : Dev nD) (t : Fin cfg2.N) (d) : (dat2 V c).before 8 t d = iblk2 V c 8 t :=
  ((dat2 V c).before_in_eq_fetched 8 rfl (fun _ => rfl) (fun _ _ _ => rfl) (fun t => by rw [after2_8]; unfold Dat.blockOf iblk2; rw [A_eq2]; try rfl) t d).trans
    (by unfold Dat.fetched Dat.blockOf iblk2; rw [A_eq2]; try rfl)

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9]
  rw [show cc2__mlp_kernel (F := F) = cc0__mlp_kernel from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation2 (c : Dev nD) : BodyObligation (dat2 (F := F) V c) (defs₀ (F := F)) Variants.none () Set.univ := fun t => by
  rw [bigSep_W2, bigSep_W2]
  exact sound_body2 V c t

end Cert.KernelIdeal.Hand
-- ==== Proof.KI.Reg3.lean ====
import proofs.«428851_j84464826843159_1_alg».proof.Proof.KI.Reg0
import proofs.«428851_j84464826843159_1_alg».proof.Proof.Gen.KernelIdeal.Launch
import proofs.«428851_j84464826843159_1_alg».proof.Proof.Gen.KernelIdeal.Skeleton
import proofs.«428851_j84464826843159_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => out0_9 (iblk3 V c 0 t) (iblk3 V c 1 t) (iblk3 V c 2 t) (iblk3 V c 3 t) (iblk3 V c 4 t) (iblk3 V c 5 t) (iblk3 V c 6 t) (iblk3 V c 7 t) (iblk3 V c 8 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = out0_9 (iblk3 V c 0 t) (iblk3 V c 1 t) (iblk3 V c 2 t) (iblk3 V c 3 t) (iblk3 V c 4 t) (iblk3 V c 5 t) (iblk3 V c 6 t) (iblk3 V c 7 t) (iblk3 V c 8 t) := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl) (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl) (fun t => by rw [after3_3]; unfold Dat.blockOf iblk3; rw [A_eq3]; try rfl) t d).trans
    (by unfold Dat.fetched Dat.blockOf iblk3; rw [A_eq3]; try rfl)
theorem before3_4 (c : Dev nD) (t : Fin cfg3.N) (d) : (dat3 V c).before 4 t d = iblk3 V c 4 t :=
  ((dat3 V c).before_in_eq_fetched 4 rfl (fun _ => rfl) (fun _ _ _ => rfl) (fun t => by rw [after3_4]; unfold Dat.blockOf iblk3; rw [A_eq3]; try rfl) t d).trans
    (by unfold Dat.fetched Dat.blockOf iblk3; rw [A_eq3]; try rfl)
theorem before3_5 (c : Dev nD) (t : Fin cfg3.N) (d) : (dat3 V c).before 5 t d = iblk3 V c 5 t :=
  ((dat3 V c).before_in_eq_fetched 5 rfl (fun _ => rfl) (fun _ _ _ => rfl) (fun t => by rw [after3_5]; unfold Dat.blockOf iblk3; rw [A_eq3]; try rfl) t d).trans
    (by unfold Dat.fetched Dat.blockOf iblk3; rw [A_eq3]; try rfl)
theorem before3_6 (c : Dev nD) (t : Fin cfg3.N) (d) : (dat3 V c).before 6 t d = iblk3 V c 6 t :=
  ((dat3 V c).before_in_eq_fetched 6 rfl (fun _ => rfl) (fun _ _ _ => rfl) (fun t => by rw [after3_6]; unfold Dat.blockOf iblk3; rw [A_eq3]; try rfl) t d).trans
    (by unfold Dat.fetched Dat.blockOf iblk3; rw [A_eq3]; try rfl)
theorem before3_7 (c : Dev nD) (t : Fin cfg3.N) (d) : (dat3 V c).before 7 t d = iblk3 V c 7 t :=
  ((dat3 V c).before_in_eq_fetched 7 rfl (fun _ => rfl) (fun _ _ _ => rfl) (fun t => by rw [after3_7]; unfold Dat.blockOf iblk3; rw [A_eq3]; try rfl) t d).trans
    (by unfold Dat.fetched Dat.blockOf iblk3; rw [A_eq3]; try rfl)
theorem before3_8 (c : Dev nD) (t : Fin cfg3.N) (d) : (dat3 V c).before 8 t d = iblk3 V c 8 t :=
  ((dat3 V c).before_in_eq_fetched 8 rfl (fun _ => rfl) (fun _ _ _ => rfl) (fun t => by rw [after3_8]; unfold Dat.blockOf iblk3; rw [A_eq3]; try rfl) t d).trans
    (by unfold Dat.fetched Dat.blockOf iblk3; rw [A_eq3]; try rfl)

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9]
  rw [show cc3__mlp_kernel (F := F) = cc0__mlp_kernel from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation3 (c : Dev nD) : BodyObligation (dat3 (F := F) V c) (defs₀ (F := F)) Variants.none () Set.univ := fun t => by
  rw [bigSep_W3, bigSep_W3]
  exact sound_body3 V c t

end Cert.KernelIdeal.Hand
-- ==== Proof.KI.Reg4Runs.lean ====
import proofs.«428851_j84464826843159_1_alg».proof.Proof.Gen.KernelIdeal.Launch
import proofs.«428851_j84464826843159_1_alg».proof.Proof.Gen.KernelIdeal.Skeleton
import proofs.«428851_j84464826843159_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev isFirst4 (i : grid4.Coords) : Prop :=
  (Scalar.cmpi .ne (Scalar.extui (Scalar.cmpi .eq (BitVec.ofNat 32 (i 0).val) 0#32)) 0#32) = 1#1

theorem isFirst4_iff : ∀ t : Fin cfg4.N, isFirst4 (grid4.coords t) ↔ t.val = 0 :=
  (by decide +kernel : ∀ t : Fin grid4.N, isFirst4 (grid4.coords t) ↔ t.val = 0)

abbrev isLast4 (i : grid4.Coords) : Prop := k4_cond2 i = 1#1

theorem isLast4_iff : ∀ t : Fin cfg4.N, isLast4 (grid4.coords t) ↔ t.val = 19 :=
  (by decide +kernel : ∀ t : Fin grid4.N, isLast4 (grid4.coords t) ↔ t.val = 19)

theorem liveAt4_0 : ∀ t : Fin cfg4.N, cfg4.idle 0 (grid4.coords t) = false := fun _ => rfl
theorem liveAt4_1 : ∀ t : Fin cfg4.N, cfg4.idle 1 (grid4.coords t) = false := fun _ => rfl
theorem liveAt4_2 : ∀ t : Fin cfg4.N, cfg4.idle 2 (grid4.coords t) = false := fun _ => rfl
theorem liveAt4_3 : ∀ t : Fin cfg4.N, cfg4.idle 3 (grid4.coords t) = false := fun _ => rfl
theorem liveAt4_4 : ∀ t : Fin cfg4.N, cfg4.idle 4 (grid4.coords t) = false := fun _ => rfl
theorem liveAt4_5 : ∀ t : Fin cfg4.N, cfg4.idle 5 (grid4.coords t) = false := fun _ => rfl

theorem idleAt4_6 : ∀ t : Fin cfg4.N, ¬isLast4 (grid4.coords t) → cfg4.idle 6 (grid4.coords t) = true :=
  (by decide +kernel : ∀ t : Fin grid4.N, ¬isLast4 (grid4.coords t) → idle4 6 (grid4.coords t) = true)

theorem noFlush4_6 : ∀ t : Fin cfg4.N, ¬isLast4 (grid4.coords t) → (cfg4.win 6).flush t = false :=
  (by decide +kernel : ∀ t : Fin grid4.N, ¬isLast4 (grid4.coords t) → win4_6.flush t = false)

theorem liveAt4_6 : ∀ t : Fin cfg4.N, isLast4 (grid4.coords t) → cfg4.idle 6 (grid4.coords t) = false :=
  (by decide +kernel : ∀ t : Fin grid4.N, isLast4 (grid4.coords t) → idle4 6 (grid4.coords t) = false)

abbrev ms4_0 (t : Fin cfg4.N) : Memref sig .tc .vmem S5000x1 .i32 := win4_0.stage (cfg4.slots t 0)
abbrev ms4_1 (t : Fin cfg4.N) : Memref sig .tc .vmem S5000x128 .f32 := win4_1.stage (cfg4.slots t 1)
abbrev ms4_2 (t : Fin cfg4.N) : Memref sig .tc .vmem S128x128 .f32 := win4_2.stage (cfg4.slots t 2)
abbrev ms4_3 (t : Fin cfg4.N) : Memref sig .tc .vmem S1x128 .f32 := win4_3.stage (cfg4.slots t 3)
abbrev ms4_4 (t : Fin cfg4.N) : Memref sig .tc .vmem S128x64 .f32 := win4_4.stage (cfg4.slots t 4)
abbrev ms4_5 (t : Fin cfg4.N) : Memref sig .tc .vmem S1x64 .f32 := win4_5.stage (cfg4.slots t 5)
abbrev ms4_6 (t : Fin cfg4.N) : Memref sig .tc .vmem S512x64 .f32 := win4_6.stage (cfg4.slots t 6)

abbrev scM4 : Memref sig .tc .vmem S512x128 .f32 := Memref.whole cc4_scratch0

abbrev rest4 (c : Dev nD) : sProp 𝕄 :=
  Pipeline.scopedRestBut (Ix := Unit) (Name := ℕ) (U := UR sig nD τ) (Lvl := ℕ) (Val := Elt F) spec4 c [cc4_scratch0]

theorem PhiA4_eq (c : Dev nD) :
    (Pipeline.ΦA spec4 c : sProp 𝕄)
      = iprop(iprop(iprop((∃ d, owns (c : Thread nD τ) scM4 fullShare d)) ∗ rest4 (F := F) c) ∗ (∃ r, prngReg c r)) := by
  unfold Pipeline.ΦA; rw [scopedRest4_split]; simp only [scM4, owns_whole]; try rfl

theorem off00 : (![0, 0] : Fin 2 → ℕ) = fun _ => 0 := by
  funext a; fin_cases a <;> rfl

theorem readAt_whole0 {sp : Space} {sh : Shape} {e : EltTy} (v : View sig .tc sp sh e) (f : v.ty.Contents (Elt F))
    {off : Fin sh.rank → ℕ} (h0 : off = fun _ => 0) (inb : ∀ a, off a + sh.size a ≤ sh.size a) :
    v.readAt (Elt F) (Rect.unit off sh.size inb).toLoadRect f = v.read (Elt F) f := by
  subst h0; funext x
  show v.read (Elt F) f ((Rect.whole sh).emb x) = v.read (Elt F) f x
  rw [Rect.emb_whole_apply]

theorem read_store_whole0 {sp : Space} {sh : Shape} {e : EltTy} (v : View sig .tc sp sh e) (f : v.ty.Contents (Elt F))
    {off : Fin sh.rank → ℕ} (h0 : off = fun _ => 0) (inb : ∀ a, off a + sh.size a ≤ sh.size a)
    (w : sh.Idx → Elt F e) (L : List (View.Piece (Elt F) sh e)) :
    v.read (Elt F) (v.writes (Elt F) f (⟨Rect.unit off sh.size inb, w⟩ :: L)) = w := by
  subst h0; funext y
  have h := View.read_writes_cons_emb v f (Rect.whole sh) w L y
  rw [Rect.emb_whole_apply] at h
  exact h

theorem run4_first (c : Dev nD) (i : grid4.Coords)
    (arg1 : Memref sig .tc .vmem S5000x1 .i32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x64 .f32) (harg5 : arg5.IsWhole) (arg6 : Memref sig .tc .vmem S1x64 .f32) (harg6 : arg6.IsWhole)
    (arg7 : Memref sig .tc .vmem S512x64 .f32) (harg7 : arg7.IsWhole) (arg8 : Memref sig .tc .vmem S512x128 .f32) (harg8 : arg8.IsWhole)
    (hf : isFirst4 i) (hl : ¬isLast4 i)
    (x0 : Vec F S5000x1 .i32) (x1 : Vec F S5000x128 .f32) (E : Set ℕ) (K : PUnit → sProp 𝕄) :
    iprop(owns (c : Thread nD τ) arg1 fullShare x0 ∗ owns (c : Thread nD τ) arg2 fullShare x1 ∗ (∃ d, owns (c : Thread nD τ) arg8 fullShare d)
        ∗ (iprop(owns (c : Thread nD τ) arg1 fullShare x0 ∗ owns (c : Thread nD τ) arg2 fullShare x1
            ∗ owns (c : Thread nD τ) arg8 fullShare (k4_pay2 x0 x1 (k4_pay1 (F := F)))) -∗ K ⟨⟩))
      ⊢ wp frame (wpE (defs₀ (F := F)) Variants.none c none) E (cc4__pool_head_kernel i arg1 harg1 arg2 harg2 arg3 harg3 arg4 harg4 arg5 harg5 arg6 harg6 arg7 harg7 arg8 harg8) K := by
  simp only [cc4__pool_head_kernel_eq_skeleton]; unfold cc4__pool_head_kernel_skel
  unfold owns
  iintro ⟨⟨%f0, %hf0, H0⟩, ⟨%f1, %hf1, H1⟩, ⟨%ds, %fs, -, HS⟩, Hk⟩
  obtain rfl := harg1.eq_unread hf0; obtain rfl := harg2.eq_unread hf1
  sl_exec (disch := first | exact hf | exact hl)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact HS
  ipureintro
  rw [read_store_whole0 _ _ off00 _]
  sl_unfold_run_names
  rw [View.readCov_cons_toLoadRect, readAt_whole0 _ _ off00 _, hf0, readAt_whole0 _ _ off00 _, hf1]

theorem run4_mid (c : Dev nD) (i : grid4.Coords)
    (arg1 : Memref sig .tc .vmem S5000x1 .i32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x64 .f32) (harg5 : arg5.IsWhole) (arg6 : Memref sig .tc .vmem S1x64 .f32) (harg6 : arg6.IsWhole)
    (arg7 : Memref sig .tc .vmem S512x64 .f32) (harg7 : arg7.IsWhole) (arg8 : Memref sig .tc .vmem S512x128 .f32) (harg8 : arg8.IsWhole)
    (hf : ¬isFirst4 i) (hl : ¬isLast4 i)
    (x0 : Vec F S5000x1 .i32) (x1 : Vec F S5000x128 .f32) (S : Vec F S512x128 .f32) (E : Set ℕ) (K : PUnit → sProp 𝕄) :
    iprop(owns (c : Thread nD τ) arg1 fullShare x0 ∗ owns (c : Thread nD τ) arg2 fullShare x1 ∗ owns (c : Thread nD τ) arg8 fullShare S
        ∗ (iprop(owns (c : Thread nD τ) arg1 fullShare x0 ∗ owns (c : Thread nD τ) arg2 fullShare x1
            ∗ owns (c : Thread nD τ) arg8 fullShare (k4_pay2 x0 x1 S)) -∗ K ⟨⟩))
      ⊢ wp frame (wpE (defs₀ (F := F)) Variants.none c none) E (cc4__pool_head_kernel i arg1 harg1 arg2 harg2 arg3 harg3 arg4 harg4 arg5 harg5 arg6 harg6 arg7 harg7 arg8 harg8) K := by
  simp only [cc4__pool_head_kernel_eq_skeleton]; unfold cc4__pool_head_kernel_skel
  unfold owns
  iintro ⟨⟨%f0, %hf0, H0⟩, ⟨%f1, %hf1, H1⟩, ⟨%fs, %hfs, HS⟩, Hk⟩
  obtain rfl := harg1.eq_unread hf0; obtain rfl := harg2.eq_unread hf1; obtain rfl := harg8.eq_unread hfs
  sl_exec (disch := first | exact hf | exact hl)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact HS
  ipureintro
  rw [read_store_whole0 _ _ off00 _]
  rw [readAt_whole0 _ _ off00 _, hf0, readAt_whole0 _ _ off00 _, hf1, readAt_whole0 _ _ off00 _, hfs]

theorem run4_last (c : Dev nD) (i : grid4.Coords)
    (arg1 : Memref sig .tc .vmem S5000x1 .i32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x64 .f32) (harg5 : arg5.IsWhole) (arg6 : Memref sig .tc .vmem S1x64 .f32) (harg6 : arg6.IsWhole)
    (arg7 : Memref sig .tc .vmem S512x64 .f32) (harg7 : arg7.IsWhole) (arg8 : Memref sig .tc .vmem S512x128 .f32) (harg8 : arg8.IsWhole)
    (hf : ¬isFirst4 i) (hl : isLast4 i)
    (x0 : Vec F S5000x1 .i32) (x1 : Vec F S5000x128 .f32) (x2 : Vec F S128x128 .f32) (x3 : Vec F S1x128 .f32)
    (x4 : Vec F S128x64 .f32) (x5 : Vec F S1x64 .f32) (S : Vec F S512x128 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ owns (c : Thread nD τ) arg8 fullShare S
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (k4_pay3 (k4_pay2 x0 x1 S) x2 x3 x4 x5)
            ∗ owns (c : Thread nD τ) arg8 fullShare (k4_pay2 x0 x1 S)) -∗ K ⟨⟩))
      ⊢ wp frame (wpE (defs₀ (F := F)) Variants.none c none) E (cc4__pool_head_kernel i arg1 harg1 arg2 harg2 arg3 harg3 arg4 harg4 arg5 harg5 arg6 harg6 arg7 harg7 arg8 harg8) K := by
  simp only [cc4__pool_head_kernel_eq_skeleton]; unfold cc4__pool_head_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg8.eq_unread hfs
  sl_exec (disch := first | exact hf | exact hl)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr
    swap; · iexact H6
    ipureintro
    rw [read_store_whole0 _ _ off00 _]
    sl_unfold_run_names
    first
      | rw [View.readCov_cons_toLoadRect, readAt_whole0 _ _ off00 _, hf0, readAt_whole0 _ _ off00 _, hf1,
          readAt_whole0 _ _ off00 _, hfs, readAt_whole0 _ _ off00 _, hf2, readAt_whole0 _ _ off00 _, hf3,
          readAt_whole0 _ _ off00 _, hf4, readAt_whole0 _ _ off00 _, hf5]
      | (trace_state; fail "last: output contents")
  iexists _; isplitr
  swap; · iexact HS
  ipureintro
  sl_unfold_run_names
  first
    | rw [read_store_whole0 _ _ off00 _, readAt_whole0 _ _ off00 _, hf0, readAt_whole0 _ _ off00 _, hf1,
        readAt_whole0 _ _ off00 _, hfs]
    | (trace_state; fail "last: scratch contents")

end Cert.KernelIdeal.Hand

end
-- ==== Proof.KI.Reg4.lean ====
import proofs.«428851_j84464826843159_1_alg».proof.Proof.KI.Reg4Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def accAt4 (c : Dev nD) : (n : ℕ) → n < cfg4.N → Vec F S512x128 .f32
  | 0, h => k4_pay2 (iblk4 V c 0 ⟨0, h⟩) (iblk4 V c 1 ⟨0, h⟩) (k4_pay1 (F := F))
  | n + 1, h => k4_pay2 (iblk4 V c 0 ⟨n + 1, h⟩) (iblk4 V c 1 ⟨n + 1, h⟩) (accAt4 c n (Nat.lt_of_succ_lt h))

theorem accAt4_zero (c : Dev nD) (h : 0 < cfg4.N) :
    accAt4 V c 0 h = k4_pay2 (iblk4 V c 0 ⟨0, h⟩) (iblk4 V c 1 ⟨0, h⟩) (k4_pay1 (F := F)) := rfl

theorem accAt4_succ (c : Dev nD) (n : ℕ) (h : n + 1 < cfg4.N) :
    accAt4 V c (n + 1) h = k4_pay2 (iblk4 V c 0 ⟨n + 1, h⟩) (iblk4 V c 1 ⟨n + 1, h⟩) (accAt4 V c n (Nat.lt_of_succ_lt h)) := rfl

def out4_6 (S : Vec F S512x128 .f32) (x2 : Vec F S128x128 .f32) (x3 : Vec F S1x128 .f32) (x4 : Vec F S128x64 .f32)
    (x5 : Vec F S1x64 .f32) : Vec F S512x64 .f32 :=
  k4_pay3 S x2 x3 x4 x5

def Phi4 (c : Dev nD) : (n : ℕ) → n ≤ cfg4.N → sProp 𝕄
  | 0, _ => Pipeline.ΦA spec4 c
  | n + 1, hn => iprop(iprop(owns (c : Thread nD τ) scM4 fullShare (accAt4 V c n hn) ∗ rest4 (F := F) c) ∗ (∃ r, prngReg c r))

theorem Phi4_zero (c : Dev nD) (n : ℕ) (h : n ≤ cfg4.N) (hz : n = 0) : Phi4 V c n h = Pipeline.ΦA spec4 c := by
  subst hz; rfl

theorem Phi4_succ (c : Dev nD) (n : ℕ) (hn : n < cfg4.N) :
    Phi4 V c (n + 1) hn = iprop(iprop(owns (c : Thread nD τ) scM4 fullShare (accAt4 V c n hn) ∗ rest4 (F := F) c) ∗ (∃ r, prngReg c r)) := rfl

theorem Phi4_pos (c : Dev nD) (n : ℕ) (h : n ≤ cfg4.N) (hz : n ≠ 0) :
    Phi4 V c n h = iprop(iprop(owns (c : Thread nD τ) scM4 fullShare (accAt4 V c (n - 1) (by omega)) ∗ rest4 (F := F) c) ∗ (∃ r, prngReg c r)) := by
  cases n with
  | zero => exact absurd rfl hz
  | succ n => rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out4_6 (accAt4 V c t.val t.isLt) (iblk4 V c 2 t) (iblk4 V c 3 t) (iblk4 V c 4 t) (iblk4 V c 5 t)
  Φ t := Phi4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) :
    (dat4 V c).after 6 t = out4_6 (accAt4 V c t.val t.isLt) (iblk4 V c 2 t) (iblk4 V c 3 t) (iblk4 V c 4 t) (iblk4 V c 5 t) := by
  dsimp only [dat4]

theorem Phi4_castSucc (c : Dev nD) (t : Fin cfg4.N) :
    (dat4 V c).Φ t.castSucc = Phi4 V c t.val (Nat.le_of_lt t.isLt) := by
  dsimp only [dat4]; simp only [Fin.coe_castSucc]

theorem accAt4_first (c : Dev nD) (t : Fin cfg4.N) (hz : t.val = 0) :
    accAt4 V c t.val t.isLt = k4_pay2 (iblk4 V c 0 t) (iblk4 V c 1 t) (k4_pay1 (F := F)) := by
  obtain ⟨n, hn⟩ := t
  dsimp only at hz
  subst hz
  rfl

theorem accAt4_pos (c : Dev nD) (t : Fin cfg4.N) (hz : t.val ≠ 0) :
    accAt4 V c t.val t.isLt
      = k4_pay2 (iblk4 V c 0 t) (iblk4 V c 1 t) (accAt4 V c (t.val - 1) (Nat.lt_of_le_of_lt (Nat.sub_le _ _) t.isLt)) := by
  obtain ⟨n, hn⟩ := t
  cases n with
  | zero => exact absurd rfl hz
  | succ n => rfl

theorem before4_0 (c : Dev nD) (t : Fin cfg4.N) (d) : (dat4 V c).before 0 t d = iblk4 V c 0 t :=
  ((dat4 V c).before_in_eq_fetched 0 rfl (fun _ => rfl) (fun _ _ _ => rfl)
      (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl)
      (fun t => by rw [after4_1]; unfold Dat.blockOf iblk4; rw [A_eq4]; try rfl) t d).trans
    (by unfold Dat.fetched Dat.blockOf iblk4; rw [A_eq4]; try rfl)
theorem before4_2 (c : Dev nD) (t : Fin cfg4.N) (d) : (dat4 V c).before 2 t d = iblk4 V c 2 t :=
  ((dat4 V c).before_in_eq_fetched 2 rfl (fun _ => rfl) (fun _ _ _ => rfl)
      (fun t => by rw [after4_2]; unfold Dat.blockOf iblk4; rw [A_eq4]; try rfl) t d).trans
    (by unfold Dat.fetched Dat.blockOf iblk4; rw [A_eq4]; try rfl)
theorem before4_3 (c : Dev nD) (t : Fin cfg4.N) (d) : (dat4 V c).before 3 t d = iblk4 V c 3 t :=
  ((dat4 V c).before_in_eq_fetched 3 rfl (fun _ => rfl) (fun _ _ _ => rfl)
      (fun t => by rw [after4_3]; unfold Dat.blockOf iblk4; rw [A_eq4]; try rfl) t d).trans
    (by unfold Dat.fetched Dat.blockOf iblk4; rw [A_eq4]; try rfl)
theorem before4_4 (c : Dev nD) (t : Fin cfg4.N) (d) : (dat4 V c).before 4 t d = iblk4 V c 4 t :=
  ((dat4 V c).before_in_eq_fetched 4 rfl (fun _ => rfl) (fun _ _ _ => rfl)
      (fun t => by rw [after4_4]; unfold Dat.blockOf iblk4; rw [A_eq4]; try rfl) t d).trans
    (by unfold Dat.fetched Dat.blockOf iblk4; rw [A_eq4]; try rfl)
theorem before4_5 (c : Dev nD) (t : Fin cfg4.N) (d) : (dat4 V c).before 5 t d = iblk4 V c 5 t :=
  ((dat4 V c).before_in_eq_fetched 5 rfl (fun _ => rfl) (fun _ _ _ => rfl)
      (fun t => by rw [after4_5]; unfold Dat.blockOf iblk4; rw [A_eq4]; try rfl) t d).trans
    (by unfold Dat.fetched Dat.blockOf iblk4; rw [A_eq4]; try rfl)

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t)

set_option maxHeartbeats 4800000 in

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).owesAt () t.succ = (dat4 V c).owesAt () t.castSucc from rfl]
  rw [show (dat4 V c).Φ t.succ = Phi4 V c (t.val + 1) t.isLt from rfl, Phi4_succ]
  have hN : t.val < 20 := lt_of_lt_of_eq t.isLt (show cfg4.N = 20 from N_4)
  rw [show (dat4 V c).leavesExact 0 t = owns (c : Thread nD τ) (ms4_0 t) fullShare ((dat4 V c).after 0 t) from by
        unfold Dat.leavesExact; rw [liveAt4_0 t], after4_0]
  rw [show (dat4 V c).leavesExact 1 t = owns (c : Thread nD τ) (ms4_1 t) fullShare ((dat4 V c).after 1 t) from by
        unfold Dat.leavesExact; rw [liveAt4_1 t], after4_1]
  rw [show (dat4 V c).leavesExact 2 t = owns (c : Thread nD τ) (ms4_2 t) fullShare ((dat4 V c).after 2 t) from by
        unfold Dat.leavesExact; rw [liveAt4_2 t], after4_2]
  rw [show (dat4 V c).leavesExact 3 t = owns (c : Thread nD τ) (ms4_3 t) fullShare ((dat4 V c).after 3 t) from by
        unfold Dat.leavesExact; rw [liveAt4_3 t], after4_3]
  rw [show (dat4 V c).leavesExact 4 t = owns (c : Thread nD τ) (ms4_4 t) fullShare ((dat4 V c).after 4 t) from by
        unfold Dat.leavesExact; rw [liveAt4_4 t], after4_4]
  rw [show (dat4 V c).leavesExact 5 t = owns (c : Thread nD τ) (ms4_5 t) fullShare ((dat4 V c).after 5 t) from by
        unfold Dat.leavesExact; rw [liveAt4_5 t], after4_5]
  by_cases hl : t.val = 19
  ·
    have hz : t.val ≠ 0 := by omega
    have hf' : ¬isFirst4 (grid4.coords t) := fun h => hz ((isFirst4_iff t).mp h)
    have hl' : isLast4 (grid4.coords t) := (isLast4_iff t).mpr hl
    rw [show (dat4 V c).leavesExact 6 t = owns (c : Thread nD τ) (ms4_6 t) fullShare ((dat4 V c).after 6 t) from by
          unfold Dat.leavesExact; rw [liveAt4_6 t hl'], after4_6]
    rw [Phi4_castSucc V c t, Phi4_pos V c _ _ hz, accAt4_pos V c t hz]
    unfold out4_6
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
    iapply (run4_last c (grid4.coords t) _ _ _ _ _ _ _ _ _ _ _ _ _ _ _ _ hf' hl'
      (iblk4 V c 0 t) (iblk4 V c 1 t) (iblk4 V c 2 t) (iblk4 V c 3 t) (iblk4 V c 4 t) (iblk4 V c 5 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, H6, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hl' : ¬isLast4 (grid4.coords t) := fun h => hl ((isLast4_iff t).mp h)
    rw [Dat.leavesExact_idle (dat4 V c) 6 t (idleAt4_6 t hl') (noFlush4_6 t hl')]
    by_cases hz : t.val = 0
    ·
      have hf' : isFirst4 (grid4.coords t) := (isFirst4_iff t).mpr hz
      rw [Phi4_castSucc V c t, Phi4_zero V c _ _ hz, PhiA4_eq, accAt4_first V c t hz]
      iintro ⟨⟨⟨HS, HR⟩, Hg⟩, Ho, ⟨%d0, H0⟩, ⟨%d1, H1⟩, ⟨%d2, H2⟩, ⟨%d3, H3⟩, ⟨%d4, H4⟩, ⟨%d5, H5⟩, H6⟩
      iapply (run4_first c (grid4.coords t) _ _ _ _ _ _ _ _ _ _ _ _ _ _ _ _ hf' hl'
        (iblk4 V c 0 t) (iblk4 V c 1 t) Set.univ _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    ·
      have hf' : ¬isFirst4 (grid4.coords t) := fun h => hz ((isFirst4_iff t).mp h)
      rw [Phi4_castSucc V c t, Phi4_pos V c _ _ hz, accAt4_pos V c t hz]
      iintro ⟨⟨⟨HS, HR⟩, Hg⟩, Ho, ⟨%d0, H0⟩, ⟨%d1, H1⟩, ⟨%d2, H2⟩, ⟨%d3, H3⟩, ⟨%d4, H4⟩, ⟨%d5, H5⟩, H6⟩
      iapply (run4_mid c (grid4.coords t) _ _ _ _ _ _ _ _ _ _ _ _ _ _ _ _ hf' hl'
        (iblk4 V c 0 t) (iblk4 V c 1 t) _ Set.univ _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := by
  rw [show (dat4 V c).Φ 0 = Phi4 V c 0 (Nat.zero_le _) from rfl, Phi4_zero V c 0 _ rfl]
  try exact Idealize.SL.BI.Entails.refl _

theorem Phi4_out (c : Dev nD) (t : Fin (cfg4.N + 1)) (ht : t.val ≠ 0) : (dat4 V c).Φ t ⊢ Pipeline.ΦA spec4 c := by
  rw [show (dat4 V c).Φ t = Phi4 V c t.val (Nat.le_of_lt_succ t.isLt) from rfl, Phi4_pos V c _ _ ht, PhiA4_eq]
  iintro ⟨⟨HS, HR⟩, Hg⟩
  isplitl [HS HR]
  · isplitl [HS]
    · iexists _; iexact HS
    iexact HR
  iexact Hg

theorem hout4 (c : Dev nD) : (dat4 V c).Φ (Fin.last cfg4.N) ⊢ Pipeline.ΦA spec4 c :=
  Phi4_out V c _ (by rw [Fin.val_last]; have : cfg4.N = 20 := N_4; omega)

end Cert.KernelIdeal.Hand

end
-- ==== Proof.KI.Segs.lean ====
import proofs.«428851_j84464826843159_1_alg».proof.Proof.KI.Reg0
import proofs.«428851_j84464826843159_1_alg».proof.Proof.KI.Reg1
import proofs.«428851_j84464826843159_1_alg».proof.Proof.KI.Reg2
import proofs.«428851_j84464826843159_1_alg».proof.Proof.KI.Reg3
import proofs.«428851_j84464826843159_1_alg».proof.Proof.KI.Reg4
import proofs.«428851_j84464826843159_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev W0 : Dev nD → Valuation τ sig (Elt F) := fun c b => m (c, b)

abbrev W1 : Dev nD → Valuation τ sig (Elt F) := fun c => StableHlo.after hostOps0 (W0 m c)
theorem W1_keep (c : Dev nD) (r : Ref sig .tc) (h : r ∉ hostOps0_W) : W1 m c r = W0 m c r :=
  StableHlo.after_of_writes_sub hostOps0 _ hostOps0_writes h

abbrev V1 : (c : Dev nD) → (b : Ref sig .tc) → Buf (Elt F) ((c : Thread nD τ).loc b) := fun c b => W1 m c b

def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb

theorem hF0 (c : Dev nD) (w : Fin cfg0.W) : (dat0 (V1 m) c).arrAt w cfg0.N = W2 m c (Pipeline.arrRef spec0 w) :=
  (W2_arr m c w).symm
theorem hrest0 (c : Dev nD) : ∀ b, b ∉ Finset.univ.image (Pipeline.arrRef spec0) → W2 m c b = W1 m c b :=
  fun b hb => W2_of_ne m c b fun w e => hb (Finset.mem_image.mpr ⟨w, Finset.mem_univ _, e⟩)

abbrev W3 : Dev nD → Valuation τ sig (Elt F) := fun c => StableHlo.after hostOps1 (W2 m c)
theorem W3_keep (c : Dev nD) (r : Ref sig .tc) (h : r ∉ hostOps1_W) : W3 m c r = W2 m c r :=
  StableHlo.after_of_writes_sub hostOps1 _ hostOps1_writes h

abbrev V3 : (c : Dev nD) → (b : Ref sig .tc) → Buf (Elt F) ((c : Thread nD τ).loc b) := fun c b => W3 m c b

def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb

theorem hF1 (c : Dev nD) (w : Fin cfg1.W) : (dat1 (V3 m) c).arrAt w cfg1.N = W4 m c (Pipeline.arrRef spec1 w) :=
  (W4_arr m c w).symm
theorem hrest1 (c : Dev nD) : ∀ b, b ∉ Finset.univ.image (Pipeline.arrRef spec1) → W4 m c b = W3 m c b :=
  fun b hb => W4_of_ne m c b fun w e => hb (Finset.mem_image.mpr ⟨w, Finset.mem_univ _, e⟩)

abbrev W5 : Dev nD → Valuation τ sig (Elt F) := fun c => StableHlo.after hostOps2 (W4 m c)
theorem W5_keep (c : Dev nD) (r : Ref sig .tc) (h : r ∉ hostOps2_W) : W5 m c r = W4 m c r :=
  StableHlo.after_of_writes_sub hostOps2 _ hostOps2_writes h

abbrev V5 : (c : Dev nD) → (b : Ref sig .tc) → Buf (Elt F) ((c : Thread nD τ).loc b) := fun c b => W5 m c b

def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb

theorem hF2 (c : Dev nD) (w : Fin cfg2.W) : (dat2 (V5 m) c).arrAt w cfg2.N = W6 m c (Pipeline.arrRef spec2 w) :=
  (W6_arr m c w).symm
theorem hrest2 (c : Dev nD) : ∀ b, b ∉ Finset.univ.image (Pipeline.arrRef spec2) → W6 m c b = W5 m c b :=
  fun b hb => W6_of_ne m c b fun w e => hb (Finset.mem_image.mpr ⟨w, Finset.mem_univ _, e⟩)

abbrev W7 : Dev nD → Valuation τ sig (Elt F) := fun c => StableHlo.after hostOps3 (W6 m c)
theorem W7_keep (c : Dev nD) (r : Ref sig .tc) (h : r ∉ hostOps3_W) : W7 m c r = W6 m c r :=
  StableHlo.after_of_writes_sub hostOps3 _ hostOps3_writes h

abbrev V7 : (c : Dev nD) → (b : Ref sig .tc) → Buf (Elt F) ((c : Thread nD τ).loc b) := fun c b => W7 m c b

def W8 (c : Dev nD) : Valuation τ sig (Elt F) :=
  Pipeline.withArrays spec3 c (W7 m c) fun w => (dat3 (V7 m) c).arrAt w cfg3.N
theorem W8_arr (c : Dev nD) (w : Fin cfg3.W) :
    W8 m c (Proc.devRef .tc (Pipeline.arrRef spec3 w)) = (dat3 (V7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb

theorem hF3 (c : Dev nD) (w : Fin cfg3.W) : (dat3 (V7 m) c).arrAt w cfg3.N = W8 m c (Pipeline.arrRef spec3 w) :=
  (W8_arr m c w).symm
theorem hrest3 (c : Dev nD) : ∀ b, b ∉ Finset.univ.image (Pipeline.arrRef spec3) → W8 m c b = W7 m c b :=
  fun b hb => W8_of_ne m c b fun w e => hb (Finset.mem_image.mpr ⟨w, Finset.mem_univ _, e⟩)

abbrev W9 : Dev nD → Valuation τ sig (Elt F) := fun c => StableHlo.after hostOps4 (W8 m c)
theorem W9_keep (c : Dev nD) (r : Ref sig .tc) (h : r ∉ hostOps4_W) : W9 m c r = W8 m c r :=
  StableHlo.after_of_writes_sub hostOps4 _ hostOps4_writes h

abbrev V9 : (c : Dev nD) → (b : Ref sig .tc) → Buf (Elt F) ((c : Thread nD τ).loc b) := fun c b => W9 m c b

def W10 (c : Dev nD) : Valuation τ sig (Elt F) :=
  Pipeline.withArrays spec4 c (W9 m c) fun w => (dat4 (V9 m) c).arrAt w cfg4.N
theorem W10_arr (c : Dev nD) (w : Fin cfg4.W) :
    W10 m c (Proc.devRef .tc (Pipeline.arrRef spec4 w)) = (dat4 (V9 m) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m c (Proc.devRef .tc b) = W9 m c (Proc.devRef .tc b) := by
  unfold W10; exact Pipeline.withArrays_of_ne spec4 c _ _ b hb

theorem W10_in (c : Dev nD) (w : Fin cfg4.W) (hin : (cfg4.win w).isOut = false) :
    W10 m c (Proc.devRef .tc (Pipeline.arrRef spec4 w)) = W9 m c (Proc.devRef .tc (Pipeline.arrRef spec4 w)) :=
  (W10_arr m c w).trans (((dat4 (V9 m) c).arrAt_in w hin _).trans (A_eq4 (V9 m) c w))
theorem hF4 (c : Dev nD) (w : Fin cfg4.W) : (dat4 (V9 m) c).arrAt w cfg4.N = W10 m c (Pipeline.arrRef spec4 w) :=
  (W10_arr m c w).symm
theorem hrest4 (c : Dev nD) : ∀ b, b ∉ Finset.univ.image (Pipeline.arrRef spec4) → W10 m c b = W9 m c b :=
  fun b hb => W10_of_ne m c b fun w e => hb (Finset.mem_image.mpr ⟨w, Finset.mem_univ _, e⟩)

abbrev adm : (p : Fin 5) → (pcfgs (F := F) p).Adm := fun p => (cfgs p).toPCfg_adm

def pdats : (p : Fin 5) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
  | ⟨3, _⟩ => fun c => dat3 (V7 m) c
  | ⟨4, _⟩ => fun c => dat4 (V9 m) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W10 m c) ∗ ∃ r, prngReg c r)

set_option backward.isDefEq.respectTransparency.types false in

def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (fun b => W2 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (fun b => W4 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (fun b => W6 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m) c).loose
  hwaits := Pipeline.hwaits_of_owed_zero _ _ _ _ L lv 3 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec3 c (V7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V7 m c) (fun b => W8 m c b) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m) c).loose
  hwaits := Pipeline.hwaits_of_owed_zero _ _ _ _ L lv 4 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec4 c (V9 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (V9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin4 (V9 m) c); unfold Pipeline.ΦA
    iintro ⟨Hp, -, Hr⟩
    isplitl [Hr]; · iexact Hr
    iexact Hp
  hout c := by
    rw [Pipeline.ownSems0_none]; refine (show (pdats m 4 c).Φ (Fin.last _) ⊢ Pipeline.ΦA spec4 c from hout4 (V9 m) c).trans ?_; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (V9 m c) (fun b => W10 m c b) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m),
    .host (hseg hostOps4 hostOps4_sub hostOps4_fresh (W8 m)),
    .region (reg4 m) ]

variable (ρ : Dev nD → PrngReg)

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun c => by
      show iprop(StableHlo.held (c : Thread nD τ) (Pipeline.ucRefs τ sig) (W10 m c) ∗ R c) ⊢ iprop(Tₙ m c ∗ ∃ W, owes (c.tc : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h => h)

theorem W9_keeps (c : Dev nD) (r : Ref sig .tc) (h0 : r ∉ hostOps0_W) (h1 : ∀ w, Pipeline.arrRef spec0 w ≠ r) (h2 : r ∉ hostOps1_W)
    (h3 : ∀ w, Pipeline.arrRef spec1 w ≠ r) (h4 : r ∉ hostOps2_W) (h5 : ∀ w, Pipeline.arrRef spec2 w ≠ r) (h6 : r ∉ hostOps3_W)
    (h7 : ∀ w, Pipeline.arrRef spec3 w ≠ r) (h8 : r ∉ hostOps4_W) :
    W9 m c r = m ((c : Thread nD τ).loc r) :=
  (W9_keep m c r h8).trans <| (W8_of_ne m c r h7).trans <| (W7_keep m c r h6).trans <| (W6_of_ne m c r h5).trans <|
    (W5_keep m c r h4).trans <| (W4_of_ne m c r h3).trans <| (W3_keep m c r h2).trans <| (W2_of_ne m c r h1).trans <|
    (W1_keep m c r h0).trans rfl

theorem W10_keeps (c : Dev nD) (r : Ref sig .tc) (h0 : r ∉ hostOps0_W) (h1 : ∀ w, Pipeline.arrRef spec0 w ≠ r) (h2 : r ∉ hostOps1_W)
    (h3 : ∀ w, Pipeline.arrRef spec1 w ≠ r) (h4 : r ∉ hostOps2_W) (h5 : ∀ w, Pipeline.arrRef spec2 w ≠ r) (h6 : r ∉ hostOps3_W)
    (h7 : ∀ w, Pipeline.arrRef spec3 w ≠ r) (h8 : r ∉ hostOps4_W) (h9 : ∀ w, Pipeline.arrRef spec4 w ≠ r) :
    W10 m c r = m ((c : Thread nD τ).loc r) :=
  (W10_of_ne m c r h9).trans (W9_keeps m c r h0 h1 h2 h3 h4 h5 h6 h7 h8)

theorem run_post : θ_run defs (onTc (τ := τ) (main (F := F))) ⟨m, fun _ => 0, ρ⟩ (fun r => ∀ c : Dev nD,
      r.2.mem ((c.tc : Thread nD τ).loc main_v163) = W10 m c main_v163
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c =>
    ⟨h c _ (mem_uc main_v163 (by decide)),
      (h c _ (mem_uc main_arg0 (by decide))).trans (W10_keeps m c main_arg0 (by decide) (by decide) (by decide) (by decide) (by decide) (by decide) (by decide) (by decide) (by decide) (by decide)),
      (h c _ (mem_uc main_arg1 (by decide))).trans (W10_keeps m c main_arg1 (by decide) (by decide) (by decide) (by decide) (by decide) (by decide) (by decide) (by decide) (by decide) (by decide)),
      (h c _ (mem_uc main_arg2 (by decide))).trans (W10_keeps m c main_arg2 (by decide) (by decide) (by decide) (by decide) (by decide) (by decide) (by decide) (by decide) (by decide) (by decide)),
      (h c _ (mem_uc main_arg3 (by decide))).trans (W10_keeps m c main_arg3 (by decide) (by decide) (by decide) (by decide) (by decide) (by decide) (by decide) (by decide) (by decide) (by decide)),
      (h c _ (mem_uc main_arg4 (by decide))).trans (W10_keeps m c main_arg4 (by decide) (by decide) (by decide) (by decide) (by decide) (by decide) (by decide) (by decide) (by decide) (by decide)),
      (h c _ (mem_uc main_arg5 (by decide))).trans (W10_keeps m c main_arg5 (by decide) (by decide) (by decide) (by decide) (by decide) (by decide) (by decide) (by decide) (by decide) (by decide)),
      (h c _ (mem_uc main_arg6 (by decide))).trans (W10_keeps m c main_arg6 (by decide) (by decide) (by decide) (by decide) (by decide) (by decide) (by decide) (by decide) (by decide) (by decide)),
      (h c _ (mem_uc main_arg7 (by decide))).trans (W10_keeps m c main_arg7 (by decide) (by decide) (by decide) (by decide) (by decide) (by decide) (by decide) (by decide) (by decide) (by decide)),
      (h c _ (mem_uc main_arg8 (by decide))).trans (W10_keeps m c main_arg8 (by decide) (by decide) (by decide) (by decide) (by decide) (by decide) (by decide) (by decide) (by decide) (by decide)),
      (h c _ (mem_uc main_arg9 (by decide))).trans (W10_keeps m c main_arg9 (by decide) (by decide) (by decide) (by decide) (by decide) (by decide) (by decide) (by decide) (by decide) (by decide)),
      (h c _ (mem_uc main_arg10 (by decide))).trans (W10_keeps m c main_arg10 (by decide) (by decide) (by decide) (by decide) (by decide) (by decide) (by decide) (by decide) (by decide) (by decide)),
      (h c _ (mem_uc main_arg11 (by decide))).trans (W10_keeps m c main_arg11 (by decide) (by decide) (by decide) (by decide) (by decide) (by decide) (by decide) (by decide) (by decide) (by decide)),
      (h c _ (mem_uc main_arg12 (by decide))).trans ((W10_in m c 2 rfl).trans (W9_keeps m c main_arg12 (by decide) (by decide) (by decide) (by decide) (by decide) (by decide) (by decide) (by decide) (by decide))),
      (h c _ (mem_uc main_arg13 (by decide))).trans (W10_keeps m c main_arg13 (by decide) (by decide) (by decide) (by decide) (by decide) (by decide) (by decide) (by decide) (by decide) (by decide)),
      (h c _ (mem_uc main_arg14 (by decide))).trans ((W10_in m c 4 rfl).trans (W9_keeps m c main_arg14 (by decide) (by decide) (by decide) (by decide) (by decide) (by decide) (by decide) (by decide) (by decide))),
      (h c _ (mem_uc main_arg15 (by decide))).trans (W10_keeps m c main_arg15 (by decide) (by decide) (by decide) (by decide) (by decide) (by decide) (by decide) (by decide) (by decide) (by decide))⟩)
    (run_all m ρ)

end Cert.KernelIdeal.Hand

end
-- ==== Proof.KFrame.lean ====
import proofs.«428851_j84464826843159_1_alg».proof.Defs
import proofs.«428851_j84464826843159_1_alg».proof.Proof.Gen.Kernel
import proofs.«428851_j84464826843159_1_alg».proof.Proof.Gen.KernelIdeal
import proofs.«428851_j84464826843159_1_alg».proof.Proof.Gen.Pre_finite_inputs
import proofs.«428851_j84464826843159_1_alg».proof.Proof.KI.Segs

set_option maxHeartbeats 2000000

noncomputable section

namespace Cert.Proof

open Idealize.ShloMosaic Idealize.ShloMosaic.TcCoe Idealize.SL.Sem

-- The word-level program and its idealization are one text, so their body tables agree label by label.
theorem defs₀_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) => rfl
  | 1, (t, s) => rfl
  | 2, (t, s) => rfl
  | 3, (t, s) => rfl
  | 4, (t, s) => rfl
  | ⟨_ + 5, h⟩, _ => exact absurd h (by omega)

theorem defs_eq : Cert.Kernel.defs (F := Bits) = Cert.KernelIdeal.defs (F := Bits) :=
  congrArg (Pipeline.defs _) defs₀_eq

-- The idealized program's run is proved for every float instance; read at words it is the word-level program's run.
theorem frame_k : Cert.frame_Kernel := by
  intro m ρ _
  rw [defs_eq]
  exact (θ_run _ _ _).mono (fun _ h c => (h c).2) (Cert.KernelIdeal.Hand.run_post (F := Bits) m ρ)

end Cert.Proof

end
-- ==== Proof.LibRowOps.lean ====
import Idealize.ShloMosaic.PureOps.Ideal
import Idealize.ShloMosaic.Lib.ValueIdx

noncomputable section

open scoped BigOperators

namespace RowOps

open Idealize.ShloMosaic Idealize.ShloMosaic.ValueIdx

section Gather
variable {α : Type}

abbrev gatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

def clampRow {w : Nat} (N : Nat) (hN : 0 < N) (b : BitVec w) : Fin N := ⟨min b.toInt.toNat (N - 1), by omega⟩

theorem gather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (gatherDims N E C wf) x idx (ix2 e q) = x (ix2 (clampRow N hN (idx (ix2 e 0))) q) := by
  unfold Host.gather
  congr 1
  funext a
  refine Fin.ext ?_
  match a with
  | ⟨0, _⟩ =>
    show (gatherDims N E C wf).start (ix2 e q) idx 0 + (gatherDims N E C wf).batchCoord (ix2 e q) 0
      + (gatherDims N E C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherDims N E C wf).startIndexMap from List.mem_singleton.mpr rfl)]
    have hsi : (gatherDims N E C wf).siIdx (ix2 e q) ⟨List.idxOf (0 : Fin 2) (gatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (gatherDims N E C wf).start (ix2 e q) idx 1 + (gatherDims N E C wf).batchCoord (ix2 e q) 1
      + (gatherDims N E C wf).offCoord (ix2 e q) 1 = q.val
    rw [GatherDims.batchCoord_eq_zero _ _ _ List.not_mem_nil]
    unfold GatherDims.start
    rw [dif_neg (show (1 : Fin 2) ∉ (gatherDims N E C wf).startIndexMap from by
      show (1 : Fin 2) ∉ [(0 : Fin 2)]; decide)]
    simp only [Nat.add_zero, Nat.zero_add]
    rfl

end Gather

section Scatter

abbrev scatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)
  (idx : IVec ⟨2, ![E, 1]⟩ w) (e : Fin E) (q : Fin C)

theorem start_row : (scatterDims N E C wf).start (ix2 e q) idx 0 = (idx (ix2 e 0)).toInt := by
  unfold ScatterDims.start
  rw [dif_pos (show (0 : Fin 2) ∈ (scatterDims N E C wf).scatterDimsToOperandDims from List.mem_singleton.mpr rfl)]
  have hsi : (scatterDims N E C wf).siIdx (ix2 e q) ⟨List.idxOf (0 : Fin 2) (scatterDims N E C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

theorem start_col : (scatterDims N E C wf).start (ix2 e q) idx 1 = 0 := by
  unfold ScatterDims.start
  rw [dif_neg (show (1 : Fin 2) ∉ (scatterDims N E C wf).scatterDimsToOperandDims from by
    show (1 : Fin 2) ∉ [(0 : Fin 2)]; decide)]

theorem window_row : (scatterDims N E C wf).window (ix2 e q) 0 = 0 := by
  unfold ScatterDims.window
  rw [dif_neg (show (0 : Fin 2) ∉ (scatterDims N E C wf).sKept from by
    show (0 : Fin 2) ∉ (List.finRange 2).filter (fun a => a ∉ [(0 : Fin 2)]); decide)]

theorem window_col : (scatterDims N E C wf).window (ix2 e q) 1 = q.val := by
  unfold ScatterDims.window
  rw [dif_pos (show (1 : Fin 2) ∈ (scatterDims N E C wf).sKept from by
    show (1 : Fin 2) ∈ (List.finRange 2).filter (fun a => a ∉ [(0 : Fin 2)]); decide)]
  rfl

theorem resultIdx?_eq_some_iff (r : Fin N) (p : Fin C) :
    (scatterDims N E C wf).resultIdx? (ix2 e q) idx = some (ix2 r p) ↔ (idx (ix2 e 0)).toInt = (r.val : Int) ∧ q = p := by
  unfold ScatterDims.resultIdx?
  have hr := r.isLt
  have hq := q.isLt
  split
  · rename_i h
    rw [Option.some.injEq]
    constructor
    · intro hf
      have h0 := congrArg (fun f : (⟨2, ![N, C]⟩ : Shape).Idx => (f 0).val) hf
      have h1 := congrArg (fun f : (⟨2, ![N, C]⟩ : Shape).Idx => (f 1).val) hf
      simp only [start_row, start_col, window_row, window_col] at h0 h1
      have hh := (h 0).1
      simp only [start_row, window_row] at hh
      refine ⟨?_, Fin.ext ?_⟩
      · have : ((idx (ix2 e 0)).toInt + ((0 : Nat) : Int)).toNat = r.val := h0
        omega
      · have : ((0 : Int) + ((q.val : Nat) : Int)).toNat = p.val := h1
        omega
    · rintro ⟨hs, rfl⟩
      funext a
      refine Fin.ext ?_
      match a with
      | ⟨0, _⟩ =>
        show ((scatterDims N E C wf).start (ix2 e q) idx 0 + ((scatterDims N E C wf).window (ix2 e q) 0 : Nat)).toNat = r.val
        rw [start_row, window_row, hs]; omega
      | ⟨1, _⟩ =>
        show ((scatterDims N E C wf).start (ix2 e q) idx 1 + ((scatterDims N E C wf).window (ix2 e q) 1 : Nat)).toNat = q.val
        rw [start_col, window_col]; omega
  · rename_i h
    constructor
    · intro hf; exact absurd hf (by simp)
    · rintro ⟨hs, rfl⟩
      refine absurd (fun a => ?_) h
      match a with
      | ⟨0, _⟩ =>
        show 0 ≤ (scatterDims N E C wf).start (ix2 e q) idx 0 + ((scatterDims N E C wf).window (ix2 e q) 0 : Nat)
          ∧ (scatterDims N E C wf).start (ix2 e q) idx 0 + ((scatterDims N E C wf).window (ix2 e q) 0 : Nat) < (N : Int)
        rw [start_row, window_row, hs]; omega
      | ⟨1, _⟩ =>
        show 0 ≤ (scatterDims N E C wf).start (ix2 e q) idx 1 + ((scatterDims N E C wf).window (ix2 e q) 1 : Nat)
          ∧ (scatterDims N E C wf).start (ix2 e q) idx 1 + ((scatterDims N E C wf).window (ix2 e q) 1 : Nat) < (C : Int)
        rw [start_col, window_col]; omega

theorem scatterAdd_apply {φ : FTy} (x : FVec Ideal ⟨2, ![N, C]⟩ φ) (upd : FVec Ideal ⟨2, ![E, C]⟩ φ) (r : Fin N) (p : Fin C) :
    Host.scatterAdd (F := Ideal) (scatterDims N E C wf) x idx upd (ix2 r p)
      = x (ix2 r p) + ∑ e ∈ Finset.univ.filter (fun e : Fin E => (idx (ix2 e 0)).toInt = (r.val : Int)), upd (ix2 e p) := by
  unfold Host.scatterAdd
  rw [Ideal.hostScatterAdd_def]
  unfold Ideal.hostScatterAdd
  congr 1
  rw [Finset.sum_filter, sum_idx2, Finset.sum_filter]
  refine Finset.sum_congr rfl fun e _ => ?_
  simp only [resultIdx?_eq_some_iff]
  by_cases hs : (idx (ix2 e 0)).toInt = (r.val : Int)
  · simp [hs]
  · simp [hs]

end Scatter

end RowOps

end
-- ==== Proof.Spec.lean ====
import Idealize.ShloMosaic.PureOps.Ideal
import Idealize.ShloMosaic.Lib.ValueIdx
import proofs.«428851_j84464826843159_1_alg».proof.Proof.LibRowOps

noncomputable section

open scoped BigOperators

namespace GinSpec

open Idealize.ShloMosaic Idealize.ShloMosaic.ValueIdx

abbrev Mat (R C : Nat) : Type := Fin R → Fin C → EReal

def zero : EReal := Ideal.ofBits .f32 0x00000000#32
def one : EReal := Ideal.ofBits .f32 0x3F800000#32
def bnEps : EReal := Ideal.ofBits .f32 0x3727C5AC#32

def relu (x : EReal) : EReal := max x zero

def affine {R K C : Nat} (h : Mat R K) (W : Mat K C) (b : Fin C → EReal) : Mat R C :=
  fun r q => (∑ k : Fin K, h r k * W k q) + b q

def norm {R : Nat} (g be mu var : Fin 128 → EReal) (h : Mat R 128) : Mat R 128 :=
  fun r k => (h r k - mu k) * Ideal.rsqrt (var k + bnEps) * g k + be k

def mlp {R : Nat} (h : Mat R 128) (W1 : Mat 128 128) (b1 g be mu var : Fin 128 → EReal) (W2 : Mat 128 128)
    (b2 : Fin 128 → EReal) : Mat R 128 :=
  fun r q => relu (affine (fun r k => relu (norm g be mu var (fun r k => relu (affine h W1 b1 r k)) r k)) W2 b2 r q)

def wrapRow (s : BitVec 32) : BitVec 32 := if s.slt 0#32 then s + 100000#32 else s

def agg (X : Mat 100000 128) (src dst : Fin 1600000 → BitVec 32) : Mat 100000 128 :=
  fun r p => zero + ∑ e ∈ Finset.univ.filter (fun e : Fin 1600000 => (dst e).toInt = (r.val : Int)),
    X (RowOps.clampRow 100000 (by decide) (wrapRow (src e))) p

def pre (epsl : EReal) (X : Mat 100000 128) (src dst : Fin 1600000 → BitVec 32) : Mat 100000 128 :=
  fun r p => (one + epsl) * X r p + agg X src dst r p

def layer (epsl : EReal) (W1 : Mat 128 128) (b1 g be mu var : Fin 128 → EReal) (W2 : Mat 128 128) (b2 : Fin 128 → EReal)
    (src dst : Fin 1600000 → BitVec 32) (X : Mat 100000 128) : Mat 100000 128 :=
  mlp (pre epsl X src dst) W1 b1 g be mu var W2 b2

def pool (X : Mat 100000 128) (batch : Fin 100000 → BitVec 32) : Mat 512 128 :=
  fun gr j => zero + ∑ n ∈ Finset.univ.filter (fun n : Fin 100000 => (batch n).toInt = (gr.val : Int)), X n j

def head (P : Mat 512 128) (l1w : Mat 128 128) (l1b : Fin 128 → EReal) (l2w : Mat 128 64) (l2b : Fin 64 → EReal) : Mat 512 64 :=
  affine (fun gr k => relu (affine P l1w l1b gr k)) l2w l2b

section Net
variable (x : FVec Ideal ⟨2, ![100000, 128]⟩ .f32) (ei : IVec ⟨2, ![2, 1600000]⟩ 32) (batch : IVec ⟨1, ![100000]⟩ 32)
  (eps : FVec Ideal ⟨1, ![4]⟩ .f32) (W1 : FVec Ideal ⟨3, ![4, 128, 128]⟩ .f32) (b1 g be mu var : FVec Ideal ⟨2, ![4, 128]⟩ .f32)
  (W2 : FVec Ideal ⟨3, ![4, 128, 128]⟩ .f32) (b2 : FVec Ideal ⟨2, ![4, 128]⟩ .f32)
  (l1w : FVec Ideal ⟨2, ![128, 128]⟩ .f32) (l1b : FVec Ideal ⟨1, ![128]⟩ .f32) (l2w : FVec Ideal ⟨2, ![128, 64]⟩ .f32)
  (l2b : FVec Ideal ⟨1, ![64]⟩ .f32)

def srcOf : Fin 1600000 → BitVec 32 := fun e => ei (ix2 0 e)
def dstOf : Fin 1600000 → BitVec 32 := fun e => ei (ix2 1 e)

def layerAt (l : Fin 4) (X : Mat 100000 128) : Mat 100000 128 :=
  layer (eps (ix1 l)) (fun j k => W1 (ix3 l j k)) (fun k => b1 (ix2 l k)) (fun k => g (ix2 l k)) (fun k => be (ix2 l k))
    (fun k => mu (ix2 l k)) (fun k => var (ix2 l k)) (fun j k => W2 (ix3 l j k)) (fun k => b2 (ix2 l k)) (srcOf ei) (dstOf ei) X

def nodes : Mat 100000 128 :=
  layerAt ei eps W1 b1 g be mu var W2 b2 3 (layerAt ei eps W1 b1 g be mu var W2 b2 2 (layerAt ei eps W1 b1 g be mu var W2 b2 1
    (layerAt ei eps W1 b1 g be mu var W2 b2 0 (fun r p => x (ix2 r p)))))

def net : FVec Ideal ⟨2, ![512, 64]⟩ .f32 :=
  fun i => head (pool (nodes x ei eps W1 b1 g be mu var W2 b2) (fun n => batch (ix1 n))) (fun j k => l1w (ix2 j k))
    (fun k => l1b (ix1 k)) (fun k q => l2w (ix2 k q)) (fun q => l2b (ix1 q)) (i 0) (i 1)

end Net

end GinSpec

end
-- ==== Proof.KI.HostRead.lean ====
import proofs.«428851_j84464826843159_1_alg».proof.Proof.Gen.KernelIdeal
import proofs.«428851_j84464826843159_1_alg».proof.Proof.Spec
import Idealize.ShloMosaic.Lib.ValueIdx
import Idealize.ShloMosaic.Lib.Pipeline.Value
import Idealize.ShloMosaic.Lib.ValueLayout
import Idealize.ShloMosaic.Lib.IdealHost
import Idealize.ShloMosaic.Lib.Affine
import Idealize.ShloMosaic.PureOps.Ideal

noncomputable section

open scoped BigOperators

namespace Cert.KernelIdeal.Hand

open Cert.KernelIdeal Cert.KernelIdeal.Gen
open Idealize.ShloMosaic Idealize.ShloMosaic.ValueIdx

section Slices
variable {α : Type}

theorem rowSlice_vec_apply {n a : ℕ} (x : (⟨2, ![n, a]⟩ : Shape).Idx → α) (l : Fin n)
    (hs : (⟨2, ![n, a]⟩ : Shape).Slices ![l.val, 0] ⟨2, ![1, a]⟩) (hc : (⟨2, ![1, a]⟩ : Shape).ShapeCasts ⟨1, ![a]⟩) (i : Fin a) :
    shapeCast ⟨1, ![a]⟩ (extractStridedSlice ⟨2, ![1, a]⟩ ![l.val, 0] x hs) hc (ix1 i) = x (ix2 l i) :=
  (shapeCast_1a_a_apply _ _ i).trans <| extractStridedSlice_apply _ _ _ _ _ fun ax =>
    match ax with
    | ⟨0, _⟩ => rfl
    | ⟨1, _⟩ => (Nat.zero_add _).symm

theorem rowSlice_row_apply {n a : ℕ} (x : (⟨2, ![n, a]⟩ : Shape).Idx → α) (l : Fin n)
    (hs : (⟨2, ![n, a]⟩ : Shape).Slices ![l.val, 0] ⟨2, ![1, a]⟩) (hc : (⟨2, ![1, a]⟩ : Shape).ShapeCasts ⟨1, ![a]⟩)
    (hc' : (⟨1, ![a]⟩ : Shape).ShapeCasts ⟨2, ![1, a]⟩) (u : Fin 1) (i : Fin a) :
    shapeCast ⟨2, ![1, a]⟩ (shapeCast ⟨1, ![a]⟩ (extractStridedSlice ⟨2, ![1, a]⟩ ![l.val, 0] x hs) hc) hc' (ix2 u i) = x (ix2 l i) :=
  (shapeCast_a_1a_apply _ _ u i).trans (rowSlice_vec_apply x l hs hc i)

theorem matSlice_apply {n a b : ℕ} (x : (⟨3, ![n, a, b]⟩ : Shape).Idx → α) (l : Fin n)
    (hs : (⟨3, ![n, a, b]⟩ : Shape).Slices ![l.val, 0, 0] ⟨3, ![1, a, b]⟩)
    (hc : (⟨3, ![1, a, b]⟩ : Shape).ShapeCasts ⟨2, ![a, b]⟩) (i : Fin a) (j : Fin b) :
    shapeCast ⟨2, ![a, b]⟩ (extractStridedSlice ⟨3, ![1, a, b]⟩ ![l.val, 0, 0] x hs) hc (ix2 i j) = x (ix3 l i j) :=
  (shapeCast_1ab_ab_apply _ _ i j).trans <| extractStridedSlice_apply _ _ _ _ _ fun ax =>
    match ax with
    | ⟨0, _⟩ => rfl
    | ⟨1, _⟩ => (Nat.zero_add _).symm
    | ⟨2, _⟩ => (Nat.zero_add _).symm

theorem scalarSlice_apply {n : ℕ} (x : (⟨1, ![n]⟩ : Shape).Idx → α) (l : Fin n)
    (hs : (⟨1, ![n]⟩ : Shape).Slices ![l.val] ⟨1, ![1]⟩) (hc : (⟨1, ![1]⟩ : Shape).ShapeCasts ⟨0, ![]⟩) (j : (⟨0, ![]⟩ : Shape).Idx) :
    shapeCast ⟨0, ![]⟩ (extractStridedSlice ⟨1, ![1]⟩ ![l.val] x hs) hc j = x (ix1 l) :=
  (shapeCast_apply _ hc j (ix1 (0 : Fin 1)) (by
    have h1 := ((⟨1, ![1]⟩ : Shape).rowMajor (ix1 (0 : Fin 1))).isLt
    have h0 := ((⟨0, ![]⟩ : Shape).rowMajor j).isLt
    have e1 : (⟨1, ![1]⟩ : Shape).numel = 1 := rfl
    have e0 : (⟨0, ![]⟩ : Shape).numel = 1 := rfl
    omega)).trans <| extractStridedSlice_apply _ _ _ _ _ fun ax =>
    match ax with
    | ⟨0, _⟩ => rfl

theorem column_apply {n : ℕ} (x : (⟨1, ![n]⟩ : Shape).Idx → α)
    (h : (⟨1, ![n]⟩ : Shape).BroadcastsInDim ⟨2, ![n, 1]⟩ (![0] : Fin 1 → Fin 2)) (e : Fin n) (u : Fin 1) :
    broadcastInDim ⟨2, ![n, 1]⟩ ![0] h x (ix2 e u) = x (ix1 e) :=
  broadcastInDim_apply _ h x _ _ fun ax =>
    match ax with
    | ⟨0, _⟩ => by
      show e.val = if n = 1 then 0 else e.val
      split
      · have := e.isLt; omega
      · rfl

end Slices

theorem wrap_apply (s : IVec S1600000 32) (e : Fin 1600000) :
    select (cmpi .slt s (broadcastInDim S1600000 ![] bcast_S_S1600000 (constantI S_ 32 0#32)))
        (addi s (broadcastInDim S1600000 ![] bcast_S_S1600000 (constantI S_ 32 100000#32))) s (ix1 e)
      = GinSpec.wrapRow (s (ix1 e)) := by
  rw [select_apply]
  show Scalar.select (IntOp.cmpi .slt (s (ix1 e)) (broadcastInDim S1600000 ![] bcast_S_S1600000 (constantI S_ 32 0#32) (ix1 e)))
      (IntOp.addi (s (ix1 e)) (broadcastInDim S1600000 ![] bcast_S_S1600000 (constantI S_ 32 100000#32) (ix1 e))) (s (ix1 e)) = _
  rw [broadcastInDim_scalar_apply, broadcastInDim_scalar_apply, constantI_apply, constantI_apply]
  unfold GinSpec.wrapRow Scalar.select IntOp.addi
  by_cases h : (s (ix1 e)).slt 0#32 = true
  · rw [if_pos h]
    exact if_pos (IntOp.cmpi_slt.mpr (BitVec.slt_iff_toInt_lt.mp h))
  · rw [if_neg h]
    exact if_neg fun hc => h (BitVec.slt_iff_toInt_lt.mpr (IntOp.cmpi_slt.mp hc))

theorem pre_apply (X : FVec Ideal S100000x128 .f32) (s d : IVec S1600000 32) (ev : FVec Ideal S_ .f32) (r : Fin 100000) (p : Fin 128) :
    addf (mulf (broadcastInDim S100000x128 ![] bcast_S_S100000x128 (addf (constant (F := Ideal) S_ .f32 0x3F800000#32) ev)) X)
        (Host.scatterAdd (F := Ideal) scatter_S100000x128_S1600000x1_S1600000x128_1_0_0_1
          (broadcastInDim S100000x128 ![] bcast_S_S100000x128 (constant (F := Ideal) S_ .f32 0x00000000#32))
          (broadcastInDim S1600000x1 ![0] bcast_S1600000_S1600000x1_0 d)
          (Host.gather gather_S100000x128_S1600000x1_S1600000x128_1_0_n_n_0_1_1128 X
            (broadcastInDim S1600000x1 ![0] bcast_S1600000_S1600000x1_0
              (select (cmpi .slt s (broadcastInDim S1600000 ![] bcast_S_S1600000 (constantI S_ 32 0#32)))
                (addi s (broadcastInDim S1600000 ![] bcast_S_S1600000 (constantI S_ 32 100000#32))) s))))
        (ix2 r p)
      = GinSpec.pre (ev ix0) (fun r p => X (ix2 r p)) (fun e => s (ix1 e)) (fun e => d (ix1 e)) r p := by
  rw [addf_apply, mulf_apply, broadcastInDim_scalar_apply, addf_apply, constant_apply]
  refine congrArg₂ (· + ·) rfl ?_
  refine (RowOps.scatterAdd_apply scatter_S100000x128_S1600000x1_S1600000x128_1_0_0_1_wf _ _ _ r p).trans ?_
  rw [broadcastInDim_scalar_apply, constant_apply]
  unfold GinSpec.agg
  refine congrArg₂ (· + ·) rfl ?_
  refine Finset.sum_congr ?_ fun e _ => ?_
  · refine Finset.filter_congr fun e _ => ?_
    rw [column_apply]
  · refine (RowOps.gather_apply (by decide) gather_S100000x128_S1600000x1_S1600000x128_1_0_n_n_0_1_1128_wf X _ e p).trans ?_
    rw [column_apply, wrap_apply]

end Cert.KernelIdeal.Hand

end
-- ==== Proof.KI.Host0.lean ====
import proofs.«428851_j84464826843159_1_alg».proof.Proof.Gen.KernelIdeal.Launch
import proofs.«428851_j84464826843159_1_alg».proof.Proof.Spec
import proofs.«428851_j84464826843159_1_alg».proof.Proof.KI.HostRead
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.ShloMosaic.ValueIdx

variable (W : Valuation τ sig (Elt Ideal))

theorem host0_src (e : Fin 1600000) : StableHlo.after hostOps0 W main_v1 (ix1 e) = W main_arg1 (ix2 0 e) := by
  after_results_simp
  exact rowSlice_vec_apply (W main_arg1) 0 _ _ e

theorem host0_dst (e : Fin 1600000) : StableHlo.after hostOps0 W main_v3 (ix1 e) = W main_arg1 (ix2 1 e) := by
  after_results_simp
  exact rowSlice_vec_apply (W main_arg1) 1 _ _ e

theorem pre_congr {a a' : EReal} (X : GinSpec.Mat 100000 128) {s s' d d' : Fin 1600000 → BitVec 32} (ha : a = a')
    (hs : ∀ e, s e = s' e) (hd : ∀ e, d e = d' e) (r : Fin 100000) (p : Fin 128) :
    GinSpec.pre a X s d r p = GinSpec.pre a' X s' d' r p := by
  rw [ha, funext hs, funext hd]

theorem host0_pre (r : Fin 100000) (p : Fin 128) :
    StableHlo.after hostOps0 W main_v19 (ix2 r p)
      = GinSpec.pre (W main_arg3 (ix1 0)) (fun r p => W main_arg0 (ix2 r p)) (fun e => W main_arg1 (ix2 0 e))
          (fun e => W main_arg1 (ix2 1 e)) r p := by
  after_results_simp
  refine (pre_apply (W main_arg0) _ _ _ r p).trans ?_
  have hs : ∀ e : Fin 1600000, shapeCast S1600000 (extractStridedSlice S1x1600000 ![0, 0] (W main_arg1) slices_S2x1600000_S1x1600000_0_0)
      shapeCasts_S1x1600000_S1600000 (ix1 e) = W main_arg1 (ix2 0 e) := fun e => rowSlice_vec_apply (W main_arg1) 0 _ _ e
  have hd : ∀ e : Fin 1600000, shapeCast S1600000 (extractStridedSlice S1x1600000 ![1, 0] (W main_arg1) slices_S2x1600000_S1x1600000_1_0)
      shapeCasts_S1x1600000_S1600000 (ix1 e) = W main_arg1 (ix2 1 e) := fun e => rowSlice_vec_apply (W main_arg1) 1 _ _ e
  have he : shapeCast S_ (extractStridedSlice S1 ![0] (W main_arg3) slices_S4_S1_0) shapeCasts_S1_S_ ix0 = W main_arg3 (ix1 0) :=
    scalarSlice_apply (W main_arg3) 0 _ _ ix0
  exact pre_congr _ he hs hd r p

theorem host0_W1 (j k : Fin 128) : StableHlo.after hostOps0 W main_v21 (ix2 j k) = W main_arg4 (ix3 0 j k) := by
  after_results_simp
  exact matSlice_apply (W main_arg4) 0 _ _ j k
theorem host0_b1 (k : Fin 128) : StableHlo.after hostOps0 W main_v24 (ix2 0 k) = W main_arg5 (ix2 0 k) := by
  after_results_simp
  exact rowSlice_row_apply (W main_arg5) 0 _ _ _ 0 k
theorem host0_gamma (k : Fin 128) : StableHlo.after hostOps0 W main_v27 (ix2 0 k) = W main_arg6 (ix2 0 k) := by
  after_results_simp
  exact rowSlice_row_apply (W main_arg6) 0 _ _ _ 0 k
theorem host0_beta (k : Fin 128) : StableHlo.after hostOps0 W main_v30 (ix2 0 k) = W main_arg7 (ix2 0 k) := by
  after_results_simp
  exact rowSlice_row_apply (W main_arg7) 0 _ _ _ 0 k
theorem host0_mean (k : Fin 128) : StableHlo.after hostOps0 W main_v33 (ix2 0 k) = W main_arg8 (ix2 0 k) := by
  after_results_simp
  exact rowSlice_row_apply (W main_arg8) 0 _ _ _ 0 k
theorem host0_var (k : Fin 128) : StableHlo.after hostOps0 W main_v36 (ix2 0 k) = W main_arg9 (ix2 0 k) := by
  after_results_simp
  exact rowSlice_row_apply (W main_arg9) 0 _ _ _ 0 k
theorem host0_W2 (j k : Fin 128) : StableHlo.after hostOps0 W main_v38 (ix2 j k) = W main_arg10 (ix3 0 j k) := by
  after_results_simp
  exact matSlice_apply (W main_arg10) 0 _ _ j k
theorem host0_b2 (k : Fin 128) : StableHlo.after hostOps0 W main_v41 (ix2 0 k) = W main_arg11 (ix2 0 k) := by
  after_results_simp
  exact rowSlice_row_apply (W main_arg11) 0 _ _ _ 0 k

end Cert.KernelIdeal.Hand

end
-- ==== Proof.KI.ValueKeeps.lean ====
import proofs.«428851_j84464826843159_1_alg».proof.Proof.KI.Segs
import proofs.«428851_j84464826843159_1_alg».proof.Proof.KI.Host0

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

variable (m : (ℓ : Loc nD τ sig) → Buf (Elt Ideal) ℓ) (c : Dev nD)

theorem W2_keeps (r : Ref sig .tc) (h0 : r ∉ hostOps0_W) (h1 : ∀ w, Pipeline.arrRef spec0 w ≠ r) : W2 m c r = m ((c : Thread nD τ).loc r) :=
  (W2_of_ne m c r h1).trans ((W1_keep m c r h0).trans rfl)

theorem W4_keeps (r : Ref sig .tc) (h0 : r ∉ hostOps0_W) (h1 : ∀ w, Pipeline.arrRef spec0 w ≠ r) (h2 : r ∉ hostOps1_W) (h3 : ∀ w, Pipeline.arrRef spec1 w ≠ r) : W4 m c r = m ((c : Thread nD τ).loc r) :=
  (W4_of_ne m c r h3).trans ((W3_keep m c r h2).trans (W2_keeps m c r h0 h1))

theorem W6_keeps (r : Ref sig .tc) (h0 : r ∉ hostOps0_W) (h1 : ∀ w, Pipeline.arrRef spec0 w ≠ r) (h2 : r ∉ hostOps1_W) (h3 : ∀ w, Pipeline.arrRef spec1 w ≠ r) (h4 : r ∉ hostOps2_W) (h5 : ∀ w, Pipeline.arrRef spec2 w ≠ r) : W6 m c r = m ((c : Thread nD τ).loc r) :=
  (W6_of_ne m c r h5).trans ((W5_keep m c r h4).trans (W4_keeps m c r h0 h1 h2 h3))

theorem W8_keeps (r : Ref sig .tc) (h0 : r ∉ hostOps0_W) (h1 : ∀ w, Pipeline.arrRef spec0 w ≠ r) (h2 : r ∉ hostOps1_W) (h3 : ∀ w, Pipeline.arrRef spec1 w ≠ r) (h4 : r ∉ hostOps2_W) (h5 : ∀ w, Pipeline.arrRef spec2 w ≠ r) (h6 : r ∉ hostOps3_W) (h7 : ∀ w, Pipeline.arrRef spec3 w ≠ r) : W8 m c r = m ((c : Thread nD τ).loc r) :=
  (W8_of_ne m c r h7).trans ((W7_keep m c r h6).trans (W6_keeps m c r h0 h1 h2 h3 h4 h5))

theorem W2_src (e : Fin 1600000) : W2 m c main_v1 (ix1 e) = m ((c.tc : Thread nD τ).loc main_arg1) (ix2 0 e) :=
  (congrFun (W2_of_ne m c main_v1 (by decide)) (ix1 e)).trans (host0_src (W0 m c) e)
theorem W2_dst (e : Fin 1600000) : W2 m c main_v3 (ix1 e) = m ((c.tc : Thread nD τ).loc main_arg1) (ix2 1 e) :=
  (congrFun (W2_of_ne m c main_v3 (by decide)) (ix1 e)).trans (host0_dst (W0 m c) e)
theorem W4_src (e : Fin 1600000) : W4 m c main_v1 (ix1 e) = m ((c.tc : Thread nD τ).loc main_arg1) (ix2 0 e) :=
  (congrFun ((W4_of_ne m c main_v1 (by decide)).trans (W3_keep m c main_v1 (by decide))) (ix1 e)).trans (W2_src m c e)
theorem W4_dst (e : Fin 1600000) : W4 m c main_v3 (ix1 e) = m ((c.tc : Thread nD τ).loc main_arg1) (ix2 1 e) :=
  (congrFun ((W4_of_ne m c main_v3 (by decide)).trans (W3_keep m c main_v3 (by decide))) (ix1 e)).trans (W2_dst m c e)
theorem W6_src (e : Fin 1600000) : W6 m c main_v1 (ix1 e) = m ((c.tc : Thread nD τ).loc main_arg1) (ix2 0 e) :=
  (congrFun ((W6_of_ne m c main_v1 (by decide)).trans (W5_keep m c main_v1 (by decide))) (ix1 e)).trans (W4_src m c e)
theorem W6_dst (e : Fin 1600000) : W6 m c main_v3 (ix1 e) = m ((c.tc : Thread nD τ).loc main_arg1) (ix2 1 e) :=
  (congrFun ((W6_of_ne m c main_v3 (by decide)).trans (W5_keep m c main_v3 (by decide))) (ix1 e)).trans (W4_dst m c e)

theorem mlp_congr {R : Nat} {h h' : GinSpec.Mat R 128} {w1 w1' : GinSpec.Mat 128 128} {b1 b1' g g' be be' mu mu' var var' : Fin 128 → EReal}
    {w2 w2' : GinSpec.Mat 128 128} {b2 b2' : Fin 128 → EReal} (e1 : h = h') (e2 : w1 = w1') (e3 : b1 = b1') (e4 : g = g') (e5 : be = be')
    (e6 : mu = mu') (e7 : var = var') (e8 : w2 = w2') (e9 : b2 = b2') :
    GinSpec.mlp h w1 b1 g be mu var w2 b2 = GinSpec.mlp h' w1' b1' g' be' mu' var' w2' b2' := by
  rw [e1, e2, e3, e4, e5, e6, e7, e8, e9]

abbrev specLayer (l : Fin 4) (X : GinSpec.Mat 100000 128) : GinSpec.Mat 100000 128 :=
  GinSpec.layerAt (m ((c.tc : Thread nD τ).loc main_arg1)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9)) (m ((c.tc : Thread nD τ).loc main_arg10))
    (m ((c.tc : Thread nD τ).loc main_arg11)) l X

end Cert.KernelIdeal.Hand

end
-- ==== Proof.KI.Pay0.lean ====
import proofs.«428851_j84464826843159_1_alg».proof.Proof.Gen.KernelIdeal.Skeleton
import proofs.«428851_j84464826843159_1_alg».proof.Proof.Spec
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.KernelIdeal.Hand

open Cert.KernelIdeal Cert.KernelIdeal.Gen Idealize.ShloMosaic Idealize.ShloMosaic.ValueIdx

theorem lhs_rowsByMatrix_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

theorem lhs_rowsByMatrix_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q

theorem rhs_rowsByMatrix_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q

theorem rhs_rowsByMatrix_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

theorem rowsByMatrix_apply {φ₁ φ₂ : FTy} (a : FVec Ideal S5000x128 φ₁) (w : FVec Ideal S128x128 φ₂) (r : Fin 5000) (q : Fin 128) :
    matmul dot_S5000x128_S128x128_S5000x128_1_0_0_1_n_n none a w (constant (F := Ideal) S5000x128 .f32 0x00000000#32) (ix2 r q)
      = ∑ k : Fin 128, a (ix2 r k) * w (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r q) ((contrEquiv1 dot_S5000x128_S128x128_S5000x128_1_0_0_1_n_n 128 rfl rfl).symm k) = ix2 r k := funext fun b => Fin.ext (by
    match b with
    | ⟨0, _⟩ => exact lhs_rowsByMatrix_0 _ _
    | ⟨1, _⟩ => exact (lhs_rowsByMatrix_1 _ _).trans hk)
  have er : dot_S5000x128_S128x128_S5000x128_1_0_0_1_n_n.rhsIdx (ix2 r q) ((contrEquiv1 dot_S5000x128_S128x128_S5000x128_1_0_0_1_n_n 128 rfl rfl).symm k) = ix2 k q := funext fun b => Fin.ext (by
    match b with
    | ⟨0, _⟩ => exact (rhs_rowsByMatrix_0 _ _).trans hk
    | ⟨1, _⟩ => exact rhs_rowsByMatrix_1 _ _)
  rw [el, er]

theorem rowRepeat_apply {α : Type} (v : S1x128.Idx → α) (r : Fin 5000) (q : Fin 128) :
    broadcastTo S5000x128 v broadcasts_S1x128_S5000x128 (ix2 r q) = v (ix2 0 q) :=
  broadcastTo_apply v broadcasts_S1x128_S5000x128 (ix2 r q) (ix2 0 q) (fun b => match b with
    | ⟨0, _⟩ => rfl
    | ⟨1, _⟩ => rfl)

theorem rsqrt_apply {s : Shape} {φ : FTy} (a : FVec Ideal s φ) (i : s.Idx) : rsqrt a i = Ideal.rsqrt (a i) := rfl

theorem pay0_apply (x0 : Vec Ideal S5000x128 .f32) (x1 : Vec Ideal S128x128 .f32) (x2 x3 x4 x5 x6 : Vec Ideal S1x128 .f32)
    (x7 : Vec Ideal S128x128 .f32) (x8 : Vec Ideal S1x128 .f32) (r : Fin 5000) (q : Fin 128) :
    k0_pay1 (F := Ideal) (k0_pay2 x0 x1 x2 x5 x6 x3 x4) (k0_pay3 x7) (constant S5000x128 .f32 0x00000000#32) x8 (ix2 r q)
      = GinSpec.mlp (fun r j => x0 (ix2 r j)) (fun j k => x1 (ix2 j k)) (fun k => x2 (ix2 0 k)) (fun k => x3 (ix2 0 k))
          (fun k => x4 (ix2 0 k)) (fun k => x5 (ix2 0 k)) (fun k => x6 (ix2 0 k)) (fun j k => x7 (ix2 j k))
          (fun k => x8 (ix2 0 k)) r q := by
  unfold k0_pay1 k0_pay2 k0_pay3
  simp only [shapeCast_self]
  rw [maximumf_apply, addf_apply, rowsByMatrix_apply, rowRepeat_apply, broadcast_apply]
  simp only [truncf_apply, maximumf_apply, addf_apply, mulf_apply, subf_apply, rowsByMatrix_apply, rowRepeat_apply,
    broadcast_apply, rsqrt_apply]
  rfl

end Cert.KernelIdeal.Hand

end
-- ==== Proof.KI.Val0.lean ====
import proofs.«428851_j84464826843159_1_alg».proof.Proof.KI.Reg0
import proofs.«428851_j84464826843159_1_alg».proof.Proof.KI.Pay0
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem mlp_row {R R' : Nat} (h : GinSpec.Mat R 128) (h' : GinSpec.Mat R' 128) (W1 : GinSpec.Mat 128 128)
    (b1 g be mu var : Fin 128 → EReal) (W2 : GinSpec.Mat 128 128) (b2 : Fin 128 → EReal) (r : Fin R) (r' : Fin R')
    (hrow : ∀ j, h r j = h' r' j) (q : Fin 128) :
    GinSpec.mlp h W1 b1 g be mu var W2 b2 r q = GinSpec.mlp h' W1 b1 g be mu var W2 b2 r' q := by
  simp only [GinSpec.mlp, GinSpec.affine, GinSpec.norm, hrow]

theorem zeroOffsets : (![0, 0] : Fin 2 → Nat) = fun _ => 0 := funext fun a => by fin_cases a <;> rfl

def mlpOfArrays0 (c : Dev nD) : Buf (Elt Ideal) ((c : Thread nD τ).loc main_v42) :=
  fun i => GinSpec.mlp (fun n j => V c main_v19 (ix2 n j)) (fun j k => V c main_v21 (ix2 j k)) (fun k => V c main_v24 (ix2 0 k)) (fun k => V c main_v27 (ix2 0 k)) (fun k => V c main_v30 (ix2 0 k)) (fun k => V c main_v33 (ix2 0 k)) (fun k => V c main_v36 (ix2 0 k)) (fun j k => V c main_v38 (ix2 j k)) (fun k => V c main_v41 (ix2 0 k)) (i 0) (i 1)

theorem out0_9_apply (x0 : Vec Ideal S5000x128 .f32) (x1 : Vec Ideal S128x128 .f32) (x2 x3 x4 x5 x6 : Vec Ideal S1x128 .f32)
    (x7 : Vec Ideal S128x128 .f32) (x8 : Vec Ideal S1x128 .f32) (r : Fin 5000) (q : Fin 128) :
    out0_9 (F := Ideal) x0 x1 x2 x3 x4 x5 x6 x7 x8 (ix2 r q)
      = GinSpec.mlp (fun r j => x0 (ix2 r j)) (fun j k => x1 (ix2 j k)) (fun k => x2 (ix2 0 k)) (fun k => x3 (ix2 0 k))
          (fun k => x4 (ix2 0 k)) (fun k => x5 (ix2 0 k)) (fun k => x6 (ix2 0 k)) (fun j k => x7 (ix2 j k))
          (fun k => x8 (ix2 0 k)) r q := by
  unfold out0_9
  rw [View.canon_unit_zero zeroOffsets]
  simp only [View.ld_unit_zero (S := S5000x128) zeroOffsets, View.ld_unit_zero (S := S128x128) zeroOffsets,
    View.ld_unit_zero (S := S1x128) zeroOffsets]
  exact pay0_apply x0 x1 x2 x3 x4 x5 x6 x7 x8 r q

theorem blockIndex0 : ∀ t : Fin cfg0.N, win0_0.index t (0 : Fin 2) = t.val ∧ win0_0.index t (1 : Fin 2) = 0
    ∧ win0_9.index t (0 : Fin 2) = t.val ∧ win0_9.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

theorem rowBlock0_apply (c : Dev nD) (t : Fin cfg0.N) (r : Fin 5000) (j : Fin 128) (n : Fin 100000)
    (hn : n.val = t.val * 5000 + r.val) :
    (iblk0 V c 0 t : Vec Ideal S5000x128 .f32) (ix2 r j) = V c main_v19 (ix2 n j) := by
  obtain ⟨e0, e1, -⟩ := blockIndex0 t
  unfold iblk0
  rw [View.read_apply]
  show V c main_v19 (((cfg0.win 0).blk t).view.emb (ix2 r j)) = V c main_v19 (ix2 n j)
  congr 1
  funext a
  apply Fin.ext
  match a with
  | ⟨0, _⟩ => show win0_0.index t (0 : Fin 2) * 5000 + 1 * r.val = n.val; rw [e0, hn]; omega
  | ⟨1, _⟩ => show win0_0.index t (1 : Fin 2) * 128 + 1 * j.val = j.val; rw [e1]; omega

theorem wholeBlock0_1 (c : Dev nD) (t : Fin cfg0.N) : (iblk0 V c 1 t : Vec Ideal S128x128 .f32) = V c main_v21 := by
  have h := blockIndex0 t
  funext y
  show V c main_v21 (((cfg0.win 1).blk t).view.emb y) = V c main_v21 y
  refine congrArg _ (funext fun a => Fin.ext ?_)
  match a with
  | ⟨0, _⟩ => show win0_1.index t (0 : Fin 2) * 128 + 1 * (y 0).val = (y 0).val; simp only [h]; omega
  | ⟨1, _⟩ => show win0_1.index t (1 : Fin 2) * 128 + 1 * (y 1).val = (y 1).val; simp only [h]; omega

theorem wholeBlock0_2 (c : Dev nD) (t : Fin cfg0.N) : (iblk0 V c 2 t : Vec Ideal S1x128 .f32) = V c main_v24 := by
  have h := blockIndex0 t
  funext y
  show V c main_v24 (((cfg0.win 2).blk t).view.emb y) = V c main_v24 y
  refine congrArg _ (funext fun a => Fin.ext ?_)
  match a with
  | ⟨0, _⟩ => show win0_2.index t (0 : Fin 2) * 1 + 1 * (y 0).val = (y 0).val; simp only [h]; omega
  | ⟨1, _⟩ => show win0_2.index t (1 : Fin 2) * 128 + 1 * (y 1).val = (y 1).val; simp only [h]; omega

theorem wholeBlock0_3 (c : Dev nD) (t : Fin cfg0.N) : (iblk0 V c 3 t : Vec Ideal S1x128 .f32) = V c main_v27 := by
  have h := blockIndex0 t
  funext y
  show V c main_v27 (((cfg0.win 3).blk t).view.emb y) = V c main_v27 y
  refine congrArg _ (funext fun a => Fin.ext ?_)
  match a with
  | ⟨0, _⟩ => show win0_3.index t (0 : Fin 2) * 1 + 1 * (y 0).val = (y 0).val; simp only [h]; omega
  | ⟨1, _⟩ => show win0_3.index t (1 : Fin 2) * 128 + 1 * (y 1).val = (y 1).val; simp only [h]; omega

theorem wholeBlock0_4 (c : Dev nD) (t : Fin cfg0.N) : (iblk0 V c 4 t : Vec Ideal S1x128 .f32) = V c main_v30 := by
  have h := blockIndex0 t
  funext y
  show V c main_v30 (((cfg0.win 4).blk t).view.emb y) = V c main_v30 y
  refine congrArg _ (funext fun a => Fin.ext ?_)
  match a with
  | ⟨0, _⟩ => show win0_4.index t (0 : Fin 2) * 1 + 1 * (y 0).val = (y 0).val; simp only [h]; omega
  | ⟨1, _⟩ => show win0_4.index t (1 : Fin 2) * 128 + 1 * (y 1).val = (y 1).val; simp only [h]; omega

theorem wholeBlock0_5 (c : Dev nD) (t : Fin cfg0.N) : (iblk0 V c 5 t : Vec Ideal S1x128 .f32) = V c main_v33 := by
  have h := blockIndex0 t
  funext y
  show V c main_v33 (((cfg0.win 5).blk t).view.emb y) = V c main_v33 y
  refine congrArg _ (funext fun a => Fin.ext ?_)
  match a with
  | ⟨0, _⟩ => show win0_5.index t (0 : Fin 2) * 1 + 1 * (y 0).val = (y 0).val; simp only [h]; omega
  | ⟨1, _⟩ => show win0_5.index t (1 : Fin 2) * 128 + 1 * (y 1).val = (y 1).val; simp only [h]; omega

theorem wholeBlock0_6 (c : Dev nD) (t : Fin cfg0.N) : (iblk0 V c 6 t : Vec Ideal S1x128 .f32) = V c main_v36 := by
  have h := blockIndex0 t
  funext y
  show V c main_v36 (((cfg0.win 6).blk t).view.emb y) = V c main_v36 y
  refine congrArg _ (funext fun a => Fin.ext ?_)
  match a with
  | ⟨0, _⟩ => show win0_6.index t (0 : Fin 2) * 1 + 1 * (y 0).val = (y 0).val; simp only [h]; omega
  | ⟨1, _⟩ => show win0_6.index t (1 : Fin 2) * 128 + 1 * (y 1).val = (y 1).val; simp only [h]; omega

theorem wholeBlock0_7 (c : Dev nD) (t : Fin cfg0.N) : (iblk0 V c 7 t : Vec Ideal S128x128 .f32) = V c main_v38 := by
  have h := blockIndex0 t
  funext y
  show V c main_v38 (((cfg0.win 7).blk t).view.emb y) = V c main_v38 y
  refine congrArg _ (funext fun a => Fin.ext ?_)
  match a with
  | ⟨0, _⟩ => show win0_7.index t (0 : Fin 2) * 128 + 1 * (y 0).val = (y 0).val; simp only [h]; omega
  | ⟨1, _⟩ => show win0_7.index t (1 : Fin 2) * 128 + 1 * (y 1).val = (y 1).val; simp only [h]; omega

theorem wholeBlock0_8 (c : Dev nD) (t : Fin cfg0.N) : (iblk0 V c 8 t : Vec Ideal S1x128 .f32) = V c main_v41 := by
  have h := blockIndex0 t
  funext y
  show V c main_v41 (((cfg0.win 8).blk t).view.emb y) = V c main_v41 y
  refine congrArg _ (funext fun a => Fin.ext ?_)
  match a with
  | ⟨0, _⟩ => show win0_8.index t (0 : Fin 2) * 1 + 1 * (y 0).val = (y 0).val; simp only [h]; omega
  | ⟨1, _⟩ => show win0_8.index t (1 : Fin 2) * 128 + 1 * (y 1).val = (y 1).val; simp only [h]; omega

theorem outBlock0_emb (t : Fin cfg0.N) (r : Fin 5000) (q : Fin 128) (n : Fin 100000) (hn : n.val = t.val * 5000 + r.val) :
    ((cfg0.win 9).blk t).view.emb (ix2 r q) = (ix2 n q : S100000x128.Idx) := by
  obtain ⟨-, -, e0, e1, -⟩ := blockIndex0 t
  funext a
  apply Fin.ext
  match a with
  | ⟨0, _⟩ => show win0_9.index t (0 : Fin 2) * 5000 + 1 * r.val = n.val; rw [e0, hn]; omega
  | ⟨1, _⟩ => show win0_9.index t (1 : Fin 2) * 128 + 1 * q.val = q.val; rw [e1]; omega

theorem flushed0_9_eq (c : Dev nD) (t : Fin cfg0.N) :
    (dat0 (F := Ideal) V c).flushed 9 t = ((cfg0.win 9).blk t).view.read (Elt Ideal) (mlpOfArrays0 V c) := by
  show (cfg0.win 9).cut (grid0.coords t) ((dat0 V c).after 9 t) = _
  rw [after0_9]
  funext y
  obtain ⟨r, q, rfl⟩ : ∃ (r : Fin 5000) (q : Fin 128), y = ix2 r q := ⟨y 0, y 1, eq_ix2 (n0 := 5000) (n1 := 128) y⟩
  have hN : cfg0.N = 20 := N_0
  have ht := t.isLt
  have hr := r.isLt
  rw [View.read_apply, outBlock0_emb t r q ⟨t.val * 5000 + r.val, by omega⟩ rfl]
  show out0_9 (iblk0 V c 0 t) (iblk0 V c 1 t) (iblk0 V c 2 t) (iblk0 V c 3 t) (iblk0 V c 4 t) (iblk0 V c 5 t) (iblk0 V c 6 t)
      (iblk0 V c 7 t) (iblk0 V c 8 t) (ix2 r q)
    = GinSpec.mlp (fun n j => V c main_v19 (ix2 n j)) (fun j k => V c main_v21 (ix2 j k)) (fun k => V c main_v24 (ix2 0 k)) (fun k => V c main_v27 (ix2 0 k)) (fun k => V c main_v30 (ix2 0 k)) (fun k => V c main_v33 (ix2 0 k)) (fun k => V c main_v36 (ix2 0 k)) (fun j k => V c main_v38 (ix2 j k)) (fun k => V c main_v41 (ix2 0 k)) ⟨t.val * 5000 + r.val, by omega⟩ q
  rw [out0_9_apply, wholeBlock0_1, wholeBlock0_2, wholeBlock0_3, wholeBlock0_4, wholeBlock0_5, wholeBlock0_6, wholeBlock0_7,
    wholeBlock0_8]
  exact mlp_row _ _ _ _ _ _ _ _ _ _ r _ (fun j => rowBlock0_apply V c t r j _ rfl) q

theorem mem_blk0_9 (t : Fin cfg0.N) (i : S100000x128.Idx) :
    i ∈ ((cfg0.win 9).blk t).view.set ↔ ∀ a : Fin 2, win0_9.index t a * S5000x128.size a ≤ (i a).val ∧ (i a).val < win0_9.index t a * S5000x128.size a + S5000x128.size a := by
  show i ∈ ((View.whole main_v42).slice (win0_9.rect t)).set ↔ _
  rw [View.set_slice_whole, Rect.mem_set_unit]
  exact Iff.rfl

theorem val0 (c : Dev nD) :
    (dat0 (F := Ideal) V c).arrAt 9 cfg0.N = (fun i => GinSpec.mlp (fun n j => V c main_v19 (ix2 n j)) (fun j k => V c main_v21 (ix2 j k)) (fun k => V c main_v24 (ix2 0 k)) (fun k => V c main_v27 (ix2 0 k)) (fun k => V c main_v30 (ix2 0 k)) (fun k => V c main_v33 (ix2 0 k)) (fun k => V c main_v36 (ix2 0 k)) (fun j k => V c main_v38 (ix2 j k)) (fun k => V c main_v41 (ix2 0 k)) (i 0) (i 1) : Buf (Elt Ideal) ((c : Thread nD τ).loc main_v42)) := by
  refine (dat0 (F := Ideal) V c).arrAt_eq_of_cover 9 (mlpOfArrays0 V c) (fun t _ => flushed0_9_eq V c t) fun i => ?_
  have hN : cfg0.N = 20 := N_0
  have hi0 : (i 0).val < 100000 := (i 0).isLt
  have hi1 : (i 1).val < 128 := (i 1).isLt
  refine ⟨⟨(i 0).val / 5000, by omega⟩, flush0_9 _, ?_⟩
  rw [mem_blk0_9]
  obtain ⟨-, -, e0, e1, -⟩ := blockIndex0 ⟨(i 0).val / 5000, by omega⟩
  intro a
  match a with
  | ⟨0, _⟩ =>
    show win0_9.index ⟨(i 0).val / 5000, _⟩ (0 : Fin 2) * 5000 ≤ (i 0).val
      ∧ (i 0).val < win0_9.index ⟨(i 0).val / 5000, _⟩ (0 : Fin 2) * 5000 + 5000
    rw [e0]; show (i 0).val / 5000 * 5000 ≤ (i 0).val ∧ (i 0).val < (i 0).val / 5000 * 5000 + 5000; omega
  | ⟨1, _⟩ =>
    show win0_9.index ⟨(i 0).val / 5000, _⟩ (1 : Fin 2) * 128 ≤ (i 1).val
      ∧ (i 1).val < win0_9.index ⟨(i 0).val / 5000, _⟩ (1 : Fin 2) * 128 + 128
    rw [e1]; omega

end Cert.KernelIdeal.Hand

end
-- ==== Proof.KI.Val1.lean ====
import proofs.«428851_j84464826843159_1_alg».proof.Proof.KI.Reg1
import proofs.«428851_j84464826843159_1_alg».proof.Proof.KI.Val0
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

def mlpOfArrays1 (c : Dev nD) : Buf (Elt Ideal) ((c : Thread nD τ).loc main_v81) :=
  fun i => GinSpec.mlp (fun n j => V c main_v58 (ix2 n j)) (fun j k => V c main_v60 (ix2 j k)) (fun k => V c main_v63 (ix2 0 k)) (fun k => V c main_v66 (ix2 0 k)) (fun k => V c main_v69 (ix2 0 k)) (fun k => V c main_v72 (ix2 0 k)) (fun k => V c main_v75 (ix2 0 k)) (fun j k => V c main_v77 (ix2 j k)) (fun k => V c main_v80 (ix2 0 k)) (i 0) (i 1)

theorem blockIndex1 : ∀ t : Fin cfg1.N, win1_0.index t (0 : Fin 2) = t.val ∧ win1_0.index t (1 : Fin 2) = 0
    ∧ win1_9.index t (0 : Fin 2) = t.val ∧ win1_9.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0 :=
  (by decide +kernel : ∀ t : Fin grid1.N, _)

theorem rowBlock1_apply (c : Dev nD) (t : Fin cfg1.N) (r : Fin 5000) (j : Fin 128) (n : Fin 100000)
    (hn : n.val = t.val * 5000 + r.val) :
    (iblk1 V c 0 t : Vec Ideal S5000x128 .f32) (ix2 r j) = V c main_v58 (ix2 n j) := by
  obtain ⟨e0, e1, -⟩ := blockIndex1 t
  unfold iblk1
  rw [View.read_apply]
  show V c main_v58 (((cfg1.win 0).blk t).view.emb (ix2 r j)) = V c main_v58 (ix2 n j)
  congr 1
  funext a
  apply Fin.ext
  match a with
  | ⟨0, _⟩ => show win1_0.index t (0 : Fin 2) * 5000 + 1 * r.val = n.val; rw [e0, hn]; omega
  | ⟨1, _⟩ => show win1_0.index t (1 : Fin 2) * 128 + 1 * j.val = j.val; rw [e1]; omega

theorem wholeBlock1_1 (c : Dev nD) (t : Fin cfg1.N) : (iblk1 V c 1 t : Vec Ideal S128x128 .f32) = V c main_v60 := by
  have h := blockIndex1 t
  funext y
  show V c main_v60 (((cfg1.win 1).blk t).view.emb y) = V c main_v60 y
  refine congrArg _ (funext fun a => Fin.ext ?_)
  match a with
  | ⟨0, _⟩ => show win1_1.index t (0 : Fin 2) * 128 + 1 * (y 0).val = (y 0).val; simp only [h]; omega
  | ⟨1, _⟩ => show win1_1.index t (1 : Fin 2) * 128 + 1 * (y 1).val = (y 1).val; simp only [h]; omega

theorem wholeBlock1_2 (c : Dev nD) (t : Fin cfg1.N) : (iblk1 V c 2 t : Vec Ideal S1x128 .f32) = V c main_v63 := by
  have h := blockIndex1 t
  funext y
  show V c main_v63 (((cfg1.win 2).blk t).view.emb y) = V c main_v63 y
  refine congrArg _ (funext fun a => Fin.ext ?_)
  match a with
  | ⟨0, _⟩ => show win1_2.index t (0 : Fin 2) * 1 + 1 * (y 0).val = (y 0).val; simp only [h]; omega
  | ⟨1, _⟩ => show win1_2.index t (1 : Fin 2) * 128 + 1 * (y 1).val = (y 1).val; simp only [h]; omega

theorem wholeBlock1_3 (c : Dev nD) (t : Fin cfg1.N) : (iblk1 V c 3 t : Vec Ideal S1x128 .f32) = V c main_v66 := by
  have h := blockIndex1 t
  funext y
  show V c main_v66 (((cfg1.win 3).blk t).view.emb y) = V c main_v66 y
  refine congrArg _ (funext fun a => Fin.ext ?_)
  match a with
  | ⟨0, _⟩ => show win1_3.index t (0 : Fin 2) * 1 + 1 * (y 0).val = (y 0).val; simp only [h]; omega
  | ⟨1, _⟩ => show win1_3.index t (1 : Fin 2) * 128 + 1 * (y 1).val = (y 1).val; simp only [h]; omega

theorem wholeBlock1_4 (c : Dev nD) (t : Fin cfg1.N) : (iblk1 V c 4 t : Vec Ideal S1x128 .f32) = V c main_v69 := by
  have h := blockIndex1 t
  funext y
  show V c main_v69 (((cfg1.win 4).blk t).view.emb y) = V c main_v69 y
  refine congrArg _ (funext fun a => Fin.ext ?_)
  match a with
  | ⟨0, _⟩ => show win1_4.index t (0 : Fin 2) * 1 + 1 * (y 0).val = (y 0).val; simp only [h]; omega
  | ⟨1, _⟩ => show win1_4.index t (1 : Fin 2) * 128 + 1 * (y 1).val = (y 1).val; simp only [h]; omega

theorem wholeBlock1_5 (c : Dev nD) (t : Fin cfg1.N) : (iblk1 V c 5 t : Vec Ideal S1x128 .f32) = V c main_v72 := by
  have h := blockIndex1 t
  funext y
  show V c main_v72 (((cfg1.win 5).blk t).view.emb y) = V c main_v72 y
  refine congrArg _ (funext fun a => Fin.ext ?_)
  match a with
  | ⟨0, _⟩ => show win1_5.index t (0 : Fin 2) * 1 + 1 * (y 0).val = (y 0).val; simp only [h]; omega
  | ⟨1, _⟩ => show win1_5.index t (1 : Fin 2) * 128 + 1 * (y 1).val = (y 1).val; simp only [h]; omega

theorem wholeBlock1_6 (c : Dev nD) (t : Fin cfg1.N) : (iblk1 V c 6 t : Vec Ideal S1x128 .f32) = V c main_v75 := by
  have h := blockIndex1 t
  funext y
  show V c main_v75 (((cfg1.win 6).blk t).view.emb y) = V c main_v75 y
  refine congrArg _ (funext fun a => Fin.ext ?_)
  match a with
  | ⟨0, _⟩ => show win1_6.index t (0 : Fin 2) * 1 + 1 * (y 0).val = (y 0).val; simp only [h]; omega
  | ⟨1, _⟩ => show win1_6.index t (1 : Fin 2) * 128 + 1 * (y 1).val = (y 1).val; simp only [h]; omega

theorem wholeBlock1_7 (c : Dev nD) (t : Fin cfg1.N) : (iblk1 V c 7 t : Vec Ideal S128x128 .f32) = V c main_v77 := by
  have h := blockIndex1 t
  funext y
  show V c main_v77 (((cfg1.win 7).blk t).view.emb y) = V c main_v77 y
  refine congrArg _ (funext fun a => Fin.ext ?_)
  match a with
  | ⟨0, _⟩ => show win1_7.index t (0 : Fin 2) * 128 + 1 * (y 0).val = (y 0).val; simp only [h]; omega
  | ⟨1, _⟩ => show win1_7.index t (1 : Fin 2) * 128 + 1 * (y 1).val = (y 1).val; simp only [h]; omega

theorem wholeBlock1_8 (c : Dev nD) (t : Fin cfg1.N) : (iblk1 V c 8 t : Vec Ideal S1x128 .f32) = V c main_v80 := by
  have h := blockIndex1 t
  funext y
  show V c main_v80 (((cfg1.win 8).blk t).view.emb y) = V c main_v80 y
  refine congrArg _ (funext fun a => Fin.ext ?_)
  match a with
  | ⟨0, _⟩ => show win1_8.index t (0 : Fin 2) * 1 + 1 * (y 0).val = (y 0).val; simp only [h]; omega
  | ⟨1, _⟩ => show win1_8.index t (1 : Fin 2) * 128 + 1 * (y 1).val = (y 1).val; simp only [h]; omega

theorem outBlock1_emb (t : Fin cfg1.N) (r : Fin 5000) (q : Fin 128) (n : Fin 100000) (hn : n.val = t.val * 5000 + r.val) :
    ((cfg1.win 9).blk t).view.emb (ix2 r q) = (ix2 n q : S100000x128.Idx) := by
  obtain ⟨-, -, e0, e1, -⟩ := blockIndex1 t
  funext a
  apply Fin.ext
  match a with
  | ⟨0, _⟩ => show win1_9.index t (0 : Fin 2) * 5000 + 1 * r.val = n.val; rw [e0, hn]; omega
  | ⟨1, _⟩ => show win1_9.index t (1 : Fin 2) * 128 + 1 * q.val = q.val; rw [e1]; omega

theorem flushed1_9_eq (c : Dev nD) (t : Fin cfg1.N) :
    (dat1 (F := Ideal) V c).flushed 9 t = ((cfg1.win 9).blk t).view.read (Elt Ideal) (mlpOfArrays1 V c) := by
  show (cfg1.win 9).cut (grid1.coords t) ((dat1 V c).after 9 t) = _
  rw [after1_9]
  funext y
  obtain ⟨r, q, rfl⟩ : ∃ (r : Fin 5000) (q : Fin 128), y = ix2 r q := ⟨y 0, y 1, eq_ix2 (n0 := 5000) (n1 := 128) y⟩
  have hN : cfg1.N = 20 := N_1
  have ht := t.isLt
  have hr := r.isLt
  rw [View.read_apply, outBlock1_emb t r q ⟨t.val * 5000 + r.val, by omega⟩ rfl]
  show out0_9 (iblk1 V c 0 t) (iblk1 V c 1 t) (iblk1 V c 2 t) (iblk1 V c 3 t) (iblk1 V c 4 t) (iblk1 V c 5 t) (iblk1 V c 6 t)
      (iblk1 V c 7 t) (iblk1 V c 8 t) (ix2 r q)
    = GinSpec.mlp (fun n j => V c main_v58 (ix2 n j)) (fun j k => V c main_v60 (ix2 j k)) (fun k => V c main_v63 (ix2 0 k)) (fun k => V c main_v66 (ix2 0 k)) (fun k => V c main_v69 (ix2 0 k)) (fun k => V c main_v72 (ix2 0 k)) (fun k => V c main_v75 (ix2 0 k)) (fun j k => V c main_v77 (ix2 j k)) (fun k => V c main_v80 (ix2 0 k)) ⟨t.val * 5000 + r.val, by omega⟩ q
  rw [out0_9_apply, wholeBlock1_1, wholeBlock1_2, wholeBlock1_3, wholeBlock1_4, wholeBlock1_5, wholeBlock1_6, wholeBlock1_7,
    wholeBlock1_8]
  exact mlp_row _ _ _ _ _ _ _ _ _ _ r _ (fun j => rowBlock1_apply V c t r j _ rfl) q

theorem mem_blk1_9 (t : Fin cfg1.N) (i : S100000x128.Idx) :
    i ∈ ((cfg1.win 9).blk t).view.set ↔ ∀ a : Fin 2, win1_9.index t a * S5000x128.size a ≤ (i a).val ∧ (i a).val < win1_9.index t a * S5000x128.size a + S5000x128.size a := by
  show i ∈ ((View.whole main_v81).slice (win1_9.rect t)).set ↔ _
  rw [View.set_slice_whole, Rect.mem_set_unit]
  exact Iff.rfl

theorem val1 (c : Dev nD) :
    (dat1 (F := Ideal) V c).arrAt 9 cfg1.N = (fun i => GinSpec.mlp (fun n j => V c main_v58 (ix2 n j)) (fun j k => V c main_v60 (ix2 j k)) (fun k => V c main_v63 (ix2 0 k)) (fun k => V c main_v66 (ix2 0 k)) (fun k => V c main_v69 (ix2 0 k)) (fun k => V c main_v72 (ix2 0 k)) (fun k => V c main_v75 (ix2 0 k)) (fun j k => V c main_v77 (ix2 j k)) (fun k => V c main_v80 (ix2 0 k)) (i 0) (i 1) : Buf (Elt Ideal) ((c : Thread nD τ).loc main_v81)) := by
  refine (dat1 (F := Ideal) V c).arrAt_eq_of_cover 9 (mlpOfArrays1 V c) (fun t _ => flushed1_9_eq V c t) fun i => ?_
  have hN : cfg1.N = 20 := N_1
  have hi0 : (i 0).val < 100000 := (i 0).isLt
  have hi1 : (i 1).val < 128 := (i 1).isLt
  refine ⟨⟨(i 0).val / 5000, by omega⟩, flush1_9 _, ?_⟩
  rw [mem_blk1_9]
  obtain ⟨-, -, e0, e1, -⟩ := blockIndex1 ⟨(i 0).val / 5000, by omega⟩
  intro a
  match a with
  | ⟨0, _⟩ =>
    show win1_9.index ⟨(i 0).val / 5000, _⟩ (0 : Fin 2) * 5000 ≤ (i 0).val
      ∧ (i 0).val < win1_9.index ⟨(i 0).val / 5000, _⟩ (0 : Fin 2) * 5000 + 5000
    rw [e0]; show (i 0).val / 5000 * 5000 ≤ (i 0).val ∧ (i 0).val < (i 0).val / 5000 * 5000 + 5000; omega
  | ⟨1, _⟩ =>
    show win1_9.index ⟨(i 0).val / 5000, _⟩ (1 : Fin 2) * 128 ≤ (i 1).val
      ∧ (i 1).val < win1_9.index ⟨(i 0).val / 5000, _⟩ (1 : Fin 2) * 128 + 128
    rw [e1]; omega

end Cert.KernelIdeal.Hand

end
-- ==== Proof.KI.Host1.lean ====
import proofs.«428851_j84464826843159_1_alg».proof.Proof.Gen.KernelIdeal.Launch
import proofs.«428851_j84464826843159_1_alg».proof.Proof.Spec
import proofs.«428851_j84464826843159_1_alg».proof.Proof.KI.HostRead
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.ShloMosaic.ValueIdx

variable (W : Valuation τ sig (Elt Ideal))

theorem host1_pre (r : Fin 100000) (p : Fin 128) :
    StableHlo.after hostOps1 W main_v58 (ix2 r p)
      = GinSpec.pre (W main_arg3 (ix1 1)) (fun r p => W main_v42 (ix2 r p)) (fun e => W main_v1 (ix1 e))
          (fun e => W main_v3 (ix1 e)) r p := by
  after_results_simp
  refine (pre_apply (W main_v42) (W main_v1) (W main_v3) _ r p).trans ?_
  exact congrArg (fun a => GinSpec.pre a (fun r p => W main_v42 (ix2 r p)) (fun e => W main_v1 (ix1 e)) (fun e => W main_v3 (ix1 e)) r p)
    (scalarSlice_apply (W main_arg3) 1 _ _ ix0)

theorem host1_W1 (j k : Fin 128) : StableHlo.after hostOps1 W main_v60 (ix2 j k) = W main_arg4 (ix3 1 j k) := by
  after_results_simp
  exact matSlice_apply (W main_arg4) 1 _ _ j k
theorem host1_b1 (k : Fin 128) : StableHlo.after hostOps1 W main_v63 (ix2 0 k) = W main_arg5 (ix2 1 k) := by
  after_results_simp
  exact rowSlice_row_apply (W main_arg5) 1 _ _ _ 0 k
theorem host1_gamma (k : Fin 128) : StableHlo.after hostOps1 W main_v66 (ix2 0 k) = W main_arg6 (ix2 1 k) := by
  after_results_simp
  exact rowSlice_row_apply (W main_arg6) 1 _ _ _ 0 k
theorem host1_beta (k : Fin 128) : StableHlo.after hostOps1 W main_v69 (ix2 0 k) = W main_arg7 (ix2 1 k) := by
  after_results_simp
  exact rowSlice_row_apply (W main_arg7) 1 _ _ _ 0 k
theorem host1_mean (k : Fin 128) : StableHlo.after hostOps1 W main_v72 (ix2 0 k) = W main_arg8 (ix2 1 k) := by
  after_results_simp
  exact rowSlice_row_apply (W main_arg8) 1 _ _ _ 0 k
theorem host1_var (k : Fin 128) : StableHlo.after hostOps1 W main_v75 (ix2 0 k) = W main_arg9 (ix2 1 k) := by
  after_results_simp
  exact rowSlice_row_apply (W main_arg9) 1 _ _ _ 0 k
theorem host1_W2 (j k : Fin 128) : StableHlo.after hostOps1 W main_v77 (ix2 j k) = W main_arg10 (ix3 1 j k) := by
  after_results_simp
  exact matSlice_apply (W main_arg10) 1 _ _ j k
theorem host1_b2 (k : Fin 128) : StableHlo.after hostOps1 W main_v80 (ix2 0 k) = W main_arg11 (ix2 1 k) := by
  after_results_simp
  exact rowSlice_row_apply (W main_arg11) 1 _ _ _ 0 k

end Cert.KernelIdeal.Hand

end
-- ==== Proof.KI.ValueLayer1.lean ====
import proofs.«428851_j84464826843159_1_alg».proof.Proof.KI.ValueKeeps
import proofs.«428851_j84464826843159_1_alg».proof.Proof.KI.Val1
import proofs.«428851_j84464826843159_1_alg».proof.Proof.KI.Host1

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

variable (m : (ℓ : Loc nD τ sig) → Buf (Elt Ideal) ℓ) (c : Dev nD)

theorem out1_eq : (fun (n : Fin 100000) (j : Fin 128) => W4 m c main_v81 (ix2 n j))
    = specLayer m c 1 (fun n j => W2 m c main_v42 (ix2 n j)) := by
  funext n j
  refine ((congrFun (W4_arr m c 9) (ix2 n j)).trans (congrFun (val1 (V3 m) c) (ix2 n j))).trans ?_
  show GinSpec.mlp _ _ _ _ _ _ _ _ _ n j = GinSpec.mlp _ _ _ _ _ _ _ _ _ n j
  refine congrFun (congrFun (mlp_congr ?_ ?_ ?_ ?_ ?_ ?_ ?_ ?_ ?_) n) j
  · funext r p
    exact (host1_pre (W2 m c) r p).trans (pre_congr _ (congrFun (W2_keeps m c main_arg3 (by decide) (by decide)) (ix1 1)) (W2_src m c) (W2_dst m c) r p)
  · funext j k; exact (host1_W1 (W2 m c) j k).trans (congrFun (W2_keeps m c main_arg4 (by decide) (by decide)) (ix3 1 j k))
  · funext k; exact (host1_b1 (W2 m c) k).trans (congrFun (W2_keeps m c main_arg5 (by decide) (by decide)) (ix2 1 k))
  · funext k; exact (host1_gamma (W2 m c) k).trans (congrFun (W2_keeps m c main_arg6 (by decide) (by decide)) (ix2 1 k))
  · funext k; exact (host1_beta (W2 m c) k).trans (congrFun (W2_keeps m c main_arg7 (by decide) (by decide)) (ix2 1 k))
  · funext k; exact (host1_mean (W2 m c) k).trans (congrFun (W2_keeps m c main_arg8 (by decide) (by decide)) (ix2 1 k))
  · funext k; exact (host1_var (W2 m c) k).trans (congrFun (W2_keeps m c main_arg9 (by decide) (by decide)) (ix2 1 k))
  · funext j k; exact (host1_W2 (W2 m c) j k).trans (congrFun (W2_keeps m c main_arg10 (by decide) (by decide)) (ix3 1 j k))
  · funext k; exact (host1_b2 (W2 m c) k).trans (congrFun (W2_keeps m c main_arg11 (by decide) (by decide)) (ix2 1 k))

end Cert.KernelIdeal.Hand

end
-- ==== Proof.KI.Val2.lean ====
import proofs.«428851_j84464826843159_1_alg».proof.Proof.KI.Reg2
import proofs.«428851_j84464826843159_1_alg».proof.Proof.KI.Val0
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

def mlpOfArrays2 (c : Dev nD) : Buf (Elt Ideal) ((c : Thread nD τ).loc main_v120) :=
  fun i => GinSpec.mlp (fun n j => V c main_v97 (ix2 n j)) (fun j k => V c main_v99 (ix2 j k)) (fun k => V c main_v102 (ix2 0 k)) (fun k => V c main_v105 (ix2 0 k)) (fun k => V c main_v108 (ix2 0 k)) (fun k => V c main_v111 (ix2 0 k)) (fun k => V c main_v114 (ix2 0 k)) (fun j k => V c main_v116 (ix2 j k)) (fun k => V c main_v119 (ix2 0 k)) (i 0) (i 1)

theorem blockIndex2 : ∀ t : Fin cfg2.N, win2_0.index t (0 : Fin 2) = t.val ∧ win2_0.index t (1 : Fin 2) = 0
    ∧ win2_9.index t (0 : Fin 2) = t.val ∧ win2_9.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0 :=
  (by decide +kernel : ∀ t : Fin grid2.N, _)

theorem rowBlock2_apply (c : Dev nD) (t : Fin cfg2.N) (r : Fin 5000) (j : Fin 128) (n : Fin 100000)
    (hn : n.val = t.val * 5000 + r.val) :
    (iblk2 V c 0 t : Vec Ideal S5000x128 .f32) (ix2 r j) = V c main_v97 (ix2 n j) := by
  obtain ⟨e0, e1, -⟩ := blockIndex2 t
  unfold iblk2
  rw [View.read_apply]
  show V c main_v97 (((cfg2.win 0).blk t).view.emb (ix2 r j)) = V c main_v97 (ix2 n j)
  congr 1
  funext a
  apply Fin.ext
  match a with
  | ⟨0, _⟩ => show win2_0.index t (0 : Fin 2) * 5000 + 1 * r.val = n.val; rw [e0, hn]; omega
  | ⟨1, _⟩ => show win2_0.index t (1 : Fin 2) * 128 + 1 * j.val = j.val; rw [e1]; omega

theorem wholeBlock2_1 (c : Dev nD) (t : Fin cfg2.N) : (iblk2 V c 1 t : Vec Ideal S128x128 .f32) = V c main_v99 := by
  have h := blockIndex2 t
  funext y
  show V c main_v99 (((cfg2.win 1).blk t).view.emb y) = V c main_v99 y
  refine congrArg _ (funext fun a => Fin.ext ?_)
  match a with
  | ⟨0, _⟩ => show win2_1.index t (0 : Fin 2) * 128 + 1 * (y 0).val = (y 0).val; simp only [h]; omega
  | ⟨1, _⟩ => show win2_1.index t (1 : Fin 2) * 128 + 1 * (y 1).val = (y 1).val; simp only [h]; omega

theorem wholeBlock2_2 (c : Dev nD) (t : Fin cfg2.N) : (iblk2 V c 2 t : Vec Ideal S1x128 .f32) = V c main_v102 := by
  have h := blockIndex2 t
  funext y
  show V c main_v102 (((cfg2.win 2).blk t).view.emb y) = V c main_v102 y
  refine congrArg _ (funext fun a => Fin.ext ?_)
  match a with
  | ⟨0, _⟩ => show win2_2.index t (0 : Fin 2) * 1 + 1 * (y 0).val = (y 0).val; simp only [h]; omega
  | ⟨1, _⟩ => show win2_2.index t (1 : Fin 2) * 128 + 1 * (y 1).val = (y 1).val; simp only [h]; omega

theorem wholeBlock2_3 (c : Dev nD) (t : Fin cfg2.N) : (iblk2 V c 3 t : Vec Ideal S1x128 .f32) = V c main_v105 := by
  have h := blockIndex2 t
  funext y
  show V c main_v105 (((cfg2.win 3).blk t).view.emb y) = V c main_v105 y
  refine congrArg _ (funext fun a => Fin.ext ?_)
  match a with
  | ⟨0, _⟩ => show win2_3.index t (0 : Fin 2) * 1 + 1 * (y 0).val = (y 0).val; simp only [h]; omega
  | ⟨1, _⟩ => show win2_3.index t (1 : Fin 2) * 128 + 1 * (y 1).val = (y 1).val; simp only [h]; omega

theorem wholeBlock2_4 (c : Dev nD) (t : Fin cfg2.N) : (iblk2 V c 4 t : Vec Ideal S1x128 .f32) = V c main_v108 := by
  have h := blockIndex2 t
  funext y
  show V c main_v108 (((cfg2.win 4).blk t).view.emb y) = V c main_v108 y
  refine congrArg _ (funext fun a => Fin.ext ?_)
  match a with
  | ⟨0, _⟩ => show win2_4.index t (0 : Fin 2) * 1 + 1 * (y 0).val = (y 0).val; simp only [h]; omega
  | ⟨1, _⟩ => show win2_4.index t (1 : Fin 2) * 128 + 1 * (y 1).val = (y 1).val; simp only [h]; omega

theorem wholeBlock2_5 (c : Dev nD) (t : Fin cfg2.N) : (iblk2 V c 5 t : Vec Ideal S1x128 .f32) = V c main_v111 := by
  have h := blockIndex2 t
  funext y
  show V c main_v111 (((cfg2.win 5).blk t).view.emb y) = V c main_v111 y
  refine congrArg _ (funext fun a => Fin.ext ?_)
  match a with
  | ⟨0, _⟩ => show win2_5.index t (0 : Fin 2) * 1 + 1 * (y 0).val = (y 0).val; simp only [h]; omega
  | ⟨1, _⟩ => show win2_5.index t (1 : Fin 2) * 128 + 1 * (y 1).val = (y 1).val; simp only [h]; omega

theorem wholeBlock2_6 (c : Dev nD) (t : Fin cfg2.N) : (iblk2 V c 6 t : Vec Ideal S1x128 .f32) = V c main_v114 := by
  have h := blockIndex2 t
  funext y
  show V c main_v114 (((cfg2.win 6).blk t).view.emb y) = V c main_v114 y
  refine congrArg _ (funext fun a => Fin.ext ?_)
  match a with
  | ⟨0, _⟩ => show win2_6.index t (0 : Fin 2) * 1 + 1 * (y 0).val = (y 0).val; simp only [h]; omega
  | ⟨1, _⟩ => show win2_6.index t (1 : Fin 2) * 128 + 1 * (y 1).val = (y 1).val; simp only [h]; omega

theorem wholeBlock2_7 (c : Dev nD) (t : Fin cfg2.N) : (iblk2 V c 7 t : Vec Ideal S128x128 .f32) = V c main_v116 := by
  have h := blockIndex2 t
  funext y
  show V c main_v116 (((cfg2.win 7).blk t).view.emb y) = V c main_v116 y
  refine congrArg _ (funext fun a => Fin.ext ?_)
  match a with
  | ⟨0, _⟩ => show win2_7.index t (0 : Fin 2) * 128 + 1 * (y 0).val = (y 0).val; simp only [h]; omega
  | ⟨1, _⟩ => show win2_7.index t (1 : Fin 2) * 128 + 1 * (y 1).val = (y 1).val; simp only [h]; omega

theorem wholeBlock2_8 (c : Dev nD) (t : Fin cfg2.N) : (iblk2 V c 8 t : Vec Ideal S1x128 .f32) = V c main_v119 := by
  have h := blockIndex2 t
  funext y
  show V c main_v119 (((cfg2.win 8).blk t).view.emb y) = V c main_v119 y
  refine congrArg _ (funext fun a => Fin.ext ?_)
  match a with
  | ⟨0, _⟩ => show win2_8.index t (0 : Fin 2) * 1 + 1 * (y 0).val = (y 0).val; simp only [h]; omega
  | ⟨1, _⟩ => show win2_8.index t (1 : Fin 2) * 128 + 1 * (y 1).val = (y 1).val; simp only [h]; omega

theorem outBlock2_emb (t : Fin cfg2.N) (r : Fin 5000) (q : Fin 128) (n : Fin 100000) (hn : n.val = t.val * 5000 + r.val) :
    ((cfg2.win 9).blk t).view.emb (ix2 r q) = (ix2 n q : S100000x128.Idx) := by
  obtain ⟨-, -, e0, e1, -⟩ := blockIndex2 t
  funext a
  apply Fin.ext
  match a with
  | ⟨0, _⟩ => show win2_9.index t (0 : Fin 2) * 5000 + 1 * r.val = n.val; rw [e0, hn]; omega
  | ⟨1, _⟩ => show win2_9.index t (1 : Fin 2) * 128 + 1 * q.val = q.val; rw [e1]; omega

theorem flushed2_9_eq (c : Dev nD) (t : Fin cfg2.N) :
    (dat2 (F := Ideal) V c).flushed 9 t = ((cfg2.win 9).blk t).view.read (Elt Ideal) (mlpOfArrays2 V c) := by
  show (cfg2.win 9).cut (grid2.coords t) ((dat2 V c).after 9 t) = _
  rw [after2_9]
  funext y
  obtain ⟨r, q, rfl⟩ : ∃ (r : Fin 5000) (q : Fin 128), y = ix2 r q := ⟨y 0, y 1, eq_ix2 (n0 := 5000) (n1 := 128) y⟩
  have hN : cfg2.N = 20 := N_2
  have ht := t.isLt
  have hr := r.isLt
  rw [View.read_apply, outBlock2_emb t r q ⟨t.val * 5000 + r.val, by omega⟩ rfl]
  show out0_9 (iblk2 V c 0 t) (iblk2 V c 1 t) (iblk2 V c 2 t) (iblk2 V c 3 t) (iblk2 V c 4 t) (iblk2 V c 5 t) (iblk2 V c 6 t)
      (iblk2 V c 7 t) (iblk2 V c 8 t) (ix2 r q)
    = GinSpec.mlp (fun n j => V c main_v97 (ix2 n j)) (fun j k => V c main_v99 (ix2 j k)) (fun k => V c main_v102 (ix2 0 k)) (fun k => V c main_v105 (ix2 0 k)) (fun k => V c main_v108 (ix2 0 k)) (fun k => V c main_v111 (ix2 0 k)) (fun k => V c main_v114 (ix2 0 k)) (fun j k => V c main_v116 (ix2 j k)) (fun k => V c main_v119 (ix2 0 k)) ⟨t.val * 5000 + r.val, by omega⟩ q
  rw [out0_9_apply, wholeBlock2_1, wholeBlock2_2, wholeBlock2_3, wholeBlock2_4, wholeBlock2_5, wholeBlock2_6, wholeBlock2_7,
    wholeBlock2_8]
  exact mlp_row _ _ _ _ _ _ _ _ _ _ r _ (fun j => rowBlock2_apply V c t r j _ rfl) q

theorem mem_blk2_9 (t : Fin cfg2.N) (i : S100000x128.Idx) :
    i ∈ ((cfg2.win 9).blk t).view.set ↔ ∀ a : Fin 2, win2_9.index t a * S5000x128.size a ≤ (i a).val ∧ (i a).val < win2_9.index t a * S5000x128.size a + S5000x128.size a := by
  show i ∈ ((View.whole main_v120).slice (win2_9.rect t)).set ↔ _
  rw [View.set_slice_whole, Rect.mem_set_unit]
  exact Iff.rfl

theorem val2 (c : Dev nD) :
    (dat2 (F := Ideal) V c).arrAt 9 cfg2.N = (fun i => GinSpec.mlp (fun n j => V c main_v97 (ix2 n j)) (fun j k => V c main_v99 (ix2 j k)) (fun k => V c main_v102 (ix2 0 k)) (fun k => V c main_v105 (ix2 0 k)) (fun k => V c main_v108 (ix2 0 k)) (fun k => V c main_v111 (ix2 0 k)) (fun k => V c main_v114 (ix2 0 k)) (fun j k => V c main_v116 (ix2 j k)) (fun k => V c main_v119 (ix2 0 k)) (i 0) (i 1) : Buf (Elt Ideal) ((c : Thread nD τ).loc main_v120)) := by
  refine (dat2 (F := Ideal) V c).arrAt_eq_of_cover 9 (mlpOfArrays2 V c) (fun t _ => flushed2_9_eq V c t) fun i => ?_
  have hN : cfg2.N = 20 := N_2
  have hi0 : (i 0).val < 100000 := (i 0).isLt
  have hi1 : (i 1).val < 128 := (i 1).isLt
  refine ⟨⟨(i 0).val / 5000, by omega⟩, flush2_9 _, ?_⟩
  rw [mem_blk2_9]
  obtain ⟨-, -, e0, e1, -⟩ := blockIndex2 ⟨(i 0).val / 5000, by omega⟩
  intro a
  match a with
  | ⟨0, _⟩ =>
    show win2_9.index ⟨(i 0).val / 5000, _⟩ (0 : Fin 2) * 5000 ≤ (i 0).val
      ∧ (i 0).val < win2_9.index ⟨(i 0).val / 5000, _⟩ (0 : Fin 2) * 5000 + 5000
    rw [e0]; show (i 0).val / 5000 * 5000 ≤ (i 0).val ∧ (i 0).val < (i 0).val / 5000 * 5000 + 5000; omega
  | ⟨1, _⟩ =>
    show win2_9.index ⟨(i 0).val / 5000, _⟩ (1 : Fin 2) * 128 ≤ (i 1).val
      ∧ (i 1).val < win2_9.index ⟨(i 0).val / 5000, _⟩ (1 : Fin 2) * 128 + 128
    rw [e1]; omega

end Cert.KernelIdeal.Hand

end
-- ==== Proof.KI.Host2.lean ====
import proofs.«428851_j84464826843159_1_alg».proof.Proof.Gen.KernelIdeal.Launch
import proofs.«428851_j84464826843159_1_alg».proof.Proof.Spec
import proofs.«428851_j84464826843159_1_alg».proof.Proof.KI.HostRead
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.ShloMosaic.ValueIdx

variable (W : Valuation τ sig (Elt Ideal))

theorem host2_pre (r : Fin 100000) (p : Fin 128) :
    StableHlo.after hostOps2 W main_v97 (ix2 r p)
      = GinSpec.pre (W main_arg3 (ix1 2)) (fun r p => W main_v81 (ix2 r p)) (fun e => W main_v1 (ix1 e))
          (fun e => W main_v3 (ix1 e)) r p := by
  after_results_simp
  refine (pre_apply (W main_v81) (W main_v1) (W main_v3) _ r p).trans ?_
  exact congrArg (fun a => GinSpec.pre a (fun r p => W main_v81 (ix2 r p)) (fun e => W main_v1 (ix1 e)) (fun e => W main_v3 (ix1 e)) r p)
    (scalarSlice_apply (W main_arg3) 2 _ _ ix0)

theorem host2_W1 (j k : Fin 128) : StableHlo.after hostOps2 W main_v99 (ix2 j k) = W main_arg4 (ix3 2 j k) := by
  after_results_simp
  exact matSlice_apply (W main_arg4) 2 _ _ j k
theorem host2_b1 (k : Fin 128) : StableHlo.after hostOps2 W main_v102 (ix2 0 k) = W main_arg5 (ix2 2 k) := by
  after_results_simp
  exact rowSlice_row_apply (W main_arg5) 2 _ _ _ 0 k
theorem host2_gamma (k : Fin 128) : StableHlo.after hostOps2 W main_v105 (ix2 0 k) = W main_arg6 (ix2 2 k) := by
  after_results_simp
  exact rowSlice_row_apply (W main_arg6) 2 _ _ _ 0 k
theorem host2_beta (k : Fin 128) : StableHlo.after hostOps2 W main_v108 (ix2 0 k) = W main_arg7 (ix2 2 k) := by
  after_results_simp
  exact rowSlice_row_apply (W main_arg7) 2 _ _ _ 0 k
theorem host2_mean (k : Fin 128) : StableHlo.after hostOps2 W main_v111 (ix2 0 k) = W main_arg8 (ix2 2 k) := by
  after_results_simp
  exact rowSlice_row_apply (W main_arg8) 2 _ _ _ 0 k
theorem host2_var (k : Fin 128) : StableHlo.after hostOps2 W main_v114 (ix2 0 k) = W main_arg9 (ix2 2 k) := by
  after_results_simp
  exact rowSlice_row_apply (W main_arg9) 2 _ _ _ 0 k
theorem host2_W2 (j k : Fin 128) : StableHlo.after hostOps2 W main_v116 (ix2 j k) = W main_arg10 (ix3 2 j k) := by
  after_results_simp
  exact matSlice_apply (W main_arg10) 2 _ _ j k
theorem host2_b2 (k : Fin 128) : StableHlo.after hostOps2 W main_v119 (ix2 0 k) = W main_arg11 (ix2 2 k) := by
  after_results_simp
  exact rowSlice_row_apply (W main_arg11) 2 _ _ _ 0 k

end Cert.KernelIdeal.Hand

end
-- ==== Proof.KI.ValueLayer2.lean ====
import proofs.«428851_j84464826843159_1_alg».proof.Proof.KI.ValueKeeps
import proofs.«428851_j84464826843159_1_alg».proof.Proof.KI.Val2
import proofs.«428851_j84464826843159_1_alg».proof.Proof.KI.Host2

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

variable (m : (ℓ : Loc nD τ sig) → Buf (Elt Ideal) ℓ) (c : Dev nD)

theorem out2_eq : (fun (n : Fin 100000) (j : Fin 128) => W6 m c main_v120 (ix2 n j))
    = specLayer m c 2 (fun n j => W4 m c main_v81 (ix2 n j)) := by
  funext n j
  refine ((congrFun (W6_arr m c 9) (ix2 n j)).trans (congrFun (val2 (V5 m) c) (ix2 n j))).trans ?_
  show GinSpec.mlp _ _ _ _ _ _ _ _ _ n j = GinSpec.mlp _ _ _ _ _ _ _ _ _ n j
  refine congrFun (congrFun (mlp_congr ?_ ?_ ?_ ?_ ?_ ?_ ?_ ?_ ?_) n) j
  · funext r p
    exact (host2_pre (W4 m c) r p).trans (pre_congr _ (congrFun (W4_keeps m c main_arg3 (by decide) (by decide) (by decide) (by decide)) (ix1 2)) (W4_src m c) (W4_dst m c) r p)
  · funext j k; exact (host2_W1 (W4 m c) j k).trans (congrFun (W4_keeps m c main_arg4 (by decide) (by decide) (by decide) (by decide)) (ix3 2 j k))
  · funext k; exact (host2_b1 (W4 m c) k).trans (congrFun (W4_keeps m c main_arg5 (by decide) (by decide) (by decide) (by decide)) (ix2 2 k))
  · funext k; exact (host2_gamma (W4 m c) k).trans (congrFun (W4_keeps m c main_arg6 (by decide) (by decide) (by decide) (by decide)) (ix2 2 k))
  · funext k; exact (host2_beta (W4 m c) k).trans (congrFun (W4_keeps m c main_arg7 (by decide) (by decide) (by decide) (by decide)) (ix2 2 k))
  · funext k; exact (host2_mean (W4 m c) k).trans (congrFun (W4_keeps m c main_arg8 (by decide) (by decide) (by decide) (by decide)) (ix2 2 k))
  · funext k; exact (host2_var (W4 m c) k).trans (congrFun (W4_keeps m c main_arg9 (by decide) (by decide) (by decide) (by decide)) (ix2 2 k))
  · funext j k; exact (host2_W2 (W4 m c) j k).trans (congrFun (W4_keeps m c main_arg10 (by decide) (by decide) (by decide) (by decide)) (ix3 2 j k))
  · funext k; exact (host2_b2 (W4 m c) k).trans (congrFun (W4_keeps m c main_arg11 (by decide) (by decide) (by decide) (by decide)) (ix2 2 k))

end Cert.KernelIdeal.Hand

end
-- ==== Proof.KI.Val3.lean ====
import proofs.«428851_j84464826843159_1_alg».proof.Proof.KI.Reg3
import proofs.«428851_j84464826843159_1_alg».proof.Proof.KI.Val0
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

def mlpOfArrays3 (c : Dev nD) : Buf (Elt Ideal) ((c : Thread nD τ).loc main_v159) :=
  fun i => GinSpec.mlp (fun n j => V c main_v136 (ix2 n j)) (fun j k => V c main_v138 (ix2 j k)) (fun k => V c main_v141 (ix2 0 k)) (fun k => V c main_v144 (ix2 0 k)) (fun k => V c main_v147 (ix2 0 k)) (fun k => V c main_v150 (ix2 0 k)) (fun k => V c main_v153 (ix2 0 k)) (fun j k => V c main_v155 (ix2 j k)) (fun k => V c main_v158 (ix2 0 k)) (i 0) (i 1)

theorem blockIndex3 : ∀ t : Fin cfg3.N, win3_0.index t (0 : Fin 2) = t.val ∧ win3_0.index t (1 : Fin 2) = 0
    ∧ win3_9.index t (0 : Fin 2) = t.val ∧ win3_9.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = 0 ∧ win3_8.index t (1 : Fin 2) = 0 :=
  (by decide +kernel : ∀ t : Fin grid3.N, _)

theorem rowBlock3_apply (c : Dev nD) (t : Fin cfg3.N) (r : Fin 5000) (j : Fin 128) (n : Fin 100000)
    (hn : n.val = t.val * 5000 + r.val) :
    (iblk3 V c 0 t : Vec Ideal S5000x128 .f32) (ix2 r j) = V c main_v136 (ix2 n j) := by
  obtain ⟨e0, e1, -⟩ := blockIndex3 t
  unfold iblk3
  rw [View.read_apply]
  show V c main_v136 (((cfg3.win 0).blk t).view.emb (ix2 r j)) = V c main_v136 (ix2 n j)
  congr 1
  funext a
  apply Fin.ext
  match a with
  | ⟨0, _⟩ => show win3_0.index t (0 : Fin 2) * 5000 + 1 * r.val = n.val; rw [e0, hn]; omega
  | ⟨1, _⟩ => show win3_0.index t (1 : Fin 2) * 128 + 1 * j.val = j.val; rw [e1]; omega

theorem wholeBlock3_1 (c : Dev nD) (t : Fin cfg3.N) : (iblk3 V c 1 t : Vec Ideal S128x128 .f32) = V c main_v138 := by
  have h := blockIndex3 t
  funext y
  show V c main_v138 (((cfg3.win 1).blk t).view.emb y) = V c main_v138 y
  refine congrArg _ (funext fun a => Fin.ext ?_)
  match a with
  | ⟨0, _⟩ => show win3_1.index t (0 : Fin 2) * 128 + 1 * (y 0).val = (y 0).val; simp only [h]; omega
  | ⟨1, _⟩ => show win3_1.index t (1 : Fin 2) * 128 + 1 * (y 1).val = (y 1).val; simp only [h]; omega

theorem wholeBlock3_2 (c : Dev nD) (t : Fin cfg3.N) : (iblk3 V c 2 t : Vec Ideal S1x128 .f32) = V c main_v141 := by
  have h := blockIndex3 t
  funext y
  show V c main_v141 (((cfg3.win 2).blk t).view.emb y) = V c main_v141 y
  refine congrArg _ (funext fun a => Fin.ext ?_)
  match a with
  | ⟨0, _⟩ => show win3_2.index t (0 : Fin 2) * 1 + 1 * (y 0).val = (y 0).val; simp only [h]; omega
  | ⟨1, _⟩ => show win3_2.index t (1 : Fin 2) * 128 + 1 * (y 1).val = (y 1).val; simp only [h]; omega

theorem wholeBlock3_3 (c : Dev nD) (t : Fin cfg3.N) : (iblk3 V c 3 t : Vec Ideal S1x128 .f32) = V c main_v144 := by
  have h := blockIndex3 t
  funext y
  show V c main_v144 (((cfg3.win 3).blk t).view.emb y) = V c main_v144 y
  refine congrArg _ (funext fun a => Fin.ext ?_)
  match a with
  | ⟨0, _⟩ => show win3_3.index t (0 : Fin 2) * 1 + 1 * (y 0).val = (y 0).val; simp only [h]; omega
  | ⟨1, _⟩ => show win3_3.index t (1 : Fin 2) * 128 + 1 * (y 1).val = (y 1).val; simp only [h]; omega

theorem wholeBlock3_4 (c : Dev nD) (t : Fin cfg3.N) : (iblk3 V c 4 t : Vec Ideal S1x128 .f32) = V c main_v147 := by
  have h := blockIndex3 t
  funext y
  show V c main_v147 (((cfg3.win 4).blk t).view.emb y) = V c main_v147 y
  refine congrArg _ (funext fun a => Fin.ext ?_)
  match a with
  | ⟨0, _⟩ => show win3_4.index t (0 : Fin 2) * 1 + 1 * (y 0).val = (y 0).val; simp only [h]; omega
  | ⟨1, _⟩ => show win3_4.index t (1 : Fin 2) * 128 + 1 * (y 1).val = (y 1).val; simp only [h]; omega

theorem wholeBlock3_5 (c : Dev nD) (t : Fin cfg3.N) : (iblk3 V c 5 t : Vec Ideal S1x128 .f32) = V c main_v150 := by
  have h := blockIndex3 t
  funext y
  show V c main_v150 (((cfg3.win 5).blk t).view.emb y) = V c main_v150 y
  refine congrArg _ (funext fun a => Fin.ext ?_)
  match a with
  | ⟨0, _⟩ => show win3_5.index t (0 : Fin 2) * 1 + 1 * (y 0).val = (y 0).val; simp only [h]; omega
  | ⟨1, _⟩ => show win3_5.index t (1 : Fin 2) * 128 + 1 * (y 1).val = (y 1).val; simp only [h]; omega

theorem wholeBlock3_6 (c : Dev nD) (t : Fin cfg3.N) : (iblk3 V c 6 t : Vec Ideal S1x128 .f32) = V c main_v153 := by
  have h := blockIndex3 t
  funext y
  show V c main_v153 (((cfg3.win 6).blk t).view.emb y) = V c main_v153 y
  refine congrArg _ (funext fun a => Fin.ext ?_)
  match a with
  | ⟨0, _⟩ => show win3_6.index t (0 : Fin 2) * 1 + 1 * (y 0).val = (y 0).val; simp only [h]; omega
  | ⟨1, _⟩ => show win3_6.index t (1 : Fin 2) * 128 + 1 * (y 1).val = (y 1).val; simp only [h]; omega

theorem wholeBlock3_7 (c : Dev nD) (t : Fin cfg3.N) : (iblk3 V c 7 t : Vec Ideal S128x128 .f32) = V c main_v155 := by
  have h := blockIndex3 t
  funext y
  show V c main_v155 (((cfg3.win 7).blk t).view.emb y) = V c main_v155 y
  refine congrArg _ (funext fun a => Fin.ext ?_)
  match a with
  | ⟨0, _⟩ => show win3_7.index t (0 : Fin 2) * 128 + 1 * (y 0).val = (y 0).val; simp only [h]; omega
  | ⟨1, _⟩ => show win3_7.index t (1 : Fin 2) * 128 + 1 * (y 1).val = (y 1).val; simp only [h]; omega

theorem wholeBlock3_8 (c : Dev nD) (t : Fin cfg3.N) : (iblk3 V c 8 t : Vec Ideal S1x128 .f32) = V c main_v158 := by
  have h := blockIndex3 t
  funext y
  show V c main_v158 (((cfg3.win 8).blk t).view.emb y) = V c main_v158 y
  refine congrArg _ (funext fun a => Fin.ext ?_)
  match a with
  | ⟨0, _⟩ => show win3_8.index t (0 : Fin 2) * 1 + 1 * (y 0).val = (y 0).val; simp only [h]; omega
  | ⟨1, _⟩ => show win3_8.index t (1 : Fin 2) * 128 + 1 * (y 1).val = (y 1).val; simp only [h]; omega

theorem outBlock3_emb (t : Fin cfg3.N) (r : Fin 5000) (q : Fin 128) (n : Fin 100000) (hn : n.val = t.val * 5000 + r.val) :
    ((cfg3.win 9).blk t).view.emb (ix2 r q) = (ix2 n q : S100000x128.Idx) := by
  obtain ⟨-, -, e0, e1, -⟩ := blockIndex3 t
  funext a
  apply Fin.ext
  match a with
  | ⟨0, _⟩ => show win3_9.index t (0 : Fin 2) * 5000 + 1 * r.val = n.val; rw [e0, hn]; omega
  | ⟨1, _⟩ => show win3_9.index t (1 : Fin 2) * 128 + 1 * q.val = q.val; rw [e1]; omega

theorem flushed3_9_eq (c : Dev nD) (t : Fin cfg3.N) :
    (dat3 (F := Ideal) V c).flushed 9 t = ((cfg3.win 9).blk t).view.read (Elt Ideal) (mlpOfArrays3 V c) := by
  show (cfg3.win 9).cut (grid3.coords t) ((dat3 V c).after 9 t) = _
  rw [after3_9]
  funext y
  obtain ⟨r, q, rfl⟩ : ∃ (r : Fin 5000) (q : Fin 128), y = ix2 r q := ⟨y 0, y 1, eq_ix2 (n0 := 5000) (n1 := 128) y⟩
  have hN : cfg3.N = 20 := N_3
  have ht := t.isLt
  have hr := r.isLt
  rw [View.read_apply, outBlock3_emb t r q ⟨t.val * 5000 + r.val, by omega⟩ rfl]
  show out0_9 (iblk3 V c 0 t) (iblk3 V c 1 t) (iblk3 V c 2 t) (iblk3 V c 3 t) (iblk3 V c 4 t) (iblk3 V c 5 t) (iblk3 V c 6 t)
      (iblk3 V c 7 t) (iblk3 V c 8 t) (ix2 r q)
    = GinSpec.mlp (fun n j => V c main_v136 (ix2 n j)) (fun j k => V c main_v138 (ix2 j k)) (fun k => V c main_v141 (ix2 0 k)) (fun k => V c main_v144 (ix2 0 k)) (fun k => V c main_v147 (ix2 0 k)) (fun k => V c main_v150 (ix2 0 k)) (fun k => V c main_v153 (ix2 0 k)) (fun j k => V c main_v155 (ix2 j k)) (fun k => V c main_v158 (ix2 0 k)) ⟨t.val * 5000 + r.val, by omega⟩ q
  rw [out0_9_apply, wholeBlock3_1, wholeBlock3_2, wholeBlock3_3, wholeBlock3_4, wholeBlock3_5, wholeBlock3_6, wholeBlock3_7,
    wholeBlock3_8]
  exact mlp_row _ _ _ _ _ _ _ _ _ _ r _ (fun j => rowBlock3_apply V c t r j _ rfl) q

theorem mem_blk3_9 (t : Fin cfg3.N) (i : S100000x128.Idx) :
    i ∈ ((cfg3.win 9).blk t).view.set ↔ ∀ a : Fin 2, win3_9.index t a * S5000x128.size a ≤ (i a).val ∧ (i a).val < win3_9.index t a * S5000x128.size a + S5000x128.size a := by
  show i ∈ ((View.whole main_v159).slice (win3_9.rect t)).set ↔ _
  rw [View.set_slice_whole, Rect.mem_set_unit]
  exact Iff.rfl

theorem val3 (c : Dev nD) :
    (dat3 (F := Ideal) V c).arrAt 9 cfg3.N = (fun i => GinSpec.mlp (fun n j => V c main_v136 (ix2 n j)) (fun j k => V c main_v138 (ix2 j k)) (fun k => V c main_v141 (ix2 0 k)) (fun k => V c main_v144 (ix2 0 k)) (fun k => V c main_v147 (ix2 0 k)) (fun k => V c main_v150 (ix2 0 k)) (fun k => V c main_v153 (ix2 0 k)) (fun j k => V c main_v155 (ix2 j k)) (fun k => V c main_v158 (ix2 0 k)) (i 0) (i 1) : Buf (Elt Ideal) ((c : Thread nD τ).loc main_v159)) := by
  refine (dat3 (F := Ideal) V c).arrAt_eq_of_cover 9 (mlpOfArrays3 V c) (fun t _ => flushed3_9_eq V c t) fun i => ?_
  have hN : cfg3.N = 20 := N_3
  have hi0 : (i 0).val < 100000 := (i 0).isLt
  have hi1 : (i 1).val < 128 := (i 1).isLt
  refine ⟨⟨(i 0).val / 5000, by omega⟩, flush3_9 _, ?_⟩
  rw [mem_blk3_9]
  obtain ⟨-, -, e0, e1, -⟩ := blockIndex3 ⟨(i 0).val / 5000, by omega⟩
  intro a
  match a with
  | ⟨0, _⟩ =>
    show win3_9.index ⟨(i 0).val / 5000, _⟩ (0 : Fin 2) * 5000 ≤ (i 0).val
      ∧ (i 0).val < win3_9.index ⟨(i 0).val / 5000, _⟩ (0 : Fin 2) * 5000 + 5000
    rw [e0]; show (i 0).val / 5000 * 5000 ≤ (i 0).val ∧ (i 0).val < (i 0).val / 5000 * 5000 + 5000; omega
  | ⟨1, _⟩ =>
    show win3_9.index ⟨(i 0).val / 5000, _⟩ (1 : Fin 2) * 128 ≤ (i 1).val
      ∧ (i 1).val < win3_9.index ⟨(i 0).val / 5000, _⟩ (1 : Fin 2) * 128 + 128
    rw [e1]; omega

end Cert.KernelIdeal.Hand

end
-- ==== Proof.KI.Host3.lean ====
import proofs.«428851_j84464826843159_1_alg».proof.Proof.Gen.KernelIdeal.Launch
import proofs.«428851_j84464826843159_1_alg».proof.Proof.Spec
import proofs.«428851_j84464826843159_1_alg».proof.Proof.KI.HostRead
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.ShloMosaic.ValueIdx

variable (W : Valuation τ sig (Elt Ideal))

theorem host3_pre (r : Fin 100000) (p : Fin 128) :
    StableHlo.after hostOps3 W main_v136 (ix2 r p)
      = GinSpec.pre (W main_arg3 (ix1 3)) (fun r p => W main_v120 (ix2 r p)) (fun e => W main_v1 (ix1 e))
          (fun e => W main_v3 (ix1 e)) r p := by
  after_results_simp
  refine (pre_apply (W main_v120) (W main_v1) (W main_v3) _ r p).trans ?_
  exact congrArg (fun a => GinSpec.pre a (fun r p => W main_v120 (ix2 r p)) (fun e => W main_v1 (ix1 e)) (fun e => W main_v3 (ix1 e)) r p)
    (scalarSlice_apply (W main_arg3) 3 _ _ ix0)

theorem host3_W1 (j k : Fin 128) : StableHlo.after hostOps3 W main_v138 (ix2 j k) = W main_arg4 (ix3 3 j k) := by
  after_results_simp
  exact matSlice_apply (W main_arg4) 3 _ _ j k
theorem host3_b1 (k : Fin 128) : StableHlo.after hostOps3 W main_v141 (ix2 0 k) = W main_arg5 (ix2 3 k) := by
  after_results_simp
  exact rowSlice_row_apply (W main_arg5) 3 _ _ _ 0 k
theorem host3_gamma (k : Fin 128) : StableHlo.after hostOps3 W main_v144 (ix2 0 k) = W main_arg6 (ix2 3 k) := by
  after_results_simp
  exact rowSlice_row_apply (W main_arg6) 3 _ _ _ 0 k
theorem host3_beta (k : Fin 128) : StableHlo.after hostOps3 W main_v147 (ix2 0 k) = W main_arg7 (ix2 3 k) := by
  after_results_simp
  exact rowSlice_row_apply (W main_arg7) 3 _ _ _ 0 k
theorem host3_mean (k : Fin 128) : StableHlo.after hostOps3 W main_v150 (ix2 0 k) = W main_arg8 (ix2 3 k) := by
  after_results_simp
  exact rowSlice_row_apply (W main_arg8) 3 _ _ _ 0 k
theorem host3_var (k : Fin 128) : StableHlo.after hostOps3 W main_v153 (ix2 0 k) = W main_arg9 (ix2 3 k) := by
  after_results_simp
  exact rowSlice_row_apply (W main_arg9) 3 _ _ _ 0 k
theorem host3_W2 (j k : Fin 128) : StableHlo.after hostOps3 W main_v155 (ix2 j k) = W main_arg10 (ix3 3 j k) := by
  after_results_simp
  exact matSlice_apply (W main_arg10) 3 _ _ j k
theorem host3_b2 (k : Fin 128) : StableHlo.after hostOps3 W main_v158 (ix2 0 k) = W main_arg11 (ix2 3 k) := by
  after_results_simp
  exact rowSlice_row_apply (W main_arg11) 3 _ _ _ 0 k

end Cert.KernelIdeal.Hand

end
-- ==== Proof.KI.ValueLayer3.lean ====
import proofs.«428851_j84464826843159_1_alg».proof.Proof.KI.ValueKeeps
import proofs.«428851_j84464826843159_1_alg».proof.Proof.KI.Val3
import proofs.«428851_j84464826843159_1_alg».proof.Proof.KI.Host3

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

variable (m : (ℓ : Loc nD τ sig) → Buf (Elt Ideal) ℓ) (c : Dev nD)

theorem out3_eq : (fun (n : Fin 100000) (j : Fin 128) => W8 m c main_v159 (ix2 n j))
    = specLayer m c 3 (fun n j => W6 m c main_v120 (ix2 n j)) := by
  funext n j
  refine ((congrFun (W8_arr m c 9) (ix2 n j)).trans (congrFun (val3 (V7 m) c) (ix2 n j))).trans ?_
  show GinSpec.mlp _ _ _ _ _ _ _ _ _ n j = GinSpec.mlp _ _ _ _ _ _ _ _ _ n j
  refine congrFun (congrFun (mlp_congr ?_ ?_ ?_ ?_ ?_ ?_ ?_ ?_ ?_) n) j
  · funext r p
    exact (host3_pre (W6 m c) r p).trans (pre_congr _ (congrFun (W6_keeps m c main_arg3 (by decide) (by decide) (by decide) (by decide) (by decide) (by decide)) (ix1 3)) (W6_src m c) (W6_dst m c) r p)
  · funext j k; exact (host3_W1 (W6 m c) j k).trans (congrFun (W6_keeps m c main_arg4 (by decide) (by decide) (by decide) (by decide) (by decide) (by decide)) (ix3 3 j k))
  · funext k; exact (host3_b1 (W6 m c) k).trans (congrFun (W6_keeps m c main_arg5 (by decide) (by decide) (by decide) (by decide) (by decide) (by decide)) (ix2 3 k))
  · funext k; exact (host3_gamma (W6 m c) k).trans (congrFun (W6_keeps m c main_arg6 (by decide) (by decide) (by decide) (by decide) (by decide) (by decide)) (ix2 3 k))
  · funext k; exact (host3_beta (W6 m c) k).trans (congrFun (W6_keeps m c main_arg7 (by decide) (by decide) (by decide) (by decide) (by decide) (by decide)) (ix2 3 k))
  · funext k; exact (host3_mean (W6 m c) k).trans (congrFun (W6_keeps m c main_arg8 (by decide) (by decide) (by decide) (by decide) (by decide) (by decide)) (ix2 3 k))
  · funext k; exact (host3_var (W6 m c) k).trans (congrFun (W6_keeps m c main_arg9 (by decide) (by decide) (by decide) (by decide) (by decide) (by decide)) (ix2 3 k))
  · funext j k; exact (host3_W2 (W6 m c) j k).trans (congrFun (W6_keeps m c main_arg10 (by decide) (by decide) (by decide) (by decide) (by decide) (by decide)) (ix3 3 j k))
  · funext k; exact (host3_b2 (W6 m c) k).trans (congrFun (W6_keeps m c main_arg11 (by decide) (by decide) (by decide) (by decide) (by decide) (by decide)) (ix2 3 k))

end Cert.KernelIdeal.Hand

end
-- ==== Proof.KI.Pay4.lean ====
import proofs.«428851_j84464826843159_1_alg».proof.Proof.Gen.KernelIdeal.Skeleton
import proofs.«428851_j84464826843159_1_alg».proof.Proof.Spec
import Idealize.ShloMosaic.PureOps.Ideal.Laws
import Idealize.ShloMosaic.Lib.ValueIdx
import Idealize.ShloMosaic.Lib.Pipeline.Value
import Idealize.ShloMosaic.Lib.KernelVsHost

set_option maxRecDepth 16384

noncomputable section

open scoped BigOperators

namespace Cert.KernelIdeal.Hand

open Cert.KernelIdeal Cert.KernelIdeal.Gen Idealize.ShloMosaic Idealize.ShloMosaic.ValueIdx

theorem toInt_graphWord (g : Fin 512) : (BitVec.ofNat 32 g.val).toInt = (g.val : Int) := by
  have hg := g.isLt
  rw [BitVec.toInt_eq_toNat_cond, BitVec.toNat_ofNat]
  have hm : g.val % 2 ^ 32 = g.val := Nat.mod_eq_of_lt (by omega)
  rw [hm]
  split
  · rfl
  · omega

theorem id_eq_graphWord_iff (b : BitVec 32) (g : Fin 512) : b = BitVec.ofNat 32 g.val ↔ b.toInt = (g.val : Int) := by
  rw [← toInt_graphWord g]
  exact BitVec.toInt_inj.symm

theorem onehot_entry (b : BitVec 32) (g : Fin 512) :
    (FloatOps.sitofp (F := Ideal) .f32 ((IntOp.cmpi .eq b (BitVec.ofNat 32 g.val)).setWidth 32) : EReal)
      = if b.toInt = (g.val : Int) then 1 else 0 := by
  show (((((IntOp.cmpi .eq b (BitVec.ofNat 32 g.val)).setWidth 32).toInt : ℝ)) : EReal) = _
  rw [toInt_setWidth_bit]
  unfold IntOp.cmpi
  by_cases h : b = BitVec.ofNat 32 g.val
  · rw [if_pos ((id_eq_graphWord_iff b g).1 h)]
    simp [h]
  · rw [if_neg (fun h' => h ((id_eq_graphWord_iff b g).2 h'))]
    simp [h]

theorem poolDot_lhs_0 (i : S512x128.Idx) (q : dot_S5000x512_S5000x128_S512x128_0_0_1_1_n_n.contr.Idx) :
    (dot_S5000x512_S5000x128_S512x128_0_0_1_1_n_n.lhsIdx i q 0).val = (q ⟨0, by decide⟩).val :=
  dot_S5000x512_S5000x128_S512x128_0_0_1_1_n_n.lhsIdx_val_of_single rfl i q
theorem poolDot_lhs_1 (i : S512x128.Idx) (q : dot_S5000x512_S5000x128_S512x128_0_0_1_1_n_n.contr.Idx) :
    (dot_S5000x512_S5000x128_S512x128_0_0_1_1_n_n.lhsIdx i q 1).val = (i 0).val := by
  unfold DotDims.lhsIdx
  rw [dif_neg (show ¬(1 : Fin S5000x512.rank) ∈ dot_S5000x512_S5000x128_S512x128_0_0_1_1_n_n.lhsBatch by decide), dif_pos (show (1 : Fin S5000x512.rank) ∈ dot_S5000x512_S5000x128_S512x128_0_0_1_1_n_n.lhsNonContracting by decide)]
  rfl
theorem poolDot_rhs_0 (i : S512x128.Idx) (q : dot_S5000x512_S5000x128_S512x128_0_0_1_1_n_n.contr.Idx) :
    (dot_S5000x512_S5000x128_S512x128_0_0_1_1_n_n.rhsIdx i q 0).val = (q ⟨0, by decide⟩).val :=
  dot_S5000x512_S5000x128_S512x128_0_0_1_1_n_n.rhsIdx_val_of_single rfl i q
theorem poolDot_rhs_1 (i : S512x128.Idx) (q : dot_S5000x512_S5000x128_S512x128_0_0_1_1_n_n.contr.Idx) :
    (dot_S5000x512_S5000x128_S512x128_0_0_1_1_n_n.rhsIdx i q 1).val = (i 1).val := by
  unfold DotDims.rhsIdx
  rw [dif_neg (show ¬(1 : Fin S5000x128.rank) ∈ dot_S5000x512_S5000x128_S512x128_0_0_1_1_n_n.rhsBatch by decide), dif_pos (show (1 : Fin S5000x128.rank) ∈ dot_S5000x512_S5000x128_S512x128_0_0_1_1_n_n.rhsNonContracting by decide)]
  rfl

theorem poolDot_apply (prec : Option ContractPrecision) (A : FVec Ideal S5000x512 .f32) (B : FVec Ideal S5000x128 .f32) (gr : Fin 512) (j : Fin 128) :
    matmul dot_S5000x512_S5000x128_S512x128_0_0_1_1_n_n prec A B (constant (F := Ideal) S512x128 .f32 0x00000000#32) (ix2 gr j)
      = ∑ n : Fin 5000, A (ix2 n gr) * B (ix2 n j) := by
  simp only [matmul]
  rw [Ideal.matmul_constant_zero_apply, ← Equiv.sum_comp (contrEquiv1 dot_S5000x512_S5000x128_S512x128_0_0_1_1_n_n 5000 rfl rfl).symm]
  refine Finset.sum_congr rfl fun k _ => ?_
  have hk := contrEquiv1_symm_val dot_S5000x512_S5000x128_S512x128_0_0_1_1_n_n 5000 rfl rfl k
  have el : dot_S5000x512_S5000x128_S512x128_0_0_1_1_n_n.lhsIdx (ix2 gr j) ((contrEquiv1 dot_S5000x512_S5000x128_S512x128_0_0_1_1_n_n 5000 rfl rfl).symm k) = ix2 k gr := funext fun a => Fin.ext (by
    match a with
    | ⟨0, _⟩ => exact (poolDot_lhs_0 _ _).trans hk
    | ⟨1, _⟩ => exact poolDot_lhs_1 _ _)
  have er : dot_S5000x512_S5000x128_S512x128_0_0_1_1_n_n.rhsIdx (ix2 gr j) ((contrEquiv1 dot_S5000x512_S5000x128_S512x128_0_0_1_1_n_n 5000 rfl rfl).symm k) = ix2 k j := funext fun a => Fin.ext (by
    match a with
    | ⟨0, _⟩ => exact (poolDot_rhs_0 _ _).trans hk
    | ⟨1, _⟩ => exact poolDot_rhs_1 _ _)
  rw [el, er]

theorem onehot_apply (ids : IVec S5000x1 32) (n : Fin 5000) (gr : Fin 512) :
    (sitofp .f32 (extui 32 (cmpi .eq (broadcastTo S5000x512 ids broadcasts_S5000x1_S5000x512)
        (iota .tc S5000x512 32 [1] iota_S5000x512_d1_w32)) natLt_1_32) : FVec Ideal S5000x512 .f32) (ix2 n gr)
      = if (ids (ix2 n 0)).toInt = (gr.val : Int) then 1 else 0 := by
  rw [sitofp_apply, extui_apply]
  show FloatOps.sitofp (F := Ideal) .f32 ((IntOp.cmpi .eq (broadcastTo S5000x512 ids broadcasts_S5000x1_S5000x512 (ix2 n gr))
    (iota .tc S5000x512 32 [1] iota_S5000x512_d1_w32 (ix2 n gr))).setWidth 32) = _
  rw [iota_single_apply, broadcastTo_apply ids broadcasts_S5000x1_S5000x512 (ix2 n gr) (ix2 n 0) (fun a => by
    match a with
    | ⟨0, _⟩ => rfl
    | ⟨1, _⟩ => rfl)]
  exact onehot_entry (ids (ix2 n 0)) gr

theorem acc_apply (ids : Vec Ideal S5000x1 .i32) (rows : Vec Ideal S5000x128 .f32) (S : Vec Ideal S512x128 .f32) (gr : Fin 512) (j : Fin 128) :
    k4_pay2 (F := Ideal) ids rows S (ix2 gr j)
      = S (ix2 gr j) + ∑ n ∈ Finset.univ.filter (fun n : Fin 5000 => (ids (ix2 n 0)).toInt = (gr.val : Int)), rows (ix2 n j) := by
  unfold k4_pay2
  simp only [shapeCast_self]
  rw [addf_apply, poolDot_apply, Finset.sum_filter]
  refine congrArg (S (ix2 gr j) + ·) (Finset.sum_congr rfl fun n _ => ?_)
  rw [onehot_apply]
  split
  · exact one_mul _
  · exact zero_mul _

theorem zeros_apply (i : S512x128.Idx) : k4_pay1 (F := Ideal) i = GinSpec.zero := by
  unfold k4_pay1
  simp only [shapeCast_self]
  rfl

theorem headDot1_lhs_0 (i : S512x128.Idx) (q : dot_S512x128_S128x128_S512x128_1_0_0_1_n_n.contr.Idx) :
    (dot_S512x128_S128x128_S512x128_1_0_0_1_n_n.lhsIdx i q 0).val = (i 0).val := by
  unfold DotDims.lhsIdx
  rw [dif_neg (show ¬(0 : Fin S512x128.rank) ∈ dot_S512x128_S128x128_S512x128_1_0_0_1_n_n.lhsBatch by decide), dif_pos (show (0 : Fin S512x128.rank) ∈ dot_S512x128_S128x128_S512x128_1_0_0_1_n_n.lhsNonContracting by decide)]
  rfl
theorem headDot1_lhs_1 (i : S512x128.Idx) (q : dot_S512x128_S128x128_S512x128_1_0_0_1_n_n.contr.Idx) :
    (dot_S512x128_S128x128_S512x128_1_0_0_1_n_n.lhsIdx i q 1).val = (q ⟨0, by decide⟩).val :=
  dot_S512x128_S128x128_S512x128_1_0_0_1_n_n.lhsIdx_val_of_single rfl i q
theorem headDot1_rhs_0 (i : S512x128.Idx) (q : dot_S512x128_S128x128_S512x128_1_0_0_1_n_n.contr.Idx) :
    (dot_S512x128_S128x128_S512x128_1_0_0_1_n_n.rhsIdx i q 0).val = (q ⟨0, by decide⟩).val :=
  dot_S512x128_S128x128_S512x128_1_0_0_1_n_n.rhsIdx_val_of_single rfl i q
theorem headDot1_rhs_1 (i : S512x128.Idx) (q : dot_S512x128_S128x128_S512x128_1_0_0_1_n_n.contr.Idx) :
    (dot_S512x128_S128x128_S512x128_1_0_0_1_n_n.rhsIdx i q 1).val = (i 1).val := by
  unfold DotDims.rhsIdx
  rw [dif_neg (show ¬(1 : Fin S128x128.rank) ∈ dot_S512x128_S128x128_S512x128_1_0_0_1_n_n.rhsBatch by decide), dif_pos (show (1 : Fin S128x128.rank) ∈ dot_S512x128_S128x128_S512x128_1_0_0_1_n_n.rhsNonContracting by decide)]
  rfl

theorem headDot1_apply {φ₁ φ₂ : FTy} (prec : Option ContractPrecision) (A : FVec Ideal S512x128 φ₁) (B : FVec Ideal S128x128 φ₂) (r : Fin 512) (c : Fin 128) :
    matmul dot_S512x128_S128x128_S512x128_1_0_0_1_n_n prec A B (constant (F := Ideal) S512x128 .f32 0x00000000#32) (ix2 r c)
      = ∑ k : Fin 128, A (ix2 r k) * B (ix2 k c) := by
  simp only [matmul]
  rw [Ideal.matmul_constant_zero_apply, ← Equiv.sum_comp (contrEquiv1 dot_S512x128_S128x128_S512x128_1_0_0_1_n_n 128 rfl rfl).symm]
  refine Finset.sum_congr rfl fun k _ => ?_
  have hk := contrEquiv1_symm_val dot_S512x128_S128x128_S512x128_1_0_0_1_n_n 128 rfl rfl k
  have el : dot_S512x128_S128x128_S512x128_1_0_0_1_n_n.lhsIdx (ix2 r c) ((contrEquiv1 dot_S512x128_S128x128_S512x128_1_0_0_1_n_n 128 rfl rfl).symm k) = ix2 r k := funext fun a => Fin.ext (by
    match a with
    | ⟨0, _⟩ => exact headDot1_lhs_0 _ _
    | ⟨1, _⟩ => exact (headDot1_lhs_1 _ _).trans hk)
  have er : dot_S512x128_S128x128_S512x128_1_0_0_1_n_n.rhsIdx (ix2 r c) ((contrEquiv1 dot_S512x128_S128x128_S512x128_1_0_0_1_n_n 128 rfl rfl).symm k) = ix2 k c := funext fun a => Fin.ext (by
    match a with
    | ⟨0, _⟩ => exact (headDot1_rhs_0 _ _).trans hk
    | ⟨1, _⟩ => exact headDot1_rhs_1 _ _)
  rw [el, er]

theorem headDot2_lhs_0 (i : S512x64.Idx) (q : dot_S512x128_S128x64_S512x64_1_0_0_1_n_n.contr.Idx) :
    (dot_S512x128_S128x64_S512x64_1_0_0_1_n_n.lhsIdx i q 0).val = (i 0).val := by
  unfold DotDims.lhsIdx
  rw [dif_neg (show ¬(0 : Fin S512x128.rank) ∈ dot_S512x128_S128x64_S512x64_1_0_0_1_n_n.lhsBatch by decide), dif_pos (show (0 : Fin S512x128.rank) ∈ dot_S512x128_S128x64_S512x64_1_0_0_1_n_n.lhsNonContracting by decide)]
  rfl
theorem headDot2_lhs_1 (i : S512x64.Idx) (q : dot_S512x128_S128x64_S512x64_1_0_0_1_n_n.contr.Idx) :
    (dot_S512x128_S128x64_S512x64_1_0_0_1_n_n.lhsIdx i q 1).val = (q ⟨0, by decide⟩).val :=
  dot_S512x128_S128x64_S512x64_1_0_0_1_n_n.lhsIdx_val_of_single rfl i q
theorem headDot2_rhs_0 (i : S512x64.Idx) (q : dot_S512x128_S128x64_S512x64_1_0_0_1_n_n.contr.Idx) :
    (dot_S512x128_S128x64_S512x64_1_0_0_1_n_n.rhsIdx i q 0).val = (q ⟨0, by decide⟩).val :=
  dot_S512x128_S128x64_S512x64_1_0_0_1_n_n.rhsIdx_val_of_single rfl i q
theorem headDot2_rhs_1 (i : S512x64.Idx) (q : dot_S512x128_S128x64_S512x64_1_0_0_1_n_n.contr.Idx) :
    (dot_S512x128_S128x64_S512x64_1_0_0_1_n_n.rhsIdx i q 1).val = (i 1).val := by
  unfold DotDims.rhsIdx
  rw [dif_neg (show ¬(1 : Fin S128x64.rank) ∈ dot_S512x128_S128x64_S512x64_1_0_0_1_n_n.rhsBatch by decide), dif_pos (show (1 : Fin S128x64.rank) ∈ dot_S512x128_S128x64_S512x64_1_0_0_1_n_n.rhsNonContracting by decide)]
  rfl

theorem headDot2_apply {φ₁ φ₂ : FTy} (prec : Option ContractPrecision) (A : FVec Ideal S512x128 φ₁) (B : FVec Ideal S128x64 φ₂) (r : Fin 512) (c : Fin 64) :
    matmul dot_S512x128_S128x64_S512x64_1_0_0_1_n_n prec A B (constant (F := Ideal) S512x64 .f32 0x00000000#32) (ix2 r c)
      = ∑ k : Fin 128, A (ix2 r k) * B (ix2 k c) := by
  simp only [matmul]
  rw [Ideal.matmul_constant_zero_apply, ← Equiv.sum_comp (contrEquiv1 dot_S512x128_S128x64_S512x64_1_0_0_1_n_n 128 rfl rfl).symm]
  refine Finset.sum_congr rfl fun k _ => ?_
  have hk := contrEquiv1_symm_val dot_S512x128_S128x64_S512x64_1_0_0_1_n_n 128 rfl rfl k
  have el : dot_S512x128_S128x64_S512x64_1_0_0_1_n_n.lhsIdx (ix2 r c) ((contrEquiv1 dot_S512x128_S128x64_S512x64_1_0_0_1_n_n 128 rfl rfl).symm k) = ix2 r k := funext fun a => Fin.ext (by
    match a with
    | ⟨0, _⟩ => exact headDot2_lhs_0 _ _
    | ⟨1, _⟩ => exact (headDot2_lhs_1 _ _).trans hk)
  have er : dot_S512x128_S128x64_S512x64_1_0_0_1_n_n.rhsIdx (ix2 r c) ((contrEquiv1 dot_S512x128_S128x64_S512x64_1_0_0_1_n_n 128 rfl rfl).symm k) = ix2 k c := funext fun a => Fin.ext (by
    match a with
    | ⟨0, _⟩ => exact (headDot2_rhs_0 _ _).trans hk
    | ⟨1, _⟩ => exact headDot2_rhs_1 _ _)
  rw [el, er]

theorem biasRow128_apply (b : FVec Ideal S1x128 .f32) (r : Fin 512) (c : Fin 128) :
    broadcastTo S512x128 b broadcasts_S1x128_S512x128 (ix2 r c) = b (ix2 0 c) :=
  broadcastTo_apply b broadcasts_S1x128_S512x128 (ix2 r c) (ix2 0 c) (fun a => by
    match a with
    | ⟨0, _⟩ => rfl
    | ⟨1, _⟩ => rfl)

theorem biasRow64_apply (b : FVec Ideal S1x64 .f32) (r : Fin 512) (c : Fin 64) :
    broadcastTo S512x64 b broadcasts_S1x64_S512x64 (ix2 r c) = b (ix2 0 c) :=
  broadcastTo_apply b broadcasts_S1x64_S512x64 (ix2 r c) (ix2 0 c) (fun a => by
    match a with
    | ⟨0, _⟩ => rfl
    | ⟨1, _⟩ => rfl)

theorem head_apply (S : Vec Ideal S512x128 .f32) (x2 : Vec Ideal S128x128 .f32) (x3 : Vec Ideal S1x128 .f32)
    (x4 : Vec Ideal S128x64 .f32) (x5 : Vec Ideal S1x64 .f32) (gr : Fin 512) (o : Fin 64) :
    k4_pay3 (F := Ideal) S x2 x3 x4 x5 (ix2 gr o)
      = GinSpec.head (fun g j => S (ix2 g j)) (fun j k => x2 (ix2 j k)) (fun k => x3 (ix2 0 k)) (fun k q => x4 (ix2 k q))
          (fun q => x5 (ix2 0 q)) gr o := by
  unfold k4_pay3
  simp only [shapeCast_self]
  rw [addf_apply, headDot2_apply, biasRow64_apply]
  unfold GinSpec.head GinSpec.affine
  refine congrArg (· + x5 (ix2 0 o)) (Finset.sum_congr rfl fun k _ => ?_)
  rw [truncf_apply, truncf_apply, maximumf_apply, addf_apply, headDot1_apply, biasRow128_apply]
  rfl

end Cert.KernelIdeal.Hand
-- ==== Proof.KI.Val4.lean ====
import proofs.«428851_j84464826843159_1_alg».proof.Proof.KI.Reg4
import proofs.«428851_j84464826843159_1_alg».proof.Proof.KI.Pay4
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem idsIndex4 : ∀ t : Fin cfg4.N, win4_0.index t (0 : Fin 2) = t.val ∧ win4_0.index t (1 : Fin 2) = 0 :=
  (by decide +kernel : ∀ t : Fin grid4.N, win4_0.index t (0 : Fin 2) = t.val ∧ win4_0.index t (1 : Fin 2) = 0)
theorem rowsIndex4 : ∀ t : Fin cfg4.N, win4_1.index t (0 : Fin 2) = t.val ∧ win4_1.index t (1 : Fin 2) = 0 :=
  (by decide +kernel : ∀ t : Fin grid4.N, win4_1.index t (0 : Fin 2) = t.val ∧ win4_1.index t (1 : Fin 2) = 0)
theorem w1Index4 : ∀ t : Fin cfg4.N, win4_2.index t (0 : Fin 2) = 0 ∧ win4_2.index t (1 : Fin 2) = 0 :=
  (by decide +kernel : ∀ t : Fin grid4.N, win4_2.index t (0 : Fin 2) = 0 ∧ win4_2.index t (1 : Fin 2) = 0)
theorem b1Index4 : ∀ t : Fin cfg4.N, win4_3.index t (0 : Fin 2) = 0 ∧ win4_3.index t (1 : Fin 2) = 0 :=
  (by decide +kernel : ∀ t : Fin grid4.N, win4_3.index t (0 : Fin 2) = 0 ∧ win4_3.index t (1 : Fin 2) = 0)
theorem w2Index4 : ∀ t : Fin cfg4.N, win4_4.index t (0 : Fin 2) = 0 ∧ win4_4.index t (1 : Fin 2) = 0 :=
  (by decide +kernel : ∀ t : Fin grid4.N, win4_4.index t (0 : Fin 2) = 0 ∧ win4_4.index t (1 : Fin 2) = 0)
theorem b2Index4 : ∀ t : Fin cfg4.N, win4_5.index t (0 : Fin 2) = 0 ∧ win4_5.index t (1 : Fin 2) = 0 :=
  (by decide +kernel : ∀ t : Fin grid4.N, win4_5.index t (0 : Fin 2) = 0 ∧ win4_5.index t (1 : Fin 2) = 0)
theorem outIndex4 : ∀ t : Fin cfg4.N, win4_6.index t (0 : Fin 2) = 0 ∧ win4_6.index t (1 : Fin 2) = 0 :=
  (by decide +kernel : ∀ t : Fin grid4.N, win4_6.index t (0 : Fin 2) = 0 ∧ win4_6.index t (1 : Fin 2) = 0)

theorem outExtent4 : ∀ t : Fin cfg4.N, win4_6.xsize (grid4.coords t) (0 : Fin 2) = 512 ∧ win4_6.xsize (grid4.coords t) (1 : Fin 2) = 64 :=
  (by decide +kernel : ∀ t : Fin grid4.N, win4_6.xsize (grid4.coords t) (0 : Fin 2) = 512 ∧ win4_6.xsize (grid4.coords t) (1 : Fin 2) = 64)

theorem idsBlock_apply (c : Dev nD) (t : Fin cfg4.N) (r : Fin 5000) (n : Fin 100000) (hn : n.val = 5000 * t.val + r.val) :
    (iblk4 V c 0 t : Vec Ideal S5000x1 .i32) (ix2 r 0) = (V c main_v160 : S100000x1.Idx → BitVec 32) (ix2 n 0) := by
  have hi := idsIndex4 t
  unfold iblk4
  rw [View.read_apply]
  show V c main_v160 _ = V c main_v160 _
  congr 1
  funext a
  apply Fin.ext
  match a with
  | ⟨0, _⟩ => show win4_0.index t 0 * 5000 + 1 * r.val = n.val; rw [hi.1, hn]; omega
  | ⟨1, _⟩ => show win4_0.index t 1 * 1 + 1 * 0 = 0; rw [hi.2]

theorem rowsBlock_apply (c : Dev nD) (t : Fin cfg4.N) (r : Fin 5000) (j : Fin 128) (n : Fin 100000) (hn : n.val = 5000 * t.val + r.val) :
    (iblk4 V c 1 t : Vec Ideal S5000x128 .f32) (ix2 r j) = (V c main_v159 : S100000x128.Idx → EReal) (ix2 n j) := by
  have hi := rowsIndex4 t
  unfold iblk4
  rw [View.read_apply]
  show V c main_v159 _ = V c main_v159 _
  congr 1
  funext a
  apply Fin.ext
  match a with
  | ⟨0, _⟩ => show win4_1.index t 0 * 5000 + 1 * r.val = n.val; rw [hi.1, hn]; omega
  | ⟨1, _⟩ => show win4_1.index t 1 * 128 + 1 * j.val = j.val; rw [hi.2]; omega

theorem w1Block_eq (c : Dev nD) (t : Fin cfg4.N) :
    (iblk4 V c 2 t : Vec Ideal S128x128 .f32) = (V c main_arg12 : S128x128.Idx → EReal) := by
  have hi := w1Index4 t
  funext i
  unfold iblk4
  rw [View.read_apply]
  show V c main_arg12 _ = V c main_arg12 _
  congr 1
  funext a
  apply Fin.ext
  match a with
  | ⟨0, _⟩ => show win4_2.index t 0 * 128 + 1 * (i 0).val = (i 0).val; rw [hi.1]; omega
  | ⟨1, _⟩ => show win4_2.index t 1 * 128 + 1 * (i 1).val = (i 1).val; rw [hi.2]; omega

theorem b1Block_eq (c : Dev nD) (t : Fin cfg4.N) :
    (iblk4 V c 3 t : Vec Ideal S1x128 .f32) = (V c main_v161 : S1x128.Idx → EReal) := by
  have hi := b1Index4 t
  funext i
  unfold iblk4
  rw [View.read_apply]
  show V c main_v161 _ = V c main_v161 _
  congr 1
  funext a
  apply Fin.ext
  match a with
  | ⟨0, _⟩ => show win4_3.index t 0 * 1 + 1 * (i 0).val = (i 0).val; rw [hi.1]; omega
  | ⟨1, _⟩ => show win4_3.index t 1 * 128 + 1 * (i 1).val = (i 1).val; rw [hi.2]; omega

theorem w2Block_eq (c : Dev nD) (t : Fin cfg4.N) :
    (iblk4 V c 4 t : Vec Ideal S128x64 .f32) = (V c main_arg14 : S128x64.Idx → EReal) := by
  have hi := w2Index4 t
  funext i
  unfold iblk4
  rw [View.read_apply]
  show V c main_arg14 _ = V c main_arg14 _
  congr 1
  funext a
  apply Fin.ext
  match a with
  | ⟨0, _⟩ => show win4_4.index t 0 * 128 + 1 * (i 0).val = (i 0).val; rw [hi.1]; omega
  | ⟨1, _⟩ => show win4_4.index t 1 * 64 + 1 * (i 1).val = (i 1).val; rw [hi.2]; omega

theorem b2Block_eq (c : Dev nD) (t : Fin cfg4.N) :
    (iblk4 V c 5 t : Vec Ideal S1x64 .f32) = (V c main_v162 : S1x64.Idx → EReal) := by
  have hi := b2Index4 t
  funext i
  unfold iblk4
  rw [View.read_apply]
  show V c main_v162 _ = V c main_v162 _
  congr 1
  funext a
  apply Fin.ext
  match a with
  | ⟨0, _⟩ => show win4_5.index t 0 * 1 + 1 * (i 0).val = (i 0).val; rw [hi.1]; omega
  | ⟨1, _⟩ => show win4_5.index t 1 * 64 + 1 * (i 1).val = (i 1).val; rw [hi.2]; omega

def blockSum4 (c : Dev nD) (gr : Fin 512) (j : Fin 128) (t : ℕ) : EReal :=
  if h : t < cfg4.N then
    ∑ r ∈ Finset.univ.filter (fun r : Fin 5000 => ((iblk4 V c 0 ⟨t, h⟩ : Vec Ideal S5000x1 .i32) (ix2 r 0)).toInt = (gr.val : Int)),
      (iblk4 V c 1 ⟨t, h⟩ : Vec Ideal S5000x128 .f32) (ix2 r j)
  else 0

theorem accAt4_apply (c : Dev nD) (n : ℕ) (h : n < cfg4.N) (gr : Fin 512) (j : Fin 128) :
    accAt4 V c n h (ix2 gr j) = GinSpec.zero + ∑ t ∈ Finset.range (n + 1), blockSum4 V c gr j t := by
  induction n with
  | zero =>
    rw [accAt4_zero, acc_apply, zeros_apply, Finset.sum_range_one, blockSum4, dif_pos h]
  | succ n ih =>
    rw [accAt4_succ, acc_apply, ih (Nat.lt_of_succ_lt h), Finset.sum_range_succ _ (n + 1), ← add_assoc, blockSum4, dif_pos h]

theorem acc_last (c : Dev nD) (h : 19 < cfg4.N) (gr : Fin 512) (j : Fin 128) :
    accAt4 V c 19 h (ix2 gr j)
      = GinSpec.pool (fun n j => V c main_v159 (ix2 n j)) (fun n => V c main_v160 (ix2 n 0)) gr j := by
  rw [accAt4_apply]
  unfold GinSpec.pool
  refine congrArg (GinSpec.zero + ·) ?_
  show ∑ t ∈ Finset.range 20, blockSum4 V c gr j t = _
  rw [Finset.sum_range, Finset.sum_filter, ← Equiv.sum_comp (finProdFinEquiv : Fin 20 × Fin 5000 ≃ Fin 100000), Fintype.sum_prod_type]
  refine Finset.sum_congr rfl fun t _ => ?_
  have ht : t.val < cfg4.N := by show t.val < grid4.N; rw [N_4]; exact t.isLt
  rw [blockSum4, dif_pos ht, Finset.sum_filter]
  refine Finset.sum_congr rfl fun r _ => ?_
  have hn : (finProdFinEquiv (t, r) : Fin 100000).val = 5000 * (⟨t.val, ht⟩ : Fin cfg4.N).val + r.val := by
    show r.val + 5000 * t.val = 5000 * t.val + r.val
    omega
  rw [idsBlock_apply V c ⟨t.val, ht⟩ r (finProdFinEquiv (t, r)) hn, rowsBlock_apply V c ⟨t.val, ht⟩ r j (finProdFinEquiv (t, r)) hn]

def headOfPool4 (c : Dev nD) : Buf (Elt Ideal) ((c : Thread nD τ).loc main_v163) :=
  fun i => GinSpec.head (GinSpec.pool (fun n j => V c main_v159 (ix2 n j)) (fun n => V c main_v160 (ix2 n 0)))
    (fun j k => V c main_arg12 (ix2 j k)) (fun k => V c main_v161 (ix2 0 k)) (fun k q => V c main_arg14 (ix2 k q))
    (fun q => V c main_v162 (ix2 0 q)) (i 0) (i 1)

theorem outAfter_last (c : Dev nD) (t : Fin cfg4.N) (h19 : t.val = 19) :
    ((dat4 V c).after 6 t : Vec Ideal S512x64 .f32) = headOfPool4 V c := by
  obtain ⟨tv, htv⟩ := t
  obtain rfl : tv = 19 := h19
  have hp : (fun (g : Fin 512) (j : Fin 128) => accAt4 V c 19 htv (ix2 g j))
      = GinSpec.pool (fun n j => V c main_v159 (ix2 n j)) (fun n => V c main_v160 (ix2 n 0)) :=
    funext fun g => funext fun j => acc_last V c htv g j
  rw [after4_6]
  unfold out4_6 headOfPool4
  funext i
  obtain ⟨gr, o, rfl⟩ : ∃ (gr : Fin 512) (o : Fin 64), i = ix2 gr o := ⟨i 0, i 1, eq_ix2 i⟩
  rw [head_apply, w1Block_eq, b1Block_eq, w2Block_eq, b2Block_eq]
  show GinSpec.head (fun (g : Fin 512) (j : Fin 128) => accAt4 V c 19 htv (ix2 g j)) _ _ _ _ gr o = _
  rw [hp]
  rfl

theorem flushed4_eq (c : Dev nD) (t : Fin cfg4.N) (hf : (cfg4.win 6).flush t = true) :
    (dat4 V c).flushed 6 t = ((cfg4.win 6).blk t).view.read (Elt Ideal) (headOfPool4 V c) := by
  have hN : cfg4.N = 20 := N_4
  have h19 : t.val = 19 := by have := (flush4_6 t).mp hf; have := t.isLt; omega
  show (cfg4.win 6).cut (grid4.coords t) ((dat4 V c).after 6 t) = _
  rw [outAfter_last V c t h19]
  have hi := outIndex4 t
  have hz : (fun a => win4_6.index t a * main_v163.ty.shape.size a) = fun _ => 0 := funext fun a => by
    match a with
    | ⟨0, _⟩ => show win4_6.index t 0 * 512 = 0; rw [hi.1]
    | ⟨1, _⟩ => show win4_6.index t 1 * 64 = 0; rw [hi.2]
  exact (Memref.read_access_unit_zero (Elt Ideal) main_v163 hz (fun a => by rw [congrFun hz a]; simp) (headOfPool4 V c)).symm

theorem val4 (c : Dev nD) :
    (dat4 (F := Ideal) V c).arrAt 6 cfg4.N
      = (fun i => GinSpec.head (GinSpec.pool (fun n j => V c main_v159 (ix2 n j)) (fun n => V c main_v160 (ix2 n 0)))
          (fun j k => V c main_arg12 (ix2 j k)) (fun k => V c main_v161 (ix2 0 k)) (fun k q => V c main_arg14 (ix2 k q))
          (fun q => V c main_v162 (ix2 0 q)) (i 0) (i 1) : Buf (Elt Ideal) ((c : Thread nD τ).loc main_v163)) := by
  have h19 : 19 < cfg4.N := by show 19 < grid4.N; rw [N_4]; decide
  refine (dat4 V c).arrAt_eq_of_cover 6 (headOfPool4 V c) (flushed4_eq V c) fun i => ⟨⟨19, h19⟩, (flush4_6 ⟨19, h19⟩).mpr rfl, ?_⟩
  have hi := outIndex4 ⟨19, h19⟩
  have hx := outExtent4 ⟨19, h19⟩
  show i ∈ ((View.whole main_v163).slice (win4_6.rect ⟨19, h19⟩)).set
  rw [View.set_slice_whole, Rect.mem_set_unit]
  intro a
  have h0 : (i 0 : Nat) < 512 := (i 0).isLt
  have h1 : (i 1 : Nat) < 64 := (i 1).isLt
  match a with
  | ⟨0, _⟩ =>
    show win4_6.index ⟨19, h19⟩ 0 * 512 ≤ (i 0 : Nat) ∧ (i 0 : Nat) < win4_6.index ⟨19, h19⟩ 0 * 512 + win4_6.xsize (grid4.coords ⟨19, h19⟩) 0
    rw [hi.1, hx.1]; omega
  | ⟨1, _⟩ =>
    show win4_6.index ⟨19, h19⟩ 1 * 64 ≤ (i 1 : Nat) ∧ (i 1 : Nat) < win4_6.index ⟨19, h19⟩ 1 * 64 + win4_6.xsize (grid4.coords ⟨19, h19⟩) 1
    rw [hi.2, hx.2]; omega

end Cert.KernelIdeal.Hand
-- ==== Proof.KI.Host4.lean ====
import proofs.«428851_j84464826843159_1_alg».proof.Proof.Gen.KernelIdeal.Launch
import proofs.«428851_j84464826843159_1_alg».proof.Proof.Spec
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.ShloMosaic.ValueIdx

variable (W : Valuation τ sig (Elt Ideal))

theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem host4_ids (n : Fin 100000) : StableHlo.after hostOps4 W main_v160 (ix2 n 0) = W main_arg2 (ix1 n) := by
  after_results_simp
  exact shapeCast_a_a1_apply (W main_arg2) _ n 0

theorem host4_b1 (k : Fin 128) : StableHlo.after hostOps4 W main_v161 (ix2 0 k) = W main_arg13 (ix1 k) := by
  after_results_simp
  exact shapeCast_a_1a_apply (W main_arg13) _ 0 k

theorem host4_b2 (q : Fin 64) : StableHlo.after hostOps4 W main_v162 (ix2 0 q) = W main_arg15 (ix1 q) := by
  after_results_simp
  exact shapeCast_a_1a_apply (W main_arg15) _ 0 q

end Cert.KernelIdeal.Hand

end
-- ==== Proof.KI.Value.lean ====
import proofs.«428851_j84464826843159_1_alg».proof.Proof.KI.ValueKeeps
import proofs.«428851_j84464826843159_1_alg».proof.Proof.KI.ValueLayer1
import proofs.«428851_j84464826843159_1_alg».proof.Proof.KI.ValueLayer2
import proofs.«428851_j84464826843159_1_alg».proof.Proof.KI.ValueLayer3
import proofs.«428851_j84464826843159_1_alg».proof.Proof.KI.Val0
import proofs.«428851_j84464826843159_1_alg».proof.Proof.KI.Val4
import proofs.«428851_j84464826843159_1_alg».proof.Proof.KI.Host0
import proofs.«428851_j84464826843159_1_alg».proof.Proof.KI.Host4

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat)

variable (m : (ℓ : Loc nD τ sig) → Buf (Elt Ideal) ℓ) (c : Dev nD)

theorem out0_eq : (fun (n : Fin 100000) (j : Fin 128) => W2 m c main_v42 (ix2 n j))
    = specLayer m c 0 (fun r p => m ((c.tc : Thread nD τ).loc main_arg0) (ix2 r p)) := by
  funext n j
  refine ((congrFun (W2_arr m c 9) (ix2 n j)).trans (congrFun (val0 (V1 m) c) (ix2 n j))).trans ?_
  show GinSpec.mlp _ _ _ _ _ _ _ _ _ n j = GinSpec.mlp _ _ _ _ _ _ _ _ _ n j
  refine congrFun (congrFun (mlp_congr ?_ ?_ ?_ ?_ ?_ ?_ ?_ ?_ ?_) n) j
  · funext r p; exact host0_pre (W0 m c) r p
  · funext j k; exact host0_W1 (W0 m c) j k
  · funext k; exact host0_b1 (W0 m c) k
  · funext k; exact host0_gamma (W0 m c) k
  · funext k; exact host0_beta (W0 m c) k
  · funext k; exact host0_mean (W0 m c) k
  · funext k; exact host0_var (W0 m c) k
  · funext j k; exact host0_W2 (W0 m c) j k
  · funext k; exact host0_b2 (W0 m c) k

theorem head_pool_congr {X X' : GinSpec.Mat 100000 128} {ids ids' : Fin 100000 → BitVec 32} {w1 w1' : GinSpec.Mat 128 128}
    {b1 b1' : Fin 128 → EReal} {w2 w2' : GinSpec.Mat 128 64} {b2 b2' : Fin 64 → EReal} (e1 : X = X') (e2 : ids = ids') (e3 : w1 = w1')
    (e4 : b1 = b1') (e5 : w2 = w2') (e6 : b2 = b2') :
    GinSpec.head (GinSpec.pool X ids) w1 b1 w2 b2 = GinSpec.head (GinSpec.pool X' ids') w1' b1' w2' b2' := by
  rw [e1, e2, e3, e4, e5, e6]

theorem nodes_eq : (fun (n : Fin 100000) (j : Fin 128) => W9 m c main_v159 (ix2 n j))
    = GinSpec.nodes (m ((c.tc : Thread nD τ).loc main_arg0)) (m ((c.tc : Thread nD τ).loc main_arg1)) (m ((c.tc : Thread nD τ).loc main_arg3))
        (m ((c.tc : Thread nD τ).loc main_arg4)) (m ((c.tc : Thread nD τ).loc main_arg5)) (m ((c.tc : Thread nD τ).loc main_arg6))
        (m ((c.tc : Thread nD τ).loc main_arg7)) (m ((c.tc : Thread nD τ).loc main_arg8)) (m ((c.tc : Thread nD τ).loc main_arg9))
        (m ((c.tc : Thread nD τ).loc main_arg10)) (m ((c.tc : Thread nD τ).loc main_arg11)) := by
  have h9 : (fun (n : Fin 100000) (j : Fin 128) => W9 m c main_v159 (ix2 n j)) = fun n j => W8 m c main_v159 (ix2 n j) :=
    funext fun n => funext fun j => congrFun (W9_keep m c main_v159 (by decide)) (ix2 n j)
  rw [h9, out3_eq, out2_eq, out1_eq, out0_eq]
  rfl

theorem kernel_val :
    (W10 m c main_v163 : S512x64.Idx → EReal)
      = GinSpec.net (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11))
          (m ((c.tc : Thread nD τ).loc main_arg12)) (m ((c.tc : Thread nD τ).loc main_arg13)) (m ((c.tc : Thread nD τ).loc main_arg14))
          (m ((c.tc : Thread nD τ).loc main_arg15)) := by
  funext i
  refine ((congrFun (W10_arr m c 6) i).trans (congrFun (val4 (V9 m) c) i)).trans ?_
  unfold GinSpec.net
  show GinSpec.head (GinSpec.pool _ _) _ _ _ _ (i 0) (i 1) = GinSpec.head (GinSpec.pool _ _) _ _ _ _ (i 0) (i 1)
  refine congrFun (congrFun (head_pool_congr ?_ ?_ ?_ ?_ ?_ ?_) (i 0)) (i 1)
  · exact nodes_eq m c
  · funext n
    exact (host4_ids (W8 m c) n).trans (congrFun (W8_keeps m c main_arg2 (by decide) (by decide) (by decide) (by decide) (by decide) (by decide) (by decide) (by decide)) (ix1 n))
  · funext j k
    exact congrFun (W9_keeps m c main_arg12 (by decide) (by decide) (by decide) (by decide) (by decide) (by decide) (by decide) (by decide) (by decide)) (ix2 j k)
  · funext k
    exact (host4_b1 (W8 m c) k).trans (congrFun (W8_keeps m c main_arg13 (by decide) (by decide) (by decide) (by decide) (by decide) (by decide) (by decide) (by decide)) (ix1 k))
  · funext k q
    exact congrFun (W9_keeps m c main_arg14 (by decide) (by decide) (by decide) (by decide) (by decide) (by decide) (by decide) (by decide) (by decide)) (ix2 k q)
  · funext q
    exact (host4_b2 (W8 m c) q).trans (congrFun (W8_keeps m c main_arg15 (by decide) (by decide) (by decide) (by decide) (by decide) (by decide) (by decide) (by decide)) (ix1 q))

end Cert.KernelIdeal.Hand

end
-- ==== Proof.Ref.Run.lean ====
import proofs.«428851_j84464826843159_1_alg».proof.Proof.Gen.ReferenceIdeal
import Idealize.ShloMosaic.Lib.StableHlo.Run
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

abbrev opsL0 : List (HloOp τ sig (Elt F)) :=
  [ unary main_arg1 main_v0 ((extractStridedSlice S1x1600000 ![0, 0] · slices_S2x1600000_S1x1600000_0_0)),
    reshape main_v0 main_v1 rfl shapeCasts_S1x1600000_S1600000,
    unary main_arg1 main_v2 ((extractStridedSlice S1x1600000 ![1, 0] · slices_S2x1600000_S1x1600000_1_0)),
    reshape main_v2 main_v3 rfl shapeCasts_S1x1600000_S1600000,
    nullary main_c (constantI S_ 32 0#32),
    unary main_c main_v4 (broadcastInDim S1600000 ![] bcast_S_S1600000),
    binary main_v1 main_v4 main_v5 (cmpi .slt),
    nullary main_c_0 (constantI S_ 32 100000#32),
    unary main_c_0 main_v6 (broadcastInDim S1600000 ![] bcast_S_S1600000),
    binary main_v1 main_v6 main_v7 addi,
    ternary main_v5 main_v7 main_v1 main_v8 select,
    unary main_v8 main_v9 (broadcastInDim S1600000x1 ![0] bcast_S1600000_S1600000x1_0),
    binary main_arg0 main_v9 main_v10 (fun x i => Host.gather gather_S100000x128_S1600000x1_S1600000x128_1_0_n_n_0_1_1128 x i),
    nullary main_cst (constant S_ .f32 0x00000000#32),
    unary main_cst main_v11 (broadcastInDim S100000x128 ![] bcast_S_S100000x128),
    unary main_v3 main_v12 (broadcastInDim S1600000x1 ![0] bcast_S1600000_S1600000x1_0),
    ternary main_v11 main_v12 main_v10 main_v13 (fun x i u => Host.scatterAdd scatter_S100000x128_S1600000x1_S1600000x128_1_0_0_1 x i u),
    unary main_arg3 main_v14 ((extractStridedSlice S1 ![0] · slices_S4_S1_0)),
    reshape main_v14 main_v15 rfl shapeCasts_S1_S_,
    nullary main_cst_1 (constant S_ .f32 0x3F800000#32),
    binary main_cst_1 main_v15 main_v16 addf,
    unary main_v16 main_v17 (broadcastInDim S100000x128 ![] bcast_S_S100000x128),
    binary main_v17 main_arg0 main_v18 mulf,
    binary main_v18 main_v13 main_v19 addf,
    unary main_arg4 main_v20 ((extractStridedSlice S1x128x128 ![0, 0, 0] · slices_S4x128x128_S1x128x128_0_0_0)),
    reshape main_v20 main_v21 rfl shapeCasts_S1x128x128_S128x128,
    binary main_v19 main_v21 main_v22 (fun l r => Host.dotGeneral dot_S100000x128_S128x128_S100000x128_1_0_0_1_n_n none l r),
    unary main_arg5 main_v23 ((extractStridedSlice S1x128 ![0, 0] · slices_S4x128_S1x128_0_0)),
    reshape main_v23 main_v24 rfl shapeCasts_S1x128_S128,
    unary main_v24 main_v25 (broadcastInDim S1x128 ![1] bcast_S128_S1x128_1),
    unary main_v25 main_v26 (broadcastInDim S100000x128 ![0, 1] bcast_S1x128_S100000x128_0_1),
    binary main_v22 main_v26 main_v27 addf,
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v27) (TRef.of (T := ⟨S100000x128, .f32⟩) main_call0_v0) (TRef.of (T := ⟨S100000x128, .f32⟩) main_v28) maximumf,
    unary main_arg8 main_v29 ((extractStridedSlice S1x128 ![0, 0] · slices_S4x128_S1x128_0_0)),
    reshape main_v29 main_v30 rfl shapeCasts_S1x128_S128,
    unary main_v30 main_v31 (broadcastInDim S1x128 ![1] bcast_S128_S1x128_1),
    unary main_v31 main_v32 (broadcastInDim S100000x128 ![0, 1] bcast_S1x128_S100000x128_0_1),
    binary main_v28 main_v32 main_v33 subf,
    unary main_arg9 main_v34 ((extractStridedSlice S1x128 ![0, 0] · slices_S4x128_S1x128_0_0)),
    reshape main_v34 main_v35 rfl shapeCasts_S1x128_S128,
    nullary main_cst_2 (constant S_ .f32 0x3727C5AC#32),
    unary main_cst_2 main_v36 (broadcastInDim S128 ![] bcast_S_S128),
    binary main_v35 main_v36 main_v37 addf,
    unary main_v37 main_v38 Host.rsqrt,
    unary main_v38 main_v39 (broadcastInDim S1x128 ![1] bcast_S128_S1x128_1),
    unary main_v39 main_v40 (broadcastInDim S100000x128 ![0, 1] bcast_S1x128_S100000x128_0_1),
    binary main_v33 main_v40 main_v41 mulf,
    unary main_arg6 main_v42 ((extractStridedSlice S1x128 ![0, 0] · slices_S4x128_S1x128_0_0)),
    reshape main_v42 main_v43 rfl shapeCasts_S1x128_S128,
    unary main_v43 main_v44 (broadcastInDim S1x128 ![1] bcast_S128_S1x128_1),
    unary main_v44 main_v45 (broadcastInDim S100000x128 ![0, 1] bcast_S1x128_S100000x128_0_1),
    binary main_v41 main_v45 main_v46 mulf,
    unary main_arg7 main_v47 ((extractStridedSlice S1x128 ![0, 0] · slices_S4x128_S1x128_0_0)),
    reshape main_v47 main_v48 rfl shapeCasts_S1x128_S128,
    unary main_v48 main_v49 (broadcastInDim S1x128 ![1] bcast_S128_S1x128_1),
    unary main_v49 main_v50 (broadcastInDim S100000x128 ![0, 1] bcast_S1x128_S100000x128_0_1),
    binary main_v46 main_v50 main_v51 addf,
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v51) (TRef.of (T := ⟨S100000x128, .f32⟩) main_call1_v0) (TRef.of (T := ⟨S100000x128, .f32⟩) main_v52) maximumf,
    unary main_arg10 main_v53 ((extractStridedSlice S1x128x128 ![0, 0, 0] · slices_S4x128x128_S1x128x128_0_0_0)),
    reshape main_v53 main_v54 rfl shapeCasts_S1x128x128_S128x128,
    binary main_v52 main_v54 main_v55 (fun l r => Host.dotGeneral dot_S100000x128_S128x128_S100000x128_1_0_0_1_n_n none l r),
    unary main_arg11 main_v56 ((extractStridedSlice S1x128 ![0, 0] · slices_S4x128_S1x128_0_0)),
    reshape main_v56 main_v57 rfl shapeCasts_S1x128_S128,
    unary main_v57 main_v58 (broadcastInDim S1x128 ![1] bcast_S128_S1x128_1),
    unary main_v58 main_v59 (broadcastInDim S100000x128 ![0, 1] bcast_S1x128_S100000x128_0_1),
    binary main_v55 main_v59 main_v60 addf,
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v60) (TRef.of (T := ⟨S100000x128, .f32⟩) main_call2_v0) (TRef.of (T := ⟨S100000x128, .f32⟩) main_v61) maximumf ]

abbrev opsL1 : List (HloOp τ sig (Elt F)) :=
  [ nullary main_c_3 (constantI S_ 32 0#32),
    unary main_c_3 main_v62 (broadcastInDim S1600000 ![] bcast_S_S1600000),
    binary main_v1 main_v62 main_v63 (cmpi .slt),
    nullary main_c_4 (constantI S_ 32 100000#32),
    unary main_c_4 main_v64 (broadcastInDim S1600000 ![] bcast_S_S1600000),
    binary main_v1 main_v64 main_v65 addi,
    ternary main_v63 main_v65 main_v1 main_v66 select,
    unary main_v66 main_v67 (broadcastInDim S1600000x1 ![0] bcast_S1600000_S1600000x1_0),
    binary main_v61 main_v67 main_v68 (fun x i => Host.gather gather_S100000x128_S1600000x1_S1600000x128_1_0_n_n_0_1_1128 x i),
    nullary main_cst_5 (constant S_ .f32 0x00000000#32),
    unary main_cst_5 main_v69 (broadcastInDim S100000x128 ![] bcast_S_S100000x128),
    unary main_v3 main_v70 (broadcastInDim S1600000x1 ![0] bcast_S1600000_S1600000x1_0),
    ternary main_v69 main_v70 main_v68 main_v71 (fun x i u => Host.scatterAdd scatter_S100000x128_S1600000x1_S1600000x128_1_0_0_1 x i u),
    unary main_arg3 main_v72 ((extractStridedSlice S1 ![1] · slices_S4_S1_1)),
    reshape main_v72 main_v73 rfl shapeCasts_S1_S_,
    nullary main_cst_6 (constant S_ .f32 0x3F800000#32),
    binary main_cst_6 main_v73 main_v74 addf,
    unary main_v74 main_v75 (broadcastInDim S100000x128 ![] bcast_S_S100000x128),
    binary main_v75 main_v61 main_v76 mulf,
    binary main_v76 main_v71 main_v77 addf,
    unary main_arg4 main_v78 ((extractStridedSlice S1x128x128 ![1, 0, 0] · slices_S4x128x128_S1x128x128_1_0_0)),
    reshape main_v78 main_v79 rfl shapeCasts_S1x128x128_S128x128,
    binary main_v77 main_v79 main_v80 (fun l r => Host.dotGeneral dot_S100000x128_S128x128_S100000x128_1_0_0_1_n_n none l r),
    unary main_arg5 main_v81 ((extractStridedSlice S1x128 ![1, 0] · slices_S4x128_S1x128_1_0)),
    reshape main_v81 main_v82 rfl shapeCasts_S1x128_S128,
    unary main_v82 main_v83 (broadcastInDim S1x128 ![1] bcast_S128_S1x128_1),
    unary main_v83 main_v84 (broadcastInDim S100000x128 ![0, 1] bcast_S1x128_S100000x128_0_1),
    binary main_v80 main_v84 main_v85 addf,
    TRef.nullary (TRef.of (T := ⟨S_, .f32⟩) main_call3_cst) (constant S_ .f32 0x00000000#32),
    TRef.unary (TRef.of (T := ⟨S_, .f32⟩) main_call3_cst) (TRef.of (T := ⟨S100000x128, .f32⟩) main_call3_v0) (broadcastInDim S100000x128 ![] bcast_S_S100000x128),
    TRef.binary (TRef.of (T := ⟨S100000x128, .f32⟩) main_v85) (TRef.of (T := ⟨S100000x128, .f32⟩) main_call3_v0) (TRef.of (T := ⟨S100000x128, .f32⟩) main_v86) maximumf,
    unary main_arg8 main_v87 ((extractStridedSlice S1x128 ![1, 0] · slices_S4x128_S1x128_1_0)),
    reshape main_v87 main_v88 rfl shapeCasts_S1x128_S128,
    unary main_v88 main_v89 (broadcastInDim S1x128 ![1] bcast_S128_S1x128_1),
    unary main_v89 main_v90 (broadcastInDim S100000x128 ![0, 1] bcast_S1x128_S100000x128_0_1),
    binary main_v86 main_v90 main_v91 subf,
    unary main_arg9 main_v92 ((extractStridedSlice S1x128 ![1, 0] · slices_S4x128_S1x128_1_0)),
    reshape main_v92 main_v93 rfl shapeCasts_S1x128_S128,
    nullary main_cst_7 (constant S_ .f32 0x3727C5AC#32),
    unary main_cst_7 main_v94 (broadcastInDim S128 ![] bcast_S_S128),
    binary main_v93 main_v94 main_v95 addf,
    unary main_v95 main_v96 Host.rsqrt,
    unary main_v96 main_v97 (broadcastInDim S1x128 ![1] bcast_S128_S1x128_1),
    unary main_v97 main_v98 (broadcastInDim S100000x128 ![0, 1] bcast_S1x128_S100000x128_0_1),
    binary main_v91 main_v98 main_v99 mulf,
    unary main_arg6 main_v100 ((extractStridedSlice S1x128 ![1, 0] · slices_S4x128_S1x128_1_0)),
    reshape main_v100 main_v101 rfl shapeCasts_S1x128_S128,
    unary main_v101 main_v102 (broadcastInDim S1x128 ![1] bcast_S128_S1x128_1),
    unary main_v102 main_v103 (broadcastInDim S100000x128 ![0, 1] bcast_S1x128_S100000x128_0_1),
    binary main_v99 main_v103 main_v104 mulf,
    unary main_arg7 main_v105 ((extractStridedSlice S1x128 ![1, 0] · slices_S4x128_S1x128_1_0)),
    reshape main_v105 main_v106 rfl shapeCasts_S1x128_S128,
    unary main_v106 main_v107 (broadcastInDim S1x128 ![1] bcast_S128_S1x128_1),
    unary main_v107 main_v108 (broadcastInDim S100000x128 ![0, 1] bcast_S1x128_S100000x128_0_1),
    binary main_v104 main_v108 main_v109 addf,
    TRef.nullary (TRef.of (T := ⟨S_, .f32⟩) main_call4_cst) (constant S_ .f32 0x00000000#32),
    TRef.unary (TRef.of (T := ⟨S_, .f32⟩) main_call4_cst) (TRef.of (T := ⟨S100000x128, .f32⟩) main_call4_v0) (broadcastInDim S100000x128 ![] bcast_S_S100000x128),
    TRef.binary (TRef.of (T := ⟨S100000x128, .f32⟩) main_v109) (TRef.of (T := ⟨S100000x128, .f32⟩) main_call4_v0) (TRef.of (T := ⟨S100000x128, .f32⟩) main_v110) maximumf,
    unary main_arg10 main_v111 ((extractStridedSlice S1x128x128 ![1, 0, 0] · slices_S4x128x128_S1x128x128_1_0_0)),
    reshape main_v111 main_v112 rfl shapeCasts_S1x128x128_S128x128,
    binary main_v110 main_v112 main_v113 (fun l r => Host.dotGeneral dot_S100000x128_S128x128_S100000x128_1_0_0_1_n_n none l r),
    unary main_arg11 main_v114 ((extractStridedSlice S1x128 ![1, 0] · slices_S4x128_S1x128_1_0)),
    reshape main_v114 main_v115 rfl shapeCasts_S1x128_S128,
    unary main_v115 main_v116 (broadcastInDim S1x128 ![1] bcast_S128_S1x128_1),
    unary main_v116 main_v117 (broadcastInDim S100000x128 ![0, 1] bcast_S1x128_S100000x128_0_1),
    binary main_v113 main_v117 main_v118 addf,
    TRef.nullary (TRef.of (T := ⟨S_, .f32⟩) main_call5_cst) (constant S_ .f32 0x00000000#32),
    TRef.unary (TRef.of (T := ⟨S_, .f32⟩) main_call5_cst) (TRef.of (T := ⟨S100000x128, .f32⟩) main_call5_v0) (broadcastInDim S100000x128 ![] bcast_S_S100000x128),
    TRef.binary (TRef.of (T := ⟨S100000x128, .f32⟩) main_v118) (TRef.of (T := ⟨S100000x128, .f32⟩) main_call5_v0) (TRef.of (T := ⟨S100000x128, .f32⟩) main_v119) maximumf ]

abbrev opsL2 : List (HloOp τ sig (Elt F)) :=
  [ nullary main_c_8 (constantI S_ 32 0#32),
    unary main_c_8 main_v120 (broadcastInDim S1600000 ![] bcast_S_S1600000),
    binary main_v1 main_v120 main_v121 (cmpi .slt),
    nullary main_c_9 (constantI S_ 32 100000#32),
    unary main_c_9 main_v122 (broadcastInDim S1600000 ![] bcast_S_S1600000),
    binary main_v1 main_v122 main_v123 addi,
    ternary main_v121 main_v123 main_v1 main_v124 select,
    unary main_v124 main_v125 (broadcastInDim S1600000x1 ![0] bcast_S1600000_S1600000x1_0),
    binary main_v119 main_v125 main_v126 (fun x i => Host.gather gather_S100000x128_S1600000x1_S1600000x128_1_0_n_n_0_1_1128 x i),
    nullary main_cst_10 (constant S_ .f32 0x00000000#32),
    unary main_cst_10 main_v127 (broadcastInDim S100000x128 ![] bcast_S_S100000x128),
    unary main_v3 main_v128 (broadcastInDim S1600000x1 ![0] bcast_S1600000_S1600000x1_0),
    ternary main_v127 main_v128 main_v126 main_v129 (fun x i u => Host.scatterAdd scatter_S100000x128_S1600000x1_S1600000x128_1_0_0_1 x i u),
    unary main_arg3 main_v130 ((extractStridedSlice S1 ![2] · slices_S4_S1_2)),
    reshape main_v130 main_v131 rfl shapeCasts_S1_S_,
    nullary main_cst_11 (constant S_ .f32 0x3F800000#32),
    binary main_cst_11 main_v131 main_v132 addf,
    unary main_v132 main_v133 (broadcastInDim S100000x128 ![] bcast_S_S100000x128),
    binary main_v133 main_v119 main_v134 mulf,
    binary main_v134 main_v129 main_v135 addf,
    unary main_arg4 main_v136 ((extractStridedSlice S1x128x128 ![2, 0, 0] · slices_S4x128x128_S1x128x128_2_0_0)),
    reshape main_v136 main_v137 rfl shapeCasts_S1x128x128_S128x128,
    binary main_v135 main_v137 main_v138 (fun l r => Host.dotGeneral dot_S100000x128_S128x128_S100000x128_1_0_0_1_n_n none l r),
    unary main_arg5 main_v139 ((extractStridedSlice S1x128 ![2, 0] · slices_S4x128_S1x128_2_0)),
    reshape main_v139 main_v140 rfl shapeCasts_S1x128_S128,
    unary main_v140 main_v141 (broadcastInDim S1x128 ![1] bcast_S128_S1x128_1),
    unary main_v141 main_v142 (broadcastInDim S100000x128 ![0, 1] bcast_S1x128_S100000x128_0_1),
    binary main_v138 main_v142 main_v143 addf,
    TRef.nullary (TRef.of (T := ⟨S_, .f32⟩) main_call6_cst) (constant S_ .f32 0x00000000#32),
    TRef.unary (TRef.of (T := ⟨S_, .f32⟩) main_call6_cst) (TRef.of (T := ⟨S100000x128, .f32⟩) main_call6_v0) (broadcastInDim S100000x128 ![] bcast_S_S100000x128),
    TRef.binary (TRef.of (T := ⟨S100000x128, .f32⟩) main_v143) (TRef.of (T := ⟨S100000x128, .f32⟩) main_call6_v0) (TRef.of (T := ⟨S100000x128, .f32⟩) main_v144) maximumf,
    unary main_arg8 main_v145 ((extractStridedSlice S1x128 ![2, 0] · slices_S4x128_S1x128_2_0)),
    reshape main_v145 main_v146 rfl shapeCasts_S1x128_S128,
    unary main_v146 main_v147 (broadcastInDim S1x128 ![1] bcast_S128_S1x128_1),
    unary main_v147 main_v148 (broadcastInDim S100000x128 ![0, 1] bcast_S1x128_S100000x128_0_1),
    binary main_v144 main_v148 main_v149 subf,
    unary main_arg9 main_v150 ((extractStridedSlice S1x128 ![2, 0] · slices_S4x128_S1x128_2_0)),
    reshape main_v150 main_v151 rfl shapeCasts_S1x128_S128,
    nullary main_cst_12 (constant S_ .f32 0x3727C5AC#32),
    unary main_cst_12 main_v152 (broadcastInDim S128 ![] bcast_S_S128),
    binary main_v151 main_v152 main_v153 addf,
    unary main_v153 main_v154 Host.rsqrt,
    unary main_v154 main_v155 (broadcastInDim S1x128 ![1] bcast_S128_S1x128_1),
    unary main_v155 main_v156 (broadcastInDim S100000x128 ![0, 1] bcast_S1x128_S100000x128_0_1),
    binary main_v149 main_v156 main_v157 mulf,
    unary main_arg6 main_v158 ((extractStridedSlice S1x128 ![2, 0] · slices_S4x128_S1x128_2_0)),
    reshape main_v158 main_v159 rfl shapeCasts_S1x128_S128,
    unary main_v159 main_v160 (broadcastInDim S1x128 ![1] bcast_S128_S1x128_1),
    unary main_v160 main_v161 (broadcastInDim S100000x128 ![0, 1] bcast_S1x128_S100000x128_0_1),
    binary main_v157 main_v161 main_v162 mulf,
    unary main_arg7 main_v163 ((extractStridedSlice S1x128 ![2, 0] · slices_S4x128_S1x128_2_0)),
    reshape main_v163 main_v164 rfl shapeCasts_S1x128_S128,
    unary main_v164 main_v165 (broadcastInDim S1x128 ![1] bcast_S128_S1x128_1),
    unary main_v165 main_v166 (broadcastInDim S100000x128 ![0, 1] bcast_S1x128_S100000x128_0_1),
    binary main_v162 main_v166 main_v167 addf,
    TRef.nullary (TRef.of (T := ⟨S_, .f32⟩) main_call7_cst) (constant S_ .f32 0x00000000#32),
    TRef.unary (TRef.of (T := ⟨S_, .f32⟩) main_call7_cst) (TRef.of (T := ⟨S100000x128, .f32⟩) main_call7_v0) (broadcastInDim S100000x128 ![] bcast_S_S100000x128),
    TRef.binary (TRef.of (T := ⟨S100000x128, .f32⟩) main_v167) (TRef.of (T := ⟨S100000x128, .f32⟩) main_call7_v0) (TRef.of (T := ⟨S100000x128, .f32⟩) main_v168) maximumf,
    unary main_arg10 main_v169 ((extractStridedSlice S1x128x128 ![2, 0, 0] · slices_S4x128x128_S1x128x128_2_0_0)),
    reshape main_v169 main_v170 rfl shapeCasts_S1x128x128_S128x128,
    binary main_v168 main_v170 main_v171 (fun l r => Host.dotGeneral dot_S100000x128_S128x128_S100000x128_1_0_0_1_n_n none l r),
    unary main_arg11 main_v172 ((extractStridedSlice S1x128 ![2, 0] · slices_S4x128_S1x128_2_0)),
    reshape main_v172 main_v173 rfl shapeCasts_S1x128_S128,
    unary main_v173 main_v174 (broadcastInDim S1x128 ![1] bcast_S128_S1x128_1),
    unary main_v174 main_v175 (broadcastInDim S100000x128 ![0, 1] bcast_S1x128_S100000x128_0_1),
    binary main_v171 main_v175 main_v176 addf,
    TRef.nullary (TRef.of (T := ⟨S_, .f32⟩) main_call8_cst) (constant S_ .f32 0x00000000#32),
    TRef.unary (TRef.of (T := ⟨S_, .f32⟩) main_call8_cst) (TRef.of (T := ⟨S100000x128, .f32⟩) main_call8_v0) (broadcastInDim S100000x128 ![] bcast_S_S100000x128),
    TRef.binary (TRef.of (T := ⟨S100000x128, .f32⟩) main_v176) (TRef.of (T := ⟨S100000x128, .f32⟩) main_call8_v0) (TRef.of (T := ⟨S100000x128, .f32⟩) main_v177) maximumf ]

abbrev opsL3 : List (HloOp τ sig (Elt F)) :=
  [ nullary main_c_13 (constantI S_ 32 0#32),
    unary main_c_13 main_v178 (broadcastInDim S1600000 ![] bcast_S_S1600000),
    binary main_v1 main_v178 main_v179 (cmpi .slt),
    nullary main_c_14 (constantI S_ 32 100000#32),
    unary main_c_14 main_v180 (broadcastInDim S1600000 ![] bcast_S_S1600000),
    binary main_v1 main_v180 main_v181 addi,
    ternary main_v179 main_v181 main_v1 main_v182 select,
    unary main_v182 main_v183 (broadcastInDim S1600000x1 ![0] bcast_S1600000_S1600000x1_0),
    binary main_v177 main_v183 main_v184 (fun x i => Host.gather gather_S100000x128_S1600000x1_S1600000x128_1_0_n_n_0_1_1128 x i),
    nullary main_cst_15 (constant S_ .f32 0x00000000#32),
    unary main_cst_15 main_v185 (broadcastInDim S100000x128 ![] bcast_S_S100000x128),
    unary main_v3 main_v186 (broadcastInDim S1600000x1 ![0] bcast_S1600000_S1600000x1_0),
    ternary main_v185 main_v186 main_v184 main_v187 (fun x i u => Host.scatterAdd scatter_S100000x128_S1600000x1_S1600000x128_1_0_0_1 x i u),
    unary main_arg3 main_v188 ((extractStridedSlice S1 ![3] · slices_S4_S1_3)),
    reshape main_v188 main_v189 rfl shapeCasts_S1_S_,
    nullary main_cst_16 (constant S_ .f32 0x3F800000#32),
    binary main_cst_16 main_v189 main_v190 addf,
    unary main_v190 main_v191 (broadcastInDim S100000x128 ![] bcast_S_S100000x128),
    binary main_v191 main_v177 main_v192 mulf,
    binary main_v192 main_v187 main_v193 addf,
    unary main_arg4 main_v194 ((extractStridedSlice S1x128x128 ![3, 0, 0] · slices_S4x128x128_S1x128x128_3_0_0)),
    reshape main_v194 main_v195 rfl shapeCasts_S1x128x128_S128x128,
    binary main_v193 main_v195 main_v196 (fun l r => Host.dotGeneral dot_S100000x128_S128x128_S100000x128_1_0_0_1_n_n none l r),
    unary main_arg5 main_v197 ((extractStridedSlice S1x128 ![3, 0] · slices_S4x128_S1x128_3_0)),
    reshape main_v197 main_v198 rfl shapeCasts_S1x128_S128,
    unary main_v198 main_v199 (broadcastInDim S1x128 ![1] bcast_S128_S1x128_1),
    unary main_v199 main_v200 (broadcastInDim S100000x128 ![0, 1] bcast_S1x128_S100000x128_0_1),
    binary main_v196 main_v200 main_v201 addf,
    TRef.nullary (TRef.of (T := ⟨S_, .f32⟩) main_call9_cst) (constant S_ .f32 0x00000000#32),
    TRef.unary (TRef.of (T := ⟨S_, .f32⟩) main_call9_cst) (TRef.of (T := ⟨S100000x128, .f32⟩) main_call9_v0) (broadcastInDim S100000x128 ![] bcast_S_S100000x128),
    TRef.binary (TRef.of (T := ⟨S100000x128, .f32⟩) main_v201) (TRef.of (T := ⟨S100000x128, .f32⟩) main_call9_v0) (TRef.of (T := ⟨S100000x128, .f32⟩) main_v202) maximumf,
    unary main_arg8 main_v203 ((extractStridedSlice S1x128 ![3, 0] · slices_S4x128_S1x128_3_0)),
    reshape main_v203 main_v204 rfl shapeCasts_S1x128_S128,
    unary main_v204 main_v205 (broadcastInDim S1x128 ![1] bcast_S128_S1x128_1),
    unary main_v205 main_v206 (broadcastInDim S100000x128 ![0, 1] bcast_S1x128_S100000x128_0_1),
    binary main_v202 main_v206 main_v207 subf,
    unary main_arg9 main_v208 ((extractStridedSlice S1x128 ![3, 0] · slices_S4x128_S1x128_3_0)),
    reshape main_v208 main_v209 rfl shapeCasts_S1x128_S128,
    nullary main_cst_17 (constant S_ .f32 0x3727C5AC#32),
    unary main_cst_17 main_v210 (broadcastInDim S128 ![] bcast_S_S128),
    binary main_v209 main_v210 main_v211 addf,
    unary main_v211 main_v212 Host.rsqrt,
    unary main_v212 main_v213 (broadcastInDim S1x128 ![1] bcast_S128_S1x128_1),
    unary main_v213 main_v214 (broadcastInDim S100000x128 ![0, 1] bcast_S1x128_S100000x128_0_1),
    binary main_v207 main_v214 main_v215 mulf,
    unary main_arg6 main_v216 ((extractStridedSlice S1x128 ![3, 0] · slices_S4x128_S1x128_3_0)),
    reshape main_v216 main_v217 rfl shapeCasts_S1x128_S128,
    unary main_v217 main_v218 (broadcastInDim S1x128 ![1] bcast_S128_S1x128_1),
    unary main_v218 main_v219 (broadcastInDim S100000x128 ![0, 1] bcast_S1x128_S100000x128_0_1),
    binary main_v215 main_v219 main_v220 mulf,
    unary main_arg7 main_v221 ((extractStridedSlice S1x128 ![3, 0] · slices_S4x128_S1x128_3_0)),
    reshape main_v221 main_v222 rfl shapeCasts_S1x128_S128,
    unary main_v222 main_v223 (broadcastInDim S1x128 ![1] bcast_S128_S1x128_1),
    unary main_v223 main_v224 (broadcastInDim S100000x128 ![0, 1] bcast_S1x128_S100000x128_0_1),
    binary main_v220 main_v224 main_v225 addf,
    TRef.nullary (TRef.of (T := ⟨S_, .f32⟩) main_call10_cst) (constant S_ .f32 0x00000000#32),
    TRef.unary (TRef.of (T := ⟨S_, .f32⟩) main_call10_cst) (TRef.of (T := ⟨S100000x128, .f32⟩) main_call10_v0) (broadcastInDim S100000x128 ![] bcast_S_S100000x128),
    TRef.binary (TRef.of (T := ⟨S100000x128, .f32⟩) main_v225) (TRef.of (T := ⟨S100000x128, .f32⟩) main_call10_v0) (TRef.of (T := ⟨S100000x128, .f32⟩) main_v226) maximumf,
    unary main_arg10 main_v227 ((extractStridedSlice S1x128x128 ![3, 0, 0] · slices_S4x128x128_S1x128x128_3_0_0)),
    reshape main_v227 main_v228 rfl shapeCasts_S1x128x128_S128x128,
    binary main_v226 main_v228 main_v229 (fun l r => Host.dotGeneral dot_S100000x128_S128x128_S100000x128_1_0_0_1_n_n none l r),
    unary main_arg11 main_v230 ((extractStridedSlice S1x128 ![3, 0] · slices_S4x128_S1x128_3_0)),
    reshape main_v230 main_v231 rfl shapeCasts_S1x128_S128,
    unary main_v231 main_v232 (broadcastInDim S1x128 ![1] bcast_S128_S1x128_1),
    unary main_v232 main_v233 (broadcastInDim S100000x128 ![0, 1] bcast_S1x128_S100000x128_0_1),
    binary main_v229 main_v233 main_v234 addf,
    TRef.nullary (TRef.of (T := ⟨S_, .f32⟩) main_call11_cst) (constant S_ .f32 0x00000000#32),
    TRef.unary (TRef.of (T := ⟨S_, .f32⟩) main_call11_cst) (TRef.of (T := ⟨S100000x128, .f32⟩) main_call11_v0) (broadcastInDim S100000x128 ![] bcast_S_S100000x128),
    TRef.binary (TRef.of (T := ⟨S100000x128, .f32⟩) main_v234) (TRef.of (T := ⟨S100000x128, .f32⟩) main_call11_v0) (TRef.of (T := ⟨S100000x128, .f32⟩) main_v235) maximumf ]

abbrev opsHead : List (HloOp τ sig (Elt F)) :=
  [ nullary main_cst_18 (constant S_ .f32 0x00000000#32),
    unary main_cst_18 main_v236 (broadcastInDim S512x128 ![] bcast_S_S512x128),
    unary main_arg2 main_v237 (broadcastInDim S100000x1 ![0] bcast_S100000_S100000x1_0),
    ternary main_v236 main_v237 main_v235 main_v238 (fun x i u => Host.scatterAdd scatter_S512x128_S100000x1_S100000x128_1_0_0_1 x i u),
    binary main_v238 main_arg12 main_v239 (fun l r => Host.dotGeneral dot_S512x128_S128x128_S512x128_1_0_0_1_n_n none l r),
    unary main_arg13 main_v240 (broadcastInDim S1x128 ![1] bcast_S128_S1x128_1),
    unary main_v240 main_v241 (broadcastInDim S512x128 ![0, 1] bcast_S1x128_S512x128_0_1),
    binary main_v239 main_v241 main_v242 addf,
    TRef.nullary (TRef.of (T := ⟨S_, .f32⟩) main_call12_cst) (constant S_ .f32 0x00000000#32),
    TRef.unary (TRef.of (T := ⟨S_, .f32⟩) main_call12_cst) (TRef.of (T := ⟨S512x128, .f32⟩) main_call12_v0) (broadcastInDim S512x128 ![] bcast_S_S512x128),
    TRef.binary (TRef.of (T := ⟨S512x128, .f32⟩) main_v242) (TRef.of (T := ⟨S512x128, .f32⟩) main_call12_v0) (TRef.of (T := ⟨S512x128, .f32⟩) main_v243) maximumf,
    binary main_v243 main_arg14 main_v244 (fun l r => Host.dotGeneral dot_S512x128_S128x64_S512x64_1_0_0_1_n_n none l r),
    unary main_arg15 main_v245 (broadcastInDim S1x64 ![1] bcast_S64_S1x64_1),
    unary main_v245 main_v246 (broadcastInDim S512x64 ![0, 1] bcast_S1x64_S512x64_0_1),
    binary main_v244 main_v246 main_v247 (addf) ]

abbrev ops : List (HloOp τ sig (Elt F)) := opsL0 ++ (opsL1 ++ (opsL2 ++ (opsL3 ++ opsHead)))

theorem after_ops (W : Valuation τ sig (Elt F)) :
    after ops W = after opsHead (after opsL3 (after opsL2 (after opsL1 (after opsL0 W)))) := by
  show after (opsL0 ++ (opsL1 ++ (opsL2 ++ (opsL3 ++ opsHead)))) W = _
  rw [after_append, after_append, after_append, after_append]

abbrev opsL0_W : List (Ref sig .tc) := [main_v0, main_v1, main_v2, main_v3, main_c, main_v4, main_v5, main_c_0, main_v6, main_v7, main_v8, main_v9, main_v10, main_cst, main_v11, main_v12, main_v13, main_v14, main_v15, main_cst_1, main_v16, main_v17, main_v18, main_v19, main_v20, main_v21, main_v22, main_v23, main_v24, main_v25, main_v26, main_v27, main_call0_cst, main_call0_v0, main_v28, main_v29, main_v30, main_v31, main_v32, main_v33, main_v34, main_v35, main_cst_2, main_v36, main_v37, main_v38, main_v39, main_v40, main_v41, main_v42, main_v43, main_v44, main_v45, main_v46, main_v47, main_v48, main_v49, main_v50, main_v51, main_call1_cst, main_call1_v0, main_v52, main_v53, main_v54, main_v55, main_v56, main_v57, main_v58, main_v59, main_v60, main_call2_cst, main_call2_v0, main_v61]

abbrev opsL1_W : List (Ref sig .tc) := [main_c_3, main_v62, main_v63, main_c_4, main_v64, main_v65, main_v66, main_v67, main_v68, main_cst_5, main_v69, main_v70, main_v71, main_v72, main_v73, main_cst_6, main_v74, main_v75, main_v76, main_v77, main_v78, main_v79, main_v80, main_v81, main_v82, main_v83, main_v84, main_v85, main_call3_cst, main_call3_v0, main_v86, main_v87, main_v88, main_v89, main_v90, main_v91, main_v92, main_v93, main_cst_7, main_v94, main_v95, main_v96, main_v97, main_v98, main_v99, main_v100, main_v101, main_v102, main_v103, main_v104, main_v105, main_v106, main_v107, main_v108, main_v109, main_call4_cst, main_call4_v0, main_v110, main_v111, main_v112, main_v113, main_v114, main_v115, main_v116, main_v117, main_v118, main_call5_cst, main_call5_v0, main_v119]

abbrev opsL2_W : List (Ref sig .tc) := [main_c_8, main_v120, main_v121, main_c_9, main_v122, main_v123, main_v124, main_v125, main_v126, main_cst_10, main_v127, main_v128, main_v129, main_v130, main_v131, main_cst_11, main_v132, main_v133, main_v134, main_v135, main_v136, main_v137, main_v138, main_v139, main_v140, main_v141, main_v142, main_v143, main_call6_cst, main_call6_v0, main_v144, main_v145, main_v146, main_v147, main_v148, main_v149, main_v150, main_v151, main_cst_12, main_v152, main_v153, main_v154, main_v155, main_v156, main_v157, main_v158, main_v159, main_v160, main_v161, main_v162, main_v163, main_v164, main_v165, main_v166, main_v167, main_call7_cst, main_call7_v0, main_v168, main_v169, main_v170, main_v171, main_v172, main_v173, main_v174, main_v175, main_v176, main_call8_cst, main_call8_v0, main_v177]

abbrev opsL3_W : List (Ref sig .tc) := [main_c_13, main_v178, main_v179, main_c_14, main_v180, main_v181, main_v182, main_v183, main_v184, main_cst_15, main_v185, main_v186, main_v187, main_v188, main_v189, main_cst_16, main_v190, main_v191, main_v192, main_v193, main_v194, main_v195, main_v196, main_v197, main_v198, main_v199, main_v200, main_v201, main_call9_cst, main_call9_v0, main_v202, main_v203, main_v204, main_v205, main_v206, main_v207, main_v208, main_v209, main_cst_17, main_v210, main_v211, main_v212, main_v213, main_v214, main_v215, main_v216, main_v217, main_v218, main_v219, main_v220, main_v221, main_v222, main_v223, main_v224, main_v225, main_call10_cst, main_call10_v0, main_v226, main_v227, main_v228, main_v229, main_v230, main_v231, main_v232, main_v233, main_v234, main_call11_cst, main_call11_v0, main_v235]

abbrev opsHead_W : List (Ref sig .tc) := [main_cst_18, main_v236, main_v237, main_v238, main_v239, main_v240, main_v241, main_v242, main_call12_cst, main_call12_v0, main_v243, main_v244, main_v245, main_v246, main_v247]

set_option maxRecDepth 8192

theorem opsL0_sub : (opsL0 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., reshape_bufs_sub .., nullary_bufs_sub .., binary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., unary_bufs_sub .., binary_bufs_sub .., unary_bufs_sub .., reshape_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub ..⟩

theorem opsL0_fresh : (opsL0 : List (HloOp τ sig (Elt F))).Forall fun op => op.fresh = ∅ := by
  simp only [List.Forall]; repeat' constructor

theorem opsL0_writes : (opsL0 : List (HloOp τ sig (Elt F))).Forall fun op => op.writes ⊆ (opsL0_W.map (Proc.devRef (τ := τ) .tc)).toFinset := by
  simp only [List.Forall, nullary_writes, unary_writes, binary_writes, ternary_writes, reshape_writes,
    Finset.singleton_subset_iff, List.mem_toFinset]
  and_intros <;> exact List.mem_map_of_mem (by decide)

theorem opsL0_keeps (W : Valuation τ sig (Elt F)) (b : Ref sig .tc) (h : b ∉ opsL0_W) : after opsL0 W b = W b :=
  after_of_writes_sub opsL0 W opsL0_writes h

theorem opsL1_sub : (opsL1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., reshape_bufs_sub .., nullary_bufs_sub .., binary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., unary_bufs_sub .., binary_bufs_sub .., unary_bufs_sub .., reshape_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub ..⟩

theorem opsL1_fresh : (opsL1 : List (HloOp τ sig (Elt F))).Forall fun op => op.fresh = ∅ := by
  simp only [List.Forall]; repeat' constructor

theorem opsL1_writes : (opsL1 : List (HloOp τ sig (Elt F))).Forall fun op => op.writes ⊆ (opsL1_W.map (Proc.devRef (τ := τ) .tc)).toFinset := by
  simp only [List.Forall, nullary_writes, unary_writes, binary_writes, ternary_writes, reshape_writes,
    Finset.singleton_subset_iff, List.mem_toFinset]
  and_intros <;> exact List.mem_map_of_mem (by decide)

theorem opsL1_keeps (W : Valuation τ sig (Elt F)) (b : Ref sig .tc) (h : b ∉ opsL1_W) : after opsL1 W b = W b :=
  after_of_writes_sub opsL1 W opsL1_writes h

theorem opsL2_sub : (opsL2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., reshape_bufs_sub .., nullary_bufs_sub .., binary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., unary_bufs_sub .., binary_bufs_sub .., unary_bufs_sub .., reshape_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub ..⟩

theorem opsL2_fresh : (opsL2 : List (HloOp τ sig (Elt F))).Forall fun op => op.fresh = ∅ := by
  simp only [List.Forall]; repeat' constructor

theorem opsL2_writes : (opsL2 : List (HloOp τ sig (Elt F))).Forall fun op => op.writes ⊆ (opsL2_W.map (Proc.devRef (τ := τ) .tc)).toFinset := by
  simp only [List.Forall, nullary_writes, unary_writes, binary_writes, ternary_writes, reshape_writes,
    Finset.singleton_subset_iff, List.mem_toFinset]
  and_intros <;> exact List.mem_map_of_mem (by decide)

theorem opsL2_keeps (W : Valuation τ sig (Elt F)) (b : Ref sig .tc) (h : b ∉ opsL2_W) : after opsL2 W b = W b :=
  after_of_writes_sub opsL2 W opsL2_writes h

theorem opsL3_sub : (opsL3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., reshape_bufs_sub .., nullary_bufs_sub .., binary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., unary_bufs_sub .., binary_bufs_sub .., unary_bufs_sub .., reshape_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub ..⟩

theorem opsL3_fresh : (opsL3 : List (HloOp τ sig (Elt F))).Forall fun op => op.fresh = ∅ := by
  simp only [List.Forall]; repeat' constructor

theorem opsL3_writes : (opsL3 : List (HloOp τ sig (Elt F))).Forall fun op => op.writes ⊆ (opsL3_W.map (Proc.devRef (τ := τ) .tc)).toFinset := by
  simp only [List.Forall, nullary_writes, unary_writes, binary_writes, ternary_writes, reshape_writes,
    Finset.singleton_subset_iff, List.mem_toFinset]
  and_intros <;> exact List.mem_map_of_mem (by decide)

theorem opsL3_keeps (W : Valuation τ sig (Elt F)) (b : Ref sig .tc) (h : b ∉ opsL3_W) : after opsL3 W b = W b :=
  after_of_writes_sub opsL3 W opsL3_writes h

theorem opsHead_sub : (opsHead : List (HloOp τ sig (Elt F))).Forall fun op => op.bufs ⊆ tcRefs τ sig :=
  ⟨nullary_bufs_sub .., unary_bufs_sub .., unary_bufs_sub .., ternary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

theorem opsHead_fresh : (opsHead : List (HloOp τ sig (Elt F))).Forall fun op => op.fresh = ∅ := by
  simp only [List.Forall]; repeat' constructor

theorem opsHead_writes : (opsHead : List (HloOp τ sig (Elt F))).Forall fun op => op.writes ⊆ (opsHead_W.map (Proc.devRef (τ := τ) .tc)).toFinset := by
  simp only [List.Forall, nullary_writes, unary_writes, binary_writes, ternary_writes, reshape_writes,
    Finset.singleton_subset_iff, List.mem_toFinset]
  and_intros <;> exact List.mem_map_of_mem (by decide)

theorem opsHead_keeps (W : Valuation τ sig (Elt F)) (b : Ref sig .tc) (h : b ∉ opsHead_W) : after opsHead W b = W b :=
  after_of_writes_sub opsHead W opsHead_writes h

set_option maxRecDepth 8192 in
set_option maxHeartbeats 4000000 in

theorem main_eq (c : Dev nD) : main (F := F) c = seq ops := rfl

theorem scopedRefs_eq : (Finset.univ.filter fun b : Ref sig .tc => b.isScoped) = ∅ := by decide

theorem scopedSems_eq : (Finset.univ.filter fun sm : SemLoc sig => sm.isScoped .tc) = ∅ := by decide

theorem ops_sub : (ops : List (HloOp τ sig (Elt F))).Forall fun op => op.bufs ⊆ tcRefs τ sig :=
  List.forall_append.mpr ⟨opsL0_sub, List.forall_append.mpr ⟨opsL1_sub, List.forall_append.mpr ⟨opsL2_sub,
    List.forall_append.mpr ⟨opsL3_sub, opsHead_sub⟩⟩⟩⟩

theorem ops_fresh : (ops : List (HloOp τ sig (Elt F))).Forall fun op => op.fresh = ∅ :=
  List.forall_append.mpr ⟨opsL0_fresh, List.forall_append.mpr ⟨opsL1_fresh, List.forall_append.mpr ⟨opsL2_fresh,
    List.forall_append.mpr ⟨opsL3_fresh, opsHead_fresh⟩⟩⟩⟩

theorem run_fold (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after ops (launchContents m c) (Proc.devRef .tc b) :=
  run_seq scopedRefs_eq scopedSems_eq defs main (fun _ => ops) main_eq (fun _ => ops_sub) m ρ
    (fun _ => List.forall_iff_forall_mem.mp ops_fresh)

end Cert.ReferenceIdeal.Hand

end
-- ==== Proof.Ref.LayerMath.lean ====
import proofs.«428851_j84464826843159_1_alg».proof.Proof.Gen.ReferenceIdeal
import proofs.«428851_j84464826843159_1_alg».proof.Proof.Spec
import proofs.«428851_j84464826843159_1_alg».proof.Proof.LibRowOps
import Idealize.ShloMosaic.Lib.ValueIdx
import Idealize.ShloMosaic.Lib.Pipeline.Value
import Idealize.ShloMosaic.Lib.ValueLayout
import Idealize.ShloMosaic.PureOps.Ideal
import Idealize.ShloMosaic.PureOps.Ideal.Laws

set_option maxRecDepth 16384

noncomputable section

open scoped BigOperators

namespace Cert.ReferenceIdeal.Hand

open Cert.ReferenceIdeal Cert.ReferenceIdeal.Gen Idealize.ShloMosaic Idealize.ShloMosaic.ValueIdx

section Stacked
variable {α : Type}

theorem stackRow_apply (o : Nat) (ho : o < 4) (P : S4x128.Idx → α) (h : S4x128.Slices ![o, 0] S1x128)
    (hc : S1x128.ShapeCasts S128) (k : Fin 128) :
    shapeCast S128 (extractStridedSlice S1x128 ![o, 0] P h) hc (ix1 k) = P (ix2 ⟨o, ho⟩ k) :=
  (shapeCast_1a_a_apply _ hc k).trans (slice2_axis0_apply o P h 0 k ⟨o, ho⟩ rfl)

theorem stackMat_apply (o : Nat) (ho : o < 4) (P : S4x128x128.Idx → α) (h : S4x128x128.Slices ![o, 0, 0] S1x128x128)
    (hc : S1x128x128.ShapeCasts S128x128) (j k : Fin 128) :
    shapeCast S128x128 (extractStridedSlice S1x128x128 ![o, 0, 0] P h) hc (ix2 j k) = P (ix3 ⟨o, ho⟩ j k) :=
  (shapeCast_1ab_ab_apply _ hc j k).trans (extractStridedSlice_apply _ P h _ _ fun a => by
    match a with
    | ⟨0, _⟩ => rfl
    | ⟨1, _⟩ => exact (Nat.zero_add _).symm
    | ⟨2, _⟩ => exact (Nat.zero_add _).symm)

theorem stackScalar_apply (o : Nat) (ho : o < 4) (P : S4.Idx → α) (h : S4.Slices ![o] S1) (hc : S1.ShapeCasts S_)
    (i : S_.Idx) : shapeCast S_ (extractStridedSlice S1 ![o] P h) hc i = P (ix1 ⟨o, ho⟩) :=
  (shapeCast_apply _ hc i (ix1 (0 : Fin 1)) (by
    rw [Shape.rowMajor_val_one]
    exact (Shape.rowMajorPi_zero _ _).symm)).trans (extractStridedSlice_apply _ P h _ _ fun a => by
    match a with
    | ⟨0, _⟩ => rfl)

theorem edgeRow_apply (o : Nat) (ho : o < 2) (E : S2x1600000.Idx → α) (h : S2x1600000.Slices ![o, 0] S1x1600000)
    (hc : S1x1600000.ShapeCasts S1600000) (e : Fin 1600000) :
    shapeCast S1600000 (extractStridedSlice S1x1600000 ![o, 0] E h) hc (ix1 e) = E (ix2 ⟨o, ho⟩ e) :=
  (shapeCast_1a_a_apply _ hc e).trans (slice2_axis0_apply o E h 0 e ⟨o, ho⟩ rfl)

end Stacked

section Bcast
variable {α : Type}

theorem scalarBcast_apply {t : Shape} (hb : S_.BroadcastsInDim t (![] : Fin 0 → Fin t.rank)) (c : S_.Idx → α) (j : t.Idx) :
    broadcastInDim t ![] hb c j = c ix0 :=
  broadcastInDim_apply _ hb c j ix0 fun a => a.elim0

theorem rowBcast_apply (hb1 : S128.BroadcastsInDim S1x128 (![1] : Fin 1 → Fin S1x128.rank))
    (hb2 : S1x128.BroadcastsInDim S100000x128 (![0, 1] : Fin 2 → Fin S100000x128.rank)) (v : S128.Idx → α)
    (r : Fin 100000) (q : Fin 128) :
    broadcastInDim S100000x128 ![0, 1] hb2 (broadcastInDim S1x128 ![1] hb1 v) (ix2 r q) = v (ix1 q) :=
  (broadcastInDim_apply _ hb2 _ (ix2 r q) (ix2 (0 : Fin 1) q) fun a => by
    match a with
    | ⟨0, _⟩ => show 0 = if (1 : Nat) = 1 then 0 else r.val; rw [if_pos rfl]
    | ⟨1, _⟩ => show q.val = if (128 : Nat) = 1 then 0 else q.val; rw [if_neg (by decide)]).trans
  (broadcastInDim_apply _ hb1 v (ix2 (0 : Fin 1) q) (ix1 q) fun a => by
    match a with
    | ⟨0, _⟩ => show q.val = if (128 : Nat) = 1 then 0 else q.val; rw [if_neg (by decide)])

theorem colBcast_apply (hb : S1600000.BroadcastsInDim S1600000x1 (![0] : Fin 1 → Fin S1600000x1.rank)) (v : S1600000.Idx → α)
    (e : Fin 1600000) : broadcastInDim S1600000x1 ![0] hb v (ix2 e 0) = v (ix1 e) :=
  broadcastInDim_apply _ hb v (ix2 e 0) (ix1 e) fun a => by
    match a with
    | ⟨0, _⟩ => show e.val = if (1600000 : Nat) = 1 then 0 else e.val; rw [if_neg (by decide)]

end Bcast

theorem wrapCol_apply (hb0 : S_.BroadcastsInDim S1600000 (![] : Fin 0 → Fin S1600000.rank))
    (hb : S1600000.BroadcastsInDim S1600000x1 (![0] : Fin 1 → Fin S1600000x1.rank)) (s : IVec S1600000 32) (e : Fin 1600000) :
    broadcastInDim S1600000x1 ![0] hb
        (select (cmpi .slt s (broadcastInDim S1600000 ![] hb0 (constantI S_ 32 0#32)))
          (addi s (broadcastInDim S1600000 ![] hb0 (constantI S_ 32 100000#32))) s) (ix2 e 0)
      = GinSpec.wrapRow (s (ix1 e)) := by
  rw [colBcast_apply]
  show Scalar.select (IntOp.cmpi .slt (s (ix1 e)) (broadcastInDim S1600000 ![] hb0 (constantI S_ 32 0#32) (ix1 e)))
      (IntOp.addi (s (ix1 e)) (broadcastInDim S1600000 ![] hb0 (constantI S_ 32 100000#32) (ix1 e))) (s (ix1 e)) = _
  rw [scalarBcast_apply, scalarBcast_apply]
  show Scalar.select (BitVec.ofBool ((s (ix1 e)).slt 0#32)) (s (ix1 e) + 100000#32) (s (ix1 e)) = _
  unfold GinSpec.wrapRow Scalar.select
  cases (s (ix1 e)).slt 0#32 <;> simp

section Aggregation
variable (X : FVec Ideal S100000x128 .f32) (s d : IVec S1600000 32)

def srcCol : IVec S1600000x1 32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

def aggTerm : FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 d)
    (Host.gather gather_S100000x128_S1600000x1_S1600000x128_1_0_n_n_0_1_1128 X (srcCol s))

theorem aggTerm_apply (r : Fin 100000) (p : Fin 128) :
    aggTerm X s d (ix2 r p)
      = GinSpec.agg (fun r p => X (ix2 r p)) (fun e => s (ix1 e)) (fun e => d (ix1 e)) r p := by
  have hg : gather_S100000x128_S1600000x1_S1600000x128_1_0_n_n_0_1_1128
      = RowOps.gatherDims 100000 1600000 128 gather_S100000x128_S1600000x1_S1600000x128_1_0_n_n_0_1_1128_wf := rfl
  have hs : scatter_S100000x128_S1600000x1_S1600000x128_1_0_0_1
      = RowOps.scatterDims 100000 1600000 128 scatter_S100000x128_S1600000x1_S1600000x128_1_0_0_1_wf := rfl
  unfold aggTerm GinSpec.agg
  rw [hg, hs, RowOps.scatterAdd_apply, scalarBcast_apply, constant_apply]
  unfold GinSpec.zero
  refine congrArg (Ideal.ofBits .f32 0x00000000#32 + ·) ?_
  refine Finset.sum_congr (Finset.filter_congr fun e _ => by rw [colBcast_apply]) fun e _ => ?_
  rw [RowOps.gather_apply (by decide : 0 < 100000)]
  unfold srcCol
  rw [wrapCol_apply]

variable (o : Nat) (ho : o < 4) (EPS : FVec Ideal S4 .f32) (h1 : S4.Slices ![o] S1)

def preTerm : FVec Ideal S100000x128 .f32 :=
  addf (mulf (broadcastInDim S100000x128 ![] bcast_S_S100000x128
      (addf (constant (F := Ideal) S_ .f32 0x3F800000#32) (shapeCast S_ (extractStridedSlice S1 ![o] EPS h1) shapeCasts_S1_S_))) X)
    (aggTerm X s d)

theorem preTerm_apply (r : Fin 100000) (p : Fin 128) :
    preTerm X s d o EPS h1 (ix2 r p)
      = GinSpec.pre (EPS (ix1 ⟨o, ho⟩)) (fun r p => X (ix2 r p)) (fun e => s (ix1 e)) (fun e => d (ix1 e)) r p := by
  unfold preTerm GinSpec.pre
  rw [addf_apply, mulf_apply, aggTerm_apply, scalarBcast_apply, addf_apply, stackScalar_apply o ho, constant_apply]
  rfl

end Aggregation

section Dot

theorem dotLhs_row (i : S100000x128.Idx) (q : dot_S100000x128_S128x128_S100000x128_1_0_0_1_n_n.contr.Idx) :
    (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide),
    dif_pos (show (0 : Fin S100000x128.rank) ∈ dot_S100000x128_S128x128_S100000x128_1_0_0_1_n_n.lhsNonContracting by decide)]
  rfl
theorem dotLhs_contr (i : S100000x128.Idx) (q : dot_S100000x128_S128x128_S100000x128_1_0_0_1_n_n.contr.Idx) :
    (dot_S100000x128_S128x128_S100000x128_1_0_0_1_n_n.lhsIdx i q 1).val = (q ⟨0, by decide⟩).val :=
  dot_S100000x128_S128x128_S100000x128_1_0_0_1_n_n.lhsIdx_val_of_single rfl i q
theorem dotRhs_contr (i : S100000x128.Idx) (q : dot_S100000x128_S128x128_S100000x128_1_0_0_1_n_n.contr.Idx) :
    (dot_S100000x128_S128x128_S100000x128_1_0_0_1_n_n.rhsIdx i q 0).val = (q ⟨0, by decide⟩).val :=
  dot_S100000x128_S128x128_S100000x128_1_0_0_1_n_n.rhsIdx_val_of_single rfl i q
theorem dotRhs_col (i : S100000x128.Idx) (q : dot_S100000x128_S128x128_S100000x128_1_0_0_1_n_n.contr.Idx) :
    (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide),
    dif_pos (show (1 : Fin S128x128.rank) ∈ dot_S100000x128_S128x128_S100000x128_1_0_0_1_n_n.rhsNonContracting by decide)]
  rfl

theorem dot_apply (A : FVec Ideal S100000x128 .f32) (B : FVec Ideal S128x128 .f32) (r : Fin 100000) (q : Fin 128) :
    Host.dotGeneral (F := Ideal) dot_S100000x128_S128x128_S100000x128_1_0_0_1_n_n none A B (ix2 r q)
      = ∑ k : Fin 128, A (ix2 r k) * B (ix2 k q) := by
  simp only [Host.dotGeneral]
  rw [Ideal.dotGeneral_apply, ← Equiv.sum_comp (contrEquiv1 dot_S100000x128_S128x128_S100000x128_1_0_0_1_n_n 128 rfl rfl).symm]
  refine Finset.sum_congr rfl fun k _ => ?_
  have hk := contrEquiv1_symm_val dot_S100000x128_S128x128_S100000x128_1_0_0_1_n_n 128 rfl rfl k
  have el : dot_S100000x128_S128x128_S100000x128_1_0_0_1_n_n.lhsIdx (ix2 r q)
      ((contrEquiv1 dot_S100000x128_S128x128_S100000x128_1_0_0_1_n_n 128 rfl rfl).symm k) = ix2 r k :=
    funext fun a => Fin.ext (by
      match a with
      | ⟨0, _⟩ => exact dotLhs_row _ _
      | ⟨1, _⟩ => exact (dotLhs_contr _ _).trans hk)
  have er : dot_S100000x128_S128x128_S100000x128_1_0_0_1_n_n.rhsIdx (ix2 r q)
      ((contrEquiv1 dot_S100000x128_S128x128_S100000x128_1_0_0_1_n_n 128 rfl rfl).symm k) = ix2 k q :=
    funext fun a => Fin.ext (by
      match a with
      | ⟨0, _⟩ => exact (dotRhs_contr _ _).trans hk
      | ⟨1, _⟩ => exact dotRhs_col _ _)
  rw [el, er]

end Dot

section Perceptron
variable (o : Nat) (ho : o < 4) (h2 : S4x128.Slices ![o, 0] S1x128) (h3 : S4x128x128.Slices ![o, 0, 0] S1x128x128)

def vecOf (P : FVec Ideal S4x128 .f32) : FVec Ideal S128 .f32 :=
  shapeCast S128 (extractStridedSlice S1x128 ![o, 0] P h2) shapeCasts_S1x128_S128

def rowsOf (v : FVec Ideal S128 .f32) : FVec Ideal S100000x128 .f32 :=
  broadcastInDim S100000x128 ![0, 1] bcast_S1x128_S100000x128_0_1 (broadcastInDim S1x128 ![1] bcast_S128_S1x128_1 v)

def matOf (P : FVec Ideal S4x128x128 .f32) : FVec Ideal S128x128 .f32 :=
  shapeCast S128x128 (extractStridedSlice S1x128x128 ![o, 0, 0] P h3) shapeCasts_S1x128x128_S128x128

def reluT (A : FVec Ideal S100000x128 .f32) : FVec Ideal S100000x128 .f32 :=
  maximumf A (broadcastInDim S100000x128 ![] bcast_S_S100000x128 (constant (F := Ideal) S_ .f32 0x00000000#32))

def affineT (A : FVec Ideal S100000x128 .f32) (M : FVec Ideal S128x128 .f32) (b : FVec Ideal S128 .f32) :
    FVec Ideal S100000x128 .f32 :=
  addf (Host.dotGeneral (F := Ideal) dot_S100000x128_S128x128_S100000x128_1_0_0_1_n_n none A M) (rowsOf b)

def normT (A : FVec Ideal S100000x128 .f32) (g be mu var : FVec Ideal S128 .f32) : FVec Ideal S100000x128 .f32 :=
  addf (mulf (mulf (subf A (rowsOf mu))
      (rowsOf (Host.rsqrt (F := Ideal) (addf var (broadcastInDim S128 ![] bcast_S_S128 (constant (F := Ideal) S_ .f32 0x3727C5AC#32))))))
    (rowsOf g)) (rowsOf be)

theorem vecOf_apply (P : FVec Ideal S4x128 .f32) (k : Fin 128) : vecOf o h2 P (ix1 k) = P (ix2 ⟨o, ho⟩ k) :=
  stackRow_apply o ho P h2 _ k

theorem rowsOf_apply (v : FVec Ideal S128 .f32) (r : Fin 100000) (q : Fin 128) : rowsOf v (ix2 r q) = v (ix1 q) :=
  rowBcast_apply _ _ v r q

theorem matOf_apply (P : FVec Ideal S4x128x128 .f32) (j k : Fin 128) : matOf o h3 P (ix2 j k) = P (ix3 ⟨o, ho⟩ j k) :=
  stackMat_apply o ho P h3 _ j k

theorem reluT_apply (A : FVec Ideal S100000x128 .f32) (r : Fin 100000) (q : Fin 128) :
    reluT A (ix2 r q) = GinSpec.relu (A (ix2 r q)) := by
  unfold reluT GinSpec.relu GinSpec.zero
  rw [maximumf_apply, scalarBcast_apply, constant_apply]

theorem affineT_apply (A : FVec Ideal S100000x128 .f32) (M : FVec Ideal S128x128 .f32) (b : FVec Ideal S128 .f32)
    (r : Fin 100000) (q : Fin 128) :
    affineT A M b (ix2 r q) = GinSpec.affine (fun r k => A (ix2 r k)) (fun k q => M (ix2 k q)) (fun q => b (ix1 q)) r q := by
  unfold affineT GinSpec.affine
  rw [addf_apply, dot_apply, rowsOf_apply]

theorem normT_apply (A : FVec Ideal S100000x128 .f32) (g be mu var : FVec Ideal S128 .f32) (r : Fin 100000) (k : Fin 128) :
    normT A g be mu var (ix2 r k)
      = GinSpec.norm (fun k => g (ix1 k)) (fun k => be (ix1 k)) (fun k => mu (ix1 k)) (fun k => var (ix1 k))
          (fun r k => A (ix2 r k)) r k := by
  unfold normT GinSpec.norm GinSpec.bnEps
  rw [addf_apply, mulf_apply, mulf_apply, subf_apply, rowsOf_apply, rowsOf_apply, rowsOf_apply, rowsOf_apply]
  show (A (ix2 r k) - mu (ix1 k)) * FloatOps.hostUnary .rsqrt (var (ix1 k)
      + broadcastInDim S128 ![] bcast_S_S128 (constant (F := Ideal) S_ .f32 0x3727C5AC#32) (ix1 k)) * g (ix1 k) + be (ix1 k) = _
  rw [scalarBcast_apply, constant_apply, Ideal.hostUnary_rsqrt_def]

variable (H : FVec Ideal S100000x128 .f32) (W1s : FVec Ideal S4x128x128 .f32) (b1s gs bes mus vars : FVec Ideal S4x128 .f32)
  (W2s : FVec Ideal S4x128x128 .f32) (b2s : FVec Ideal S4x128 .f32)

def mlpTerm : FVec Ideal S100000x128 .f32 :=
  reluT (affineT
    (reluT (normT (reluT (affineT H (matOf o h3 W1s) (vecOf o h2 b1s)))
      (vecOf o h2 gs) (vecOf o h2 bes) (vecOf o h2 mus) (vecOf o h2 vars)))
    (matOf o h3 W2s) (vecOf o h2 b2s))

theorem mlpTerm_apply (r : Fin 100000) (q : Fin 128) :
    mlpTerm o h2 h3 H W1s b1s gs bes mus vars W2s b2s (ix2 r q)
      = GinSpec.mlp (fun r k => H (ix2 r k)) (fun j k => W1s (ix3 ⟨o, ho⟩ j k)) (fun k => b1s (ix2 ⟨o, ho⟩ k))
          (fun k => gs (ix2 ⟨o, ho⟩ k)) (fun k => bes (ix2 ⟨o, ho⟩ k)) (fun k => mus (ix2 ⟨o, ho⟩ k))
          (fun k => vars (ix2 ⟨o, ho⟩ k)) (fun j k => W2s (ix3 ⟨o, ho⟩ j k)) (fun k => b2s (ix2 ⟨o, ho⟩ k)) r q := by
  unfold mlpTerm GinSpec.mlp
  rw [reluT_apply, affineT_apply]
  simp only [reluT_apply, normT_apply, affineT_apply, vecOf_apply o ho, matOf_apply o ho]

end Perceptron

section Layer
variable (o : Nat) (ho : o < 4) (h1 : S4.Slices ![o] S1) (h2 : S4x128.Slices ![o, 0] S1x128)
  (h3 : S4x128x128.Slices ![o, 0, 0] S1x128x128)
  (X : FVec Ideal S100000x128 .f32) (s d : IVec S1600000 32) (EPS : FVec Ideal S4 .f32)
  (W1s : FVec Ideal S4x128x128 .f32) (b1s gs bes mus vars : FVec Ideal S4x128 .f32)
  (W2s : FVec Ideal S4x128x128 .f32) (b2s : FVec Ideal S4x128 .f32)

def layerTerm : FVec Ideal S100000x128 .f32 :=
  mlpTerm o h2 h3 (preTerm X s d o EPS h1) W1s b1s gs bes mus vars W2s b2s

theorem layerTerm_apply (r : Fin 100000) (p : Fin 128) :
    layerTerm o h1 h2 h3 X s d EPS W1s b1s gs bes mus vars W2s b2s (ix2 r p)
      = GinSpec.layer (EPS (ix1 ⟨o, ho⟩)) (fun j k => W1s (ix3 ⟨o, ho⟩ j k)) (fun k => b1s (ix2 ⟨o, ho⟩ k))
          (fun k => gs (ix2 ⟨o, ho⟩ k)) (fun k => bes (ix2 ⟨o, ho⟩ k)) (fun k => mus (ix2 ⟨o, ho⟩ k))
          (fun k => vars (ix2 ⟨o, ho⟩ k)) (fun j k => W2s (ix3 ⟨o, ho⟩ j k)) (fun k => b2s (ix2 ⟨o, ho⟩ k))
          (fun e => s (ix1 e)) (fun e => d (ix1 e)) (fun r p => X (ix2 r p)) r p := by
  unfold layerTerm GinSpec.layer
  rw [mlpTerm_apply o ho]
  simp only [preTerm_apply X s d o ho]

end Layer

end Cert.ReferenceIdeal.Hand

end
-- ==== Proof.Ref.Layer0.lean ====
import proofs.«428851_j84464826843159_1_alg».proof.Proof.Ref.Run
import proofs.«428851_j84464826843159_1_alg».proof.Proof.Ref.LayerMath

set_option maxRecDepth 16384

noncomputable section

namespace Cert.ReferenceIdeal.Hand

open Cert.ReferenceIdeal Cert.ReferenceIdeal.Gen Idealize.ShloMosaic Idealize.ShloMosaic.TcCoe Idealize.ShloMosaic.ValueIdx

variable (W : Valuation τ sig (Elt Ideal))

theorem layer0_src (e : Fin 1600000) : StableHlo.after opsL0 W main_v1 (ix1 e) = W main_arg1 (ix2 0 e) := by
  have h : (StableHlo.after opsL0 W main_v1 : S1600000.Idx → BitVec 32)
      = shapeCast S1600000 (extractStridedSlice S1x1600000 ![0, 0] (W main_arg1) slices_S2x1600000_S1x1600000_0_0)
          shapeCasts_S1x1600000_S1600000 := by
    after_results_simp <;> rfl
  rw [h]
  exact edgeRow_apply 0 (by decide) _ _ _ e

theorem layer0_dst (e : Fin 1600000) : StableHlo.after opsL0 W main_v3 (ix1 e) = W main_arg1 (ix2 1 e) := by
  have h : (StableHlo.after opsL0 W main_v3 : S1600000.Idx → BitVec 32)
      = shapeCast S1600000 (extractStridedSlice S1x1600000 ![1, 0] (W main_arg1) slices_S2x1600000_S1x1600000_1_0)
          shapeCasts_S1x1600000_S1600000 := by
    after_results_simp <;> rfl
  rw [h]
  exact edgeRow_apply 1 (by decide) _ _ _ e

theorem layer0_term : (StableHlo.after opsL0 W main_v61 : S100000x128.Idx → EReal)
    = layerTerm 0 slices_S4_S1_0 slices_S4x128_S1x128_0_0 slices_S4x128x128_S1x128x128_0_0_0 (W main_arg0)
        (shapeCast S1600000 (extractStridedSlice S1x1600000 ![0, 0] (W main_arg1) slices_S2x1600000_S1x1600000_0_0)
          shapeCasts_S1x1600000_S1600000)
        (shapeCast S1600000 (extractStridedSlice S1x1600000 ![1, 0] (W main_arg1) slices_S2x1600000_S1x1600000_1_0)
          shapeCasts_S1x1600000_S1600000)
        (W main_arg3) (W main_arg4) (W main_arg5) (W main_arg6) (W main_arg7) (W main_arg8) (W main_arg9) (W main_arg10)
        (W main_arg11) := by
  after_results_simp <;> rfl

theorem layer0_val (r : Fin 100000) (p : Fin 128) :
    StableHlo.after opsL0 W main_v61 (ix2 r p)
      = GinSpec.layer (W main_arg3 (ix1 0)) (fun j k => W main_arg4 (ix3 0 j k)) (fun k => W main_arg5 (ix2 0 k))
          (fun k => W main_arg6 (ix2 0 k)) (fun k => W main_arg7 (ix2 0 k)) (fun k => W main_arg8 (ix2 0 k))
          (fun k => W main_arg9 (ix2 0 k)) (fun j k => W main_arg10 (ix3 0 j k)) (fun k => W main_arg11 (ix2 0 k))
          (fun e => W main_arg1 (ix2 0 e)) (fun e => W main_arg1 (ix2 1 e)) (fun r p => W main_arg0 (ix2 r p)) r p := by
  rw [layer0_term, layerTerm_apply 0 (by decide)]
  simp only [edgeRow_apply 0 (by decide), edgeRow_apply 1 (by decide)]
  rfl

end Cert.ReferenceIdeal.Hand

end
-- ==== Proof.Ref.Layer1.lean ====
import proofs.«428851_j84464826843159_1_alg».proof.Proof.Ref.Run
import proofs.«428851_j84464826843159_1_alg».proof.Proof.Ref.LayerMath

set_option maxRecDepth 16384

noncomputable section

namespace Cert.ReferenceIdeal.Hand

open Cert.ReferenceIdeal Cert.ReferenceIdeal.Gen Idealize.ShloMosaic Idealize.ShloMosaic.TcCoe Idealize.ShloMosaic.ValueIdx

variable (W : Valuation τ sig (Elt Ideal))

theorem layer1_term : (StableHlo.after opsL1 W main_v119 : S100000x128.Idx → EReal)
    = layerTerm 1 slices_S4_S1_1 slices_S4x128_S1x128_1_0 slices_S4x128x128_S1x128x128_1_0_0 (W main_v61) (W main_v1)
        (W main_v3) (W main_arg3) (W main_arg4) (W main_arg5) (W main_arg6) (W main_arg7) (W main_arg8) (W main_arg9)
        (W main_arg10) (W main_arg11) := by
  after_results_simp <;> rfl

theorem layer1_val (r : Fin 100000) (p : Fin 128) :
    StableHlo.after opsL1 W main_v119 (ix2 r p)
      = GinSpec.layer (W main_arg3 (ix1 1)) (fun j k => W main_arg4 (ix3 1 j k)) (fun k => W main_arg5 (ix2 1 k))
          (fun k => W main_arg6 (ix2 1 k)) (fun k => W main_arg7 (ix2 1 k)) (fun k => W main_arg8 (ix2 1 k))
          (fun k => W main_arg9 (ix2 1 k)) (fun j k => W main_arg10 (ix3 1 j k)) (fun k => W main_arg11 (ix2 1 k))
          (fun e => W main_v1 (ix1 e)) (fun e => W main_v3 (ix1 e)) (fun r p => W main_v61 (ix2 r p)) r p := by
  rw [layer1_term, layerTerm_apply 1 (by decide)]
  rfl

end Cert.ReferenceIdeal.Hand

end
-- ==== Proof.Ref.Layer2.lean ====
import proofs.«428851_j84464826843159_1_alg».proof.Proof.Ref.Run
import proofs.«428851_j84464826843159_1_alg».proof.Proof.Ref.LayerMath

set_option maxRecDepth 16384

noncomputable section

namespace Cert.ReferenceIdeal.Hand

open Cert.ReferenceIdeal Cert.ReferenceIdeal.Gen Idealize.ShloMosaic Idealize.ShloMosaic.TcCoe Idealize.ShloMosaic.ValueIdx

variable (W : Valuation τ sig (Elt Ideal))

theorem layer2_term : (StableHlo.after opsL2 W main_v177 : S100000x128.Idx → EReal)
    = layerTerm 2 slices_S4_S1_2 slices_S4x128_S1x128_2_0 slices_S4x128x128_S1x128x128_2_0_0 (W main_v119) (W main_v1)
        (W main_v3) (W main_arg3) (W main_arg4) (W main_arg5) (W main_arg6) (W main_arg7) (W main_arg8) (W main_arg9)
        (W main_arg10) (W main_arg11) := by
  after_results_simp <;> rfl

theorem layer2_val (r : Fin 100000) (p : Fin 128) :
    StableHlo.after opsL2 W main_v177 (ix2 r p)
      = GinSpec.layer (W main_arg3 (ix1 2)) (fun j k => W main_arg4 (ix3 2 j k)) (fun k => W main_arg5 (ix2 2 k))
          (fun k => W main_arg6 (ix2 2 k)) (fun k => W main_arg7 (ix2 2 k)) (fun k => W main_arg8 (ix2 2 k))
          (fun k => W main_arg9 (ix2 2 k)) (fun j k => W main_arg10 (ix3 2 j k)) (fun k => W main_arg11 (ix2 2 k))
          (fun e => W main_v1 (ix1 e)) (fun e => W main_v3 (ix1 e)) (fun r p => W main_v119 (ix2 r p)) r p := by
  rw [layer2_term, layerTerm_apply 2 (by decide)]
  rfl

end Cert.ReferenceIdeal.Hand

end
-- ==== Proof.Ref.Layer3.lean ====
import proofs.«428851_j84464826843159_1_alg».proof.Proof.Ref.Run
import proofs.«428851_j84464826843159_1_alg».proof.Proof.Ref.LayerMath

set_option maxRecDepth 16384

noncomputable section

namespace Cert.ReferenceIdeal.Hand

open Cert.ReferenceIdeal Cert.ReferenceIdeal.Gen Idealize.ShloMosaic Idealize.ShloMosaic.TcCoe Idealize.ShloMosaic.ValueIdx

variable (W : Valuation τ sig (Elt Ideal))

theorem layer3_term : (StableHlo.after opsL3 W main_v235 : S100000x128.Idx → EReal)
    = layerTerm 3 slices_S4_S1_3 slices_S4x128_S1x128_3_0 slices_S4x128x128_S1x128x128_3_0_0 (W main_v177) (W main_v1)
        (W main_v3) (W main_arg3) (W main_arg4) (W main_arg5) (W main_arg6) (W main_arg7) (W main_arg8) (W main_arg9)
        (W main_arg10) (W main_arg11) := by
  after_results_simp <;> rfl

theorem layer3_val (r : Fin 100000) (p : Fin 128) :
    StableHlo.after opsL3 W main_v235 (ix2 r p)
      = GinSpec.layer (W main_arg3 (ix1 3)) (fun j k => W main_arg4 (ix3 3 j k)) (fun k => W main_arg5 (ix2 3 k))
          (fun k => W main_arg6 (ix2 3 k)) (fun k => W main_arg7 (ix2 3 k)) (fun k => W main_arg8 (ix2 3 k))
          (fun k => W main_arg9 (ix2 3 k)) (fun j k => W main_arg10 (ix3 3 j k)) (fun k => W main_arg11 (ix2 3 k))
          (fun e => W main_v1 (ix1 e)) (fun e => W main_v3 (ix1 e)) (fun r p => W main_v177 (ix2 r p)) r p := by
  rw [layer3_term, layerTerm_apply 3 (by decide)]
  rfl

end Cert.ReferenceIdeal.Hand

end
-- ==== Proof.Ref.Head.lean ====
import proofs.«428851_j84464826843159_1_alg».proof.Proof.Gen.ReferenceIdeal
import proofs.«428851_j84464826843159_1_alg».proof.Proof.Spec
import proofs.«428851_j84464826843159_1_alg».proof.Proof.LibRowOps
import Idealize.ShloMosaic.Lib.Pipeline.Value
import Idealize.ShloMosaic.Lib.ValueIdx
import Idealize.ShloMosaic.PureOps.Ideal.Laws
import proofs.«428851_j84464826843159_1_alg».proof.Proof.Ref.Run

set_option maxRecDepth 16384

noncomputable section

open scoped BigOperators

namespace Cert.ReferenceIdeal.Hand

open Cert.ReferenceIdeal Cert.ReferenceIdeal.Gen Idealize.ShloMosaic Idealize.ShloMosaic.ValueIdx

theorem zeros_apply (i : S512x128.Idx) :
    broadcastInDim S512x128 ![] bcast_S_S512x128 (constant (F := Ideal) S_ .f32 0x00000000#32) i = GinSpec.zero :=
  broadcastInDim_apply _ bcast_S_S512x128 _ i ix0 (fun a => a.elim0)

theorem idCol_apply (ids : IVec S100000 32) (n : Fin 100000) :
    broadcastInDim S100000x1 ![0] bcast_S100000_S100000x1_0 ids (ix2 n 0) = ids (ix1 n) :=
  broadcastInDim_apply _ bcast_S100000_S100000x1_0 ids (ix2 n 0) (ix1 n) (fun a => match a with
    | ⟨0, _⟩ => by show n.val = if (100000 : Nat) = 1 then 0 else n.val; rw [if_neg (by decide)])

theorem biasRows128_apply (b : FVec Ideal S128 .f32) (gr : Fin 512) (k : Fin 128) :
    broadcastInDim S512x128 ![0, 1] bcast_S1x128_S512x128_0_1 (broadcastInDim S1x128 ![1] bcast_S128_S1x128_1 b) (ix2 gr k)
      = b (ix1 k) := by
  rw [broadcastInDim_apply _ bcast_S1x128_S512x128_0_1 _ (ix2 gr k) (ix2 0 k) (fun a => match a with
    | ⟨0, _⟩ => by show 0 = if (1 : Nat) = 1 then 0 else gr.val; rw [if_pos rfl]
    | ⟨1, _⟩ => by show k.val = if (128 : Nat) = 1 then 0 else k.val; rw [if_neg (by decide)])]
  exact broadcastInDim_apply _ bcast_S128_S1x128_1 b (ix2 0 k) (ix1 k) (fun a => match a with
    | ⟨0, _⟩ => by show k.val = if (128 : Nat) = 1 then 0 else k.val; rw [if_neg (by decide)])

theorem biasRows64_apply (b : FVec Ideal S64 .f32) (gr : Fin 512) (o : Fin 64) :
    broadcastInDim S512x64 ![0, 1] bcast_S1x64_S512x64_0_1 (broadcastInDim S1x64 ![1] bcast_S64_S1x64_1 b) (ix2 gr o)
      = b (ix1 o) := by
  rw [broadcastInDim_apply _ bcast_S1x64_S512x64_0_1 _ (ix2 gr o) (ix2 0 o) (fun a => match a with
    | ⟨0, _⟩ => by show 0 = if (1 : Nat) = 1 then 0 else gr.val; rw [if_pos rfl]
    | ⟨1, _⟩ => by show o.val = if (64 : Nat) = 1 then 0 else o.val; rw [if_neg (by decide)])]
  exact broadcastInDim_apply _ bcast_S64_S1x64_1 b (ix2 0 o) (ix1 o) (fun a => match a with
    | ⟨0, _⟩ => by show o.val = if (64 : Nat) = 1 then 0 else o.val; rw [if_neg (by decide)])

theorem poolSum_apply (X : FVec Ideal S100000x128 .f32) (ids : IVec S100000 32) (gr : Fin 512) (j : Fin 128) :
    Host.scatterAdd (F := Ideal) scatter_S512x128_S100000x1_S100000x128_1_0_0_1
        (broadcastInDim S512x128 ![] bcast_S_S512x128 (constant (F := Ideal) S_ .f32 0x00000000#32))
        (broadcastInDim S100000x1 ![0] bcast_S100000_S100000x1_0 ids) X (ix2 gr j)
      = GinSpec.pool (fun n j => X (ix2 n j)) (fun n => ids (ix1 n)) gr j := by
  show Host.scatterAdd (F := Ideal) (RowOps.scatterDims 512 100000 128 scatter_S512x128_S100000x1_S100000x128_1_0_0_1_wf) _ _ _ _ = _
  rw [RowOps.scatterAdd_apply, zeros_apply]
  unfold GinSpec.pool
  refine congrArg (GinSpec.zero + ·) ?_
  exact Finset.sum_congr (Finset.filter_congr fun n _ => by rw [idCol_apply]) fun _ _ => rfl

theorem lhs_dot128_0 (i : S512x128.Idx) (q : dot_S512x128_S128x128_S512x128_1_0_0_1_n_n.contr.Idx) :
    (dot_S512x128_S128x128_S512x128_1_0_0_1_n_n.lhsIdx i q 0).val = (i 0).val := by
  unfold DotDims.lhsIdx
  rw [dif_neg (show ¬(0 : Fin S512x128.rank) ∈ dot_S512x128_S128x128_S512x128_1_0_0_1_n_n.lhsBatch by decide), dif_pos (show (0 : Fin S512x128.rank) ∈ dot_S512x128_S128x128_S512x128_1_0_0_1_n_n.lhsNonContracting by decide)]
  rfl
theorem lhs_dot128_1 (i : S512x128.Idx) (q : dot_S512x128_S128x128_S512x128_1_0_0_1_n_n.contr.Idx) :
    (dot_S512x128_S128x128_S512x128_1_0_0_1_n_n.lhsIdx i q 1).val = (q ⟨0, by decide⟩).val :=
  dot_S512x128_S128x128_S512x128_1_0_0_1_n_n.lhsIdx_val_of_single rfl i q
theorem rhs_dot128_0 (i : S512x128.Idx) (q : dot_S512x128_S128x128_S512x128_1_0_0_1_n_n.contr.Idx) :
    (dot_S512x128_S128x128_S512x128_1_0_0_1_n_n.rhsIdx i q 0).val = (q ⟨0, by decide⟩).val :=
  dot_S512x128_S128x128_S512x128_1_0_0_1_n_n.rhsIdx_val_of_single rfl i q
theorem rhs_dot128_1 (i : S512x128.Idx) (q : dot_S512x128_S128x128_S512x128_1_0_0_1_n_n.contr.Idx) :
    (dot_S512x128_S128x128_S512x128_1_0_0_1_n_n.rhsIdx i q 1).val = (i 1).val := by
  unfold DotDims.rhsIdx
  rw [dif_neg (show ¬(1 : Fin S128x128.rank) ∈ dot_S512x128_S128x128_S512x128_1_0_0_1_n_n.rhsBatch by decide), dif_pos (show (1 : Fin S128x128.rank) ∈ dot_S512x128_S128x128_S512x128_1_0_0_1_n_n.rhsNonContracting by decide)]
  rfl

theorem dot128_apply (P : FVec Ideal S512x128 .f32) (w : FVec Ideal S128x128 .f32) (gr : Fin 512) (k : Fin 128) :
    Host.dotGeneral (F := Ideal) dot_S512x128_S128x128_S512x128_1_0_0_1_n_n none P w (ix2 gr k)
      = ∑ j : Fin 128, P (ix2 gr j) * w (ix2 j k) := by
  simp only [Host.dotGeneral]
  rw [Ideal.dotGeneral_apply, ← Equiv.sum_comp (ValueIdx.contrEquiv1 dot_S512x128_S128x128_S512x128_1_0_0_1_n_n 128 rfl rfl).symm]
  refine Finset.sum_congr rfl fun j _ => ?_
  have hj := ValueIdx.contrEquiv1_symm_val dot_S512x128_S128x128_S512x128_1_0_0_1_n_n 128 rfl rfl j
  have el : dot_S512x128_S128x128_S512x128_1_0_0_1_n_n.lhsIdx (ix2 gr k) ((ValueIdx.contrEquiv1 dot_S512x128_S128x128_S512x128_1_0_0_1_n_n 128 rfl rfl).symm j) = ix2 gr j := funext fun a => Fin.ext (by
    match a with
    | ⟨0, _⟩ => exact lhs_dot128_0 _ _
    | ⟨1, _⟩ => exact (lhs_dot128_1 _ _).trans hj)
  have er : dot_S512x128_S128x128_S512x128_1_0_0_1_n_n.rhsIdx (ix2 gr k) ((ValueIdx.contrEquiv1 dot_S512x128_S128x128_S512x128_1_0_0_1_n_n 128 rfl rfl).symm j) = ix2 j k := funext fun a => Fin.ext (by
    match a with
    | ⟨0, _⟩ => exact (rhs_dot128_0 _ _).trans hj
    | ⟨1, _⟩ => exact rhs_dot128_1 _ _)
  rw [el, er]

theorem lhs_dot64_0 (i : S512x64.Idx) (q : dot_S512x128_S128x64_S512x64_1_0_0_1_n_n.contr.Idx) :
    (dot_S512x128_S128x64_S512x64_1_0_0_1_n_n.lhsIdx i q 0).val = (i 0).val := by
  unfold DotDims.lhsIdx
  rw [dif_neg (show ¬(0 : Fin S512x128.rank) ∈ dot_S512x128_S128x64_S512x64_1_0_0_1_n_n.lhsBatch by decide), dif_pos (show (0 : Fin S512x128.rank) ∈ dot_S512x128_S128x64_S512x64_1_0_0_1_n_n.lhsNonContracting by decide)]
  rfl
theorem lhs_dot64_1 (i : S512x64.Idx) (q : dot_S512x128_S128x64_S512x64_1_0_0_1_n_n.contr.Idx) :
    (dot_S512x128_S128x64_S512x64_1_0_0_1_n_n.lhsIdx i q 1).val = (q ⟨0, by decide⟩).val :=
  dot_S512x128_S128x64_S512x64_1_0_0_1_n_n.lhsIdx_val_of_single rfl i q
theorem rhs_dot64_0 (i : S512x64.Idx) (q : dot_S512x128_S128x64_S512x64_1_0_0_1_n_n.contr.Idx) :
    (dot_S512x128_S128x64_S512x64_1_0_0_1_n_n.rhsIdx i q 0).val = (q ⟨0, by decide⟩).val :=
  dot_S512x128_S128x64_S512x64_1_0_0_1_n_n.rhsIdx_val_of_single rfl i q
theorem rhs_dot64_1 (i : S512x64.Idx) (q : dot_S512x128_S128x64_S512x64_1_0_0_1_n_n.contr.Idx) :
    (dot_S512x128_S128x64_S512x64_1_0_0_1_n_n.rhsIdx i q 1).val = (i 1).val := by
  unfold DotDims.rhsIdx
  rw [dif_neg (show ¬(1 : Fin S128x64.rank) ∈ dot_S512x128_S128x64_S512x64_1_0_0_1_n_n.rhsBatch by decide), dif_pos (show (1 : Fin S128x64.rank) ∈ dot_S512x128_S128x64_S512x64_1_0_0_1_n_n.rhsNonContracting by decide)]
  rfl

theorem dot64_apply (H : FVec Ideal S512x128 .f32) (w : FVec Ideal S128x64 .f32) (gr : Fin 512) (o : Fin 64) :
    Host.dotGeneral (F := Ideal) dot_S512x128_S128x64_S512x64_1_0_0_1_n_n none H w (ix2 gr o)
      = ∑ k : Fin 128, H (ix2 gr k) * w (ix2 k o) := by
  simp only [Host.dotGeneral]
  rw [Ideal.dotGeneral_apply, ← Equiv.sum_comp (ValueIdx.contrEquiv1 dot_S512x128_S128x64_S512x64_1_0_0_1_n_n 128 rfl rfl).symm]
  refine Finset.sum_congr rfl fun k _ => ?_
  have hk := ValueIdx.contrEquiv1_symm_val dot_S512x128_S128x64_S512x64_1_0_0_1_n_n 128 rfl rfl k
  have el : dot_S512x128_S128x64_S512x64_1_0_0_1_n_n.lhsIdx (ix2 gr o) ((ValueIdx.contrEquiv1 dot_S512x128_S128x64_S512x64_1_0_0_1_n_n 128 rfl rfl).symm k) = ix2 gr k := funext fun a => Fin.ext (by
    match a with
    | ⟨0, _⟩ => exact lhs_dot64_0 _ _
    | ⟨1, _⟩ => exact (lhs_dot64_1 _ _).trans hk)
  have er : dot_S512x128_S128x64_S512x64_1_0_0_1_n_n.rhsIdx (ix2 gr o) ((ValueIdx.contrEquiv1 dot_S512x128_S128x64_S512x64_1_0_0_1_n_n 128 rfl rfl).symm k) = ix2 k o := funext fun a => Fin.ext (by
    match a with
    | ⟨0, _⟩ => exact (rhs_dot64_0 _ _).trans hk
    | ⟨1, _⟩ => exact rhs_dot64_1 _ _)
  rw [el, er]

def headTerm (X : FVec Ideal S100000x128 .f32) (ids : IVec S100000 32) (l1w : FVec Ideal S128x128 .f32)
    (l1b : FVec Ideal S128 .f32) (l2w : FVec Ideal S128x64 .f32) (l2b : FVec Ideal S64 .f32) : FVec Ideal S512x64 .f32 :=
  addf
    (Host.dotGeneral (F := Ideal) dot_S512x128_S128x64_S512x64_1_0_0_1_n_n none
      (maximumf
        (addf
          (Host.dotGeneral (F := Ideal) dot_S512x128_S128x128_S512x128_1_0_0_1_n_n none
            (Host.scatterAdd (F := Ideal) scatter_S512x128_S100000x1_S100000x128_1_0_0_1
              (broadcastInDim S512x128 ![] bcast_S_S512x128 (constant (F := Ideal) S_ .f32 0x00000000#32))
              (broadcastInDim S100000x1 ![0] bcast_S100000_S100000x1_0 ids) X)
            l1w)
          (broadcastInDim S512x128 ![0, 1] bcast_S1x128_S512x128_0_1 (broadcastInDim S1x128 ![1] bcast_S128_S1x128_1 l1b)))
        (broadcastInDim S512x128 ![] bcast_S_S512x128 (constant (F := Ideal) S_ .f32 0x00000000#32)))
      l2w)
    (broadcastInDim S512x64 ![0, 1] bcast_S1x64_S512x64_0_1 (broadcastInDim S1x64 ![1] bcast_S64_S1x64_1 l2b))

theorem headTerm_apply (X : FVec Ideal S100000x128 .f32) (ids : IVec S100000 32) (l1w : FVec Ideal S128x128 .f32)
    (l1b : FVec Ideal S128 .f32) (l2w : FVec Ideal S128x64 .f32) (l2b : FVec Ideal S64 .f32) (gr : Fin 512) (o : Fin 64) :
    headTerm X ids l1w l1b l2w l2b (ix2 gr o)
      = GinSpec.head (GinSpec.pool (fun n j => X (ix2 n j)) (fun n => ids (ix1 n))) (fun j k => l1w (ix2 j k))
          (fun k => l1b (ix1 k)) (fun k q => l2w (ix2 k q)) (fun q => l2b (ix1 q)) gr o := by
  unfold headTerm
  first | rw [addf_apply, dot64_apply, biasRows64_apply] | fail "outer"
  show _ = (∑ k : Fin 128, max ((∑ j : Fin 128, GinSpec.pool (fun n j => X (ix2 n j)) (fun n => ids (ix1 n)) gr j * l1w (ix2 j k))
      + l1b (ix1 k)) GinSpec.zero * l2w (ix2 k o)) + l2b (ix1 o)
  refine congrArg (· + l2b (ix1 o)) (Finset.sum_congr rfl fun k _ => ?_)
  rw [maximumf_apply, addf_apply, dot128_apply, biasRows128_apply, zeros_apply]
  refine congrArg (fun s => max (s + l1b (ix1 k)) GinSpec.zero * l2w (ix2 k o)) (Finset.sum_congr rfl fun j _ => ?_)
  rw [poolSum_apply]

open Idealize.ShloMosaic.TcCoe Idealize.ShloMosaic.StableHlo in

theorem head_val (W : Valuation τ sig (Elt Ideal)) (gr : Fin 512) (o : Fin 64) :
    StableHlo.after opsHead W main_v247 (ix2 gr o)
      = GinSpec.head (GinSpec.pool (fun n j => W main_v235 (ix2 n j)) (fun n => W main_arg2 (ix1 n)))
          (fun j k => W main_arg12 (ix2 j k)) (fun k => W main_arg13 (ix1 k)) (fun k q => W main_arg14 (ix2 k q))
          (fun q => W main_arg15 (ix1 q)) gr o := by
  have e : (StableHlo.after opsHead W main_v247 : S512x64.Idx → EReal)
      = headTerm (W main_v235) (W main_arg2) (W main_arg12) (W main_arg13) (W main_arg14) (W main_arg15) := by
    after_results_simp <;> (try simp only [TRef.ofBuf, TRef.toBuf, cast_eq]) <;> rfl
  rw [e, headTerm_apply]

end Cert.ReferenceIdeal.Hand

end
-- ==== Proof.Ref.Value.lean ====
import proofs.«428851_j84464826843159_1_alg».proof.Proof.Ref.Run
import proofs.«428851_j84464826843159_1_alg».proof.Proof.Ref.Layer0
import proofs.«428851_j84464826843159_1_alg».proof.Proof.Ref.Layer1
import proofs.«428851_j84464826843159_1_alg».proof.Proof.Ref.Layer2
import proofs.«428851_j84464826843159_1_alg».proof.Proof.Ref.Layer3
import proofs.«428851_j84464826843159_1_alg».proof.Proof.Ref.Head
import proofs.«428851_j84464826843159_1_alg».proof.Proof.Spec
import Idealize.ShloMosaic.Lib.ValueIdx

set_option maxRecDepth 16384

noncomputable section

namespace Cert.ReferenceIdeal.Hand

open Cert.ReferenceIdeal Cert.ReferenceIdeal.Gen Idealize.ShloMosaic Idealize.ShloMosaic.TcCoe Idealize.ShloMosaic.StableHlo
  Idealize.ShloMosaic.ValueIdx

section Kept
variable {F : FTy → Type} [FloatOps F] (W : Valuation τ sig (Elt F)) (b : Ref sig .tc)

theorem kept_L01 (h0 : b ∉ opsL0_W) (h1 : b ∉ opsL1_W) : after opsL1 (after opsL0 W) b = W b :=
  (opsL1_keeps _ b h1).trans (opsL0_keeps W b h0)

theorem kept_L02 (h0 : b ∉ opsL0_W) (h1 : b ∉ opsL1_W) (h2 : b ∉ opsL2_W) :
    after opsL2 (after opsL1 (after opsL0 W)) b = W b :=
  (opsL2_keeps _ b h2).trans (kept_L01 W b h0 h1)

theorem kept_L03 (h0 : b ∉ opsL0_W) (h1 : b ∉ opsL1_W) (h2 : b ∉ opsL2_W) (h3 : b ∉ opsL3_W) :
    after opsL3 (after opsL2 (after opsL1 (after opsL0 W))) b = W b :=
  (opsL3_keeps _ b h3).trans (kept_L02 W b h0 h1 h2)

theorem ref_kept (h : b ∉ opsL0_W ∧ b ∉ opsL1_W ∧ b ∉ opsL2_W ∧ b ∉ opsL3_W ∧ b ∉ opsHead_W) : after ops W b = W b := by
  rw [after_ops]
  exact (opsHead_keeps _ b h.2.2.2.2).trans (kept_L03 W b h.1 h.2.1 h.2.2.1 h.2.2.2.1)

end Kept

section Net
variable (W : Valuation τ sig (Elt Ideal))

abbrev specLayer (l : Fin 4) (X : GinSpec.Mat 100000 128) : GinSpec.Mat 100000 128 :=
  GinSpec.layerAt (W main_arg1) (W main_arg3) (W main_arg4) (W main_arg5) (W main_arg6) (W main_arg7) (W main_arg8)
    (W main_arg9) (W main_arg10) (W main_arg11) l X

abbrev specInput : GinSpec.Mat 100000 128 := fun r p => W main_arg0 (ix2 r p)

theorem src_L0 : (fun e => after opsL0 W main_v1 (ix1 e)) = GinSpec.srcOf (W main_arg1) := funext fun e => layer0_src W e

theorem dst_L0 : (fun e => after opsL0 W main_v3 (ix1 e)) = GinSpec.dstOf (W main_arg1) := funext fun e => layer0_dst W e

theorem src_L1 : (fun e => after opsL1 (after opsL0 W) main_v1 (ix1 e)) = GinSpec.srcOf (W main_arg1) := by
  rw [opsL1_keeps _ main_v1 (by decide)]; exact src_L0 W
theorem dst_L1 : (fun e => after opsL1 (after opsL0 W) main_v3 (ix1 e)) = GinSpec.dstOf (W main_arg1) := by
  rw [opsL1_keeps _ main_v3 (by decide)]; exact dst_L0 W

theorem src_L2 : (fun e => after opsL2 (after opsL1 (after opsL0 W)) main_v1 (ix1 e)) = GinSpec.srcOf (W main_arg1) := by
  rw [opsL2_keeps _ main_v1 (by decide)]; exact src_L1 W
theorem dst_L2 : (fun e => after opsL2 (after opsL1 (after opsL0 W)) main_v3 (ix1 e)) = GinSpec.dstOf (W main_arg1) := by
  rw [opsL2_keeps _ main_v3 (by decide)]; exact dst_L1 W

theorem out_L0 : (fun r p => after opsL0 W main_v61 (ix2 r p)) = specLayer W 0 (specInput W) := by
  funext r p
  rw [layer0_val]
  rfl

theorem out_L1 : (fun r p => after opsL1 (after opsL0 W) main_v119 (ix2 r p)) = specLayer W 1 (specLayer W 0 (specInput W)) := by
  funext r p
  rw [layer1_val, src_L0 W, dst_L0 W, out_L0 W,
    opsL0_keeps W main_arg3 (by decide), opsL0_keeps W main_arg4 (by decide), opsL0_keeps W main_arg5 (by decide), opsL0_keeps W main_arg6 (by decide), opsL0_keeps W main_arg7 (by decide), opsL0_keeps W main_arg8 (by decide), opsL0_keeps W main_arg9 (by decide), opsL0_keeps W main_arg10 (by decide), opsL0_keeps W main_arg11 (by decide)]
  rfl

theorem out_L2 : (fun r p => after opsL2 (after opsL1 (after opsL0 W)) main_v177 (ix2 r p))
    = specLayer W 2 (specLayer W 1 (specLayer W 0 (specInput W))) := by
  funext r p
  rw [layer2_val, src_L1 W, dst_L1 W, out_L1 W,
    kept_L01 W main_arg3 (by decide) (by decide), kept_L01 W main_arg4 (by decide) (by decide), kept_L01 W main_arg5 (by decide) (by decide), kept_L01 W main_arg6 (by decide) (by decide), kept_L01 W main_arg7 (by decide) (by decide), kept_L01 W main_arg8 (by decide) (by decide), kept_L01 W main_arg9 (by decide) (by decide), kept_L01 W main_arg10 (by decide) (by decide), kept_L01 W main_arg11 (by decide) (by decide)]
  rfl

theorem out_L3 : (fun r p => after opsL3 (after opsL2 (after opsL1 (after opsL0 W))) main_v235 (ix2 r p))
    = GinSpec.nodes (W main_arg0) (W main_arg1) (W main_arg3) (W main_arg4) (W main_arg5) (W main_arg6) (W main_arg7)
        (W main_arg8) (W main_arg9) (W main_arg10) (W main_arg11) := by
  funext r p
  rw [layer3_val, src_L2 W, dst_L2 W, out_L2 W,
    kept_L02 W main_arg3 (by decide) (by decide) (by decide), kept_L02 W main_arg4 (by decide) (by decide) (by decide), kept_L02 W main_arg5 (by decide) (by decide) (by decide), kept_L02 W main_arg6 (by decide) (by decide) (by decide), kept_L02 W main_arg7 (by decide) (by decide) (by decide), kept_L02 W main_arg8 (by decide) (by decide) (by decide), kept_L02 W main_arg9 (by decide) (by decide) (by decide), kept_L02 W main_arg10 (by decide) (by decide) (by decide), kept_L02 W main_arg11 (by decide) (by decide) (by decide)]
  rfl

theorem ref_val : (after ops W main_v247 : S512x64.Idx → EReal)
    = GinSpec.net (W main_arg0) (W main_arg1) (W main_arg2) (W main_arg3) (W main_arg4) (W main_arg5) (W main_arg6)
        (W main_arg7) (W main_arg8) (W main_arg9) (W main_arg10) (W main_arg11) (W main_arg12) (W main_arg13)
        (W main_arg14) (W main_arg15) := by
  rw [after_ops]
  funext i
  obtain ⟨gr, o, rfl⟩ : ∃ (gr : Fin 512) (o : Fin 64), i = ix2 gr o := ⟨i 0, i 1, eq_ix2 i⟩
  rw [head_val, out_L3 W,
    kept_L03 W main_arg2 (by decide) (by decide) (by decide) (by decide), kept_L03 W main_arg12 (by decide) (by decide) (by decide) (by decide), kept_L03 W main_arg13 (by decide) (by decide) (by decide) (by decide), kept_L03 W main_arg14 (by decide) (by decide) (by decide) (by decide), kept_L03 W main_arg15 (by decide) (by decide) (by decide) (by decide)]
  rfl

end Net

end Cert.ReferenceIdeal.Hand

end
-- ==== Proof.lean ====
import proofs.«428851_j84464826843159_1_alg».proof.Defs
import proofs.«428851_j84464826843159_1_alg».proof.Proof.Gen.Kernel
import proofs.«428851_j84464826843159_1_alg».proof.Proof.Gen.KernelIdeal
import proofs.«428851_j84464826843159_1_alg».proof.Proof.Gen.ReferenceIdeal
import proofs.«428851_j84464826843159_1_alg».proof.Proof.Gen.Pre_finite_inputs
import proofs.«428851_j84464826843159_1_alg».proof.Proof.KFrame
import proofs.«428851_j84464826843159_1_alg».proof.Proof.KI.Value
import proofs.«428851_j84464826843159_1_alg».proof.Proof.Ref.Run
import proofs.«428851_j84464826843159_1_alg».proof.Proof.Ref.Value

noncomputable section

namespace Cert.Proof

open Idealize.ShloMosaic Idealize.ShloMosaic.TcCoe Idealize.SL.Sem
open Cert.ReferenceIdeal.Hand (ref_kept run_fold ref_val)

theorem frame_ki : Cert.frame_KernelIdeal := fun m ρ _ =>
  (θ_run Cert.KernelIdeal.defs _ _).mono (fun _ h c => (h c).2) (Cert.KernelIdeal.Hand.run_post (F := Ideal) m ρ)

-- No operation of the reference writes an argument array.
theorem frame_ri : Cert.frame_ReferenceIdeal := fun m ρ _ =>
  (θ_run Cert.ReferenceIdeal.defs _ _).mono (fun _ h c => by
    refine ⟨?_, ?_, ?_, ?_, ?_, ?_, ?_, ?_, ?_, ?_, ?_, ?_, ?_, ?_, ?_, ?_⟩ <;>
      exact (h c _).trans (ref_kept _ _ (by decide)))
    (run_fold (F := Ideal) m ρ)

theorem preserves : Cert.preserves_Kernel_KernelIdeal := trivial

-- Both programs end with the network `GinSpec.net` of the sixteen arguments in their result arrays.
theorem algebraic : Cert.algebraic_KernelIdeal_ReferenceIdeal := by
  intro m ρ m' ρ' _ hagree
  refine ⟨fun c => Cert.KernelIdeal.Hand.W10 m c Cert.KernelIdeal.main_v163, Cert.KernelIdeal.Hand.run_post (F := Ideal) m ρ,
    (θ_run Cert.ReferenceIdeal.defs _ _).mono (fun _ h c => ?_) (run_fold (F := Ideal) m' ρ')⟩
  refine ⟨?_, ?_, ?_, ?_, ?_, ?_, ?_, ?_, ?_, ?_, ?_, ?_, ?_, ?_, ?_, ?_, ?_⟩
  · refine (h c Cert.ReferenceIdeal.main_v247).trans ?_
    refine (ref_val (StableHlo.launchContents m' c)).trans ?_
    refine Eq.trans ?_ (Cert.KernelIdeal.Hand.kernel_val m c).symm
    have e : ∀ b : Ref Cert.ReferenceIdeal.sig .tc, StableHlo.launchContents m' c b
        = m' ((c.tc : Thread Cert.ReferenceIdeal.nD Cert.ReferenceIdeal.τ).loc b) := fun _ => rfl
    obtain ⟨e0, e1, e2, e3, e4, e5, e6, e7, e8, e9, e10, e11, e12, e13, e14, e15⟩ := hagree c
    simp only [e, e0, e1, e2, e3, e4, e5, e6, e7, e8, e9, e10, e11, e12, e13, e14, e15]
  all_goals exact (h c _).trans (ref_kept _ _ (by decide))

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
